-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S8x1024x20 : Shape := ⟨3, ![8, 1024, 20]⟩
abbrev S64x1024 : Shape := ⟨2, ![64, 1024]⟩
abbrev S64 : Shape := ⟨1, ![64]⟩
abbrev S512x64 : Shape := ⟨2, ![512, 64]⟩
abbrev S512 : Shape := ⟨1, ![512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S8x1024x20 : S_.BroadcastsInDim S8x1024x20 (![] : Fin 0 → Fin S8x1024x20.rank)
  reducesTo_S8x1024x20_S_d0_1_2 : S8x1024x20.ReducesTo [0, 1, 2] S_

variable [Facts]

def fn_part2 {F : FTy → Type} [FloatOps F] (main_arg1 : IVec S8x1024x20 32) (main_v33 : IVec S_ 1) : IVec S_ 1 :=
  let main_c_12 : IVec S_ 32 := constantI S_ 32 0#32
  let main_v34 : IVec S8x1024x20 32 := broadcastInDim S8x1024x20 ![] bcast_S_S8x1024x20 main_c_12
  let main_v35 : IVec S8x1024x20 1 := cmpi .sge main_arg1 main_v34
  let main_c_13 : IVec S_ 32 := constantI S_ 32 1024#32
  let main_v36 : IVec S8x1024x20 32 := broadcastInDim S8x1024x20 ![] bcast_S_S8x1024x20 main_c_13
  let main_v37 : IVec S8x1024x20 1 := cmpi .slt main_arg1 main_v36
  let main_v38 : IVec S8x1024x20 1 := andi main_v35 main_v37
  let main_c_14 : IVec S_ 1 := constantI S_ 1 1#1
  let main_v39 : IVec S_ 1 := (fun x v => Host.reduce IntOp.andi x v reducesTo_S8x1024x20_S_d0_1_2 h_S_) main_v38 main_c_14
  let main_v40 : IVec S_ 1 := andi main_v33 main_v39
  main_v40

def fn_part1 {F : FTy → Type} [FloatOps F] (main_arg1 : IVec S8x1024x20 32) (main_arg5 : FVec F S512x64 .f32) (main_arg6 : FVec F S512 .f32) (main_arg7 : FVec F S512 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S512x64 .f32 := Host.absf main_arg5
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_v33

def fn {F : FTy → Type} [FloatOps F] (main_arg0 : FVec F S8x1024x512 .f32) (main_arg1 : IVec S8x1024x20 32) (main_arg2 : FVec F S64x1024 .f32) (main_arg3 : FVec F S64 .f32) (main_arg4 : FVec F S64 .f32) (main_arg5 : FVec F S512x64 .f32) (main_arg6 : FVec F S512 .f32) (main_arg7 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S64x1024 .f32 := Host.absf main_arg2
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_v13 main_v16
-- ==== Kernel.lean ====
abbrev S8x1024x512 : Shape := ⟨3, ![8, 1024, 512]⟩
abbrev S8x1024x20 : Shape := ⟨3, ![8, 1024, 20]⟩
abbrev S64x1024 : Shape := ⟨2, ![64, 1024]⟩
abbrev S64 : Shape := ⟨1, ![64]⟩
abbrev S512x64 : Shape := ⟨2, ![512, 64]⟩
abbrev S512 : Shape := ⟨1, ![512]⟩
abbrev S_ : Shape := ⟨0, ![]⟩
abbrev S64x512 : Shape := ⟨2, ![64, 512]⟩
abbrev S8x1024x1280 : Shape := ⟨3, ![8, 1024, 1280]⟩
abbrev S8x1x64 : Shape := ⟨3, ![8, 1, 64]⟩
abbrev S1x1024x512 : Shape := ⟨3, ![1, 1024, 512]⟩
abbrev S1x256x20 : Shape := ⟨3, ![1, 256, 20]⟩
abbrev S1x256x1280 : Shape := ⟨3, ![1, 256, 1280]⟩
abbrev S1x1x64 : Shape := ⟨3, ![1, 1, 64]⟩
abbrev S1024x64 : Shape := ⟨2, ![1024, 64]⟩
abbrev S1024x512 : Shape := ⟨2, ![1024, 512]⟩
abbrev S256x64 : Shape := ⟨2, ![256, 64]⟩
abbrev S1x1024 : Shape := ⟨2, ![1, 1024]⟩
abbrev S1x64 : Shape := ⟨2, ![1, 64]⟩
abbrev S1x256x1 : Shape := ⟨3, ![1, 256, 1]⟩
abbrev S256x1 : Shape := ⟨2, ![256, 1]⟩
abbrev S256x1024 : Shape := ⟨2, ![256, 1024]⟩
abbrev S1x256x64 : Shape := ⟨3, ![1, 256, 64]⟩
abbrev S8x64 : Shape := ⟨2, ![8, 64]⟩
abbrev S8x1x512 : Shape := ⟨3, ![8, 1, 512]⟩
abbrev S1x256x512 : Shape := ⟨3, ![1, 256, 512]⟩
abbrev S1x1x512 : Shape := ⟨3, ![1, 1, 512]⟩
abbrev S256x512 : Shape := ⟨2, ![256, 512]⟩
abbrev S1x512 : Shape := ⟨2, ![1, 512]⟩
abbrev S8x512 : Shape := ⟨2, ![8, 512]⟩
abbrev S8192x512 : Shape := ⟨2, ![8192, 512]⟩

abbrev nBuf : Space → Nat
  | .hbm => 69
  | .vmem => 35
  | .smem => 0
  | _ => 0

abbrev bufTy : (tb : Table) → Fin (tcTables nBuf tb) → BufTy
  | .hbm, ⟨0, _⟩ => ⟨S8x1024x512, .f32⟩
  | .hbm, ⟨1, _⟩ => ⟨S8x1024x20, .i32⟩
  | .hbm, ⟨2, _⟩ => ⟨S64x1024, .f32⟩
  | .hbm, ⟨3, _⟩ => ⟨S64, .f32⟩
  | .hbm, ⟨4, _⟩ => ⟨S64, .f32⟩
  | .hbm, ⟨5, _⟩ => ⟨S512x64, .f32⟩
  | .hbm, ⟨6, _⟩ => ⟨S512, .f32⟩
  | .hbm, ⟨7, _⟩ => ⟨S512, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S8x1024x20, .i32⟩
  | .hbm, ⟨12, _⟩ => ⟨S8x1024x20, .i32⟩
  | .hbm, ⟨13, _⟩ => ⟨S_, .i32⟩
  | .hbm, ⟨14, _⟩ => ⟨S8x1024x20, .i32⟩
  | .hbm, ⟨15, _⟩ => ⟨S8x1024x20, .i32⟩
  | .hbm, ⟨16, _⟩ => ⟨S64x512, .f32⟩
  | .hbm, ⟨17, _⟩ => ⟨S64x512, .f32⟩
  | .hbm, ⟨18, _⟩ => ⟨S8x1024x1280, .bf16⟩
  | .hbm, ⟨19, _⟩ => ⟨S8x1x64, .f32⟩
  | .hbm, ⟨20, _⟩ => ⟨S8x1x64, .f32⟩
  | .hbm, ⟨21, _⟩ => ⟨S8x64, .f32⟩
  | .hbm, ⟨22, _⟩ => ⟨S_, .f32⟩
  | .hbm, ⟨23, _⟩ => ⟨S64, .f32⟩
  | .hbm, ⟨24, _⟩ => ⟨S8x64, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x1x64, .f32⟩
  | .hbm, ⟨39, _⟩ => ⟨S1x1x64, .f32⟩
  | .hbm, ⟨40, _⟩ => ⟨S1x1x64, .f32⟩
  | .hbm, ⟨41, _⟩ => ⟨S1x1x64, .f32⟩
  | .hbm, ⟨42, _⟩ => ⟨S8x1024x512, .f32⟩
  | .hbm, ⟨43, _⟩ => ⟨S8x1x512, .f32⟩
  | .hbm, ⟨44, _⟩ => ⟨S8x1x512, .f32⟩
  | .hbm, ⟨45, _⟩ => ⟨S8x512, .f32⟩
  | .hbm, ⟨46, _⟩ => ⟨S_, .f32⟩
  | .hbm, ⟨47, _⟩ => ⟨S512, .f32⟩
  | .hbm, ⟨48, _⟩ => ⟨S8x512, .f32⟩
  | .hbm, ⟨49, _⟩ => ⟨S_, .f32⟩
  | .hbm, ⟨50, _⟩ => ⟨S512, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S1x512, .f32⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S8192x512, .f32⟩
  | .hbm, ⟨67, _⟩ => ⟨S8192x512, .f32⟩
  | .hbm, ⟨68, _⟩ => ⟨S8x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x256x20, .i32⟩
  | .local _ .vmem, ⟨3, _⟩ => ⟨S1x256x20, .i32⟩
  | .local _ .vmem, ⟨4, _⟩ => ⟨S64x512, .f32⟩
  | .local _ .vmem, ⟨5, _⟩ => ⟨S64x512, .f32⟩
  | .local _ .vmem, ⟨6, _⟩ => ⟨S1x256x1280, .bf16⟩
  | .local _ .vmem, ⟨7, _⟩ => ⟨S1x256x1280, .bf16⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1024x64, .f32⟩
  | .local _ .vmem, ⟨13, _⟩ => ⟨S1024x64, .f32⟩
  | .local _ .vmem, ⟨14, _⟩ => ⟨S1x256x1280, .bf16⟩
  | .local _ .vmem, ⟨15, _⟩ => ⟨S1x256x1280, .bf16⟩
  | .local _ .vmem, ⟨16, _⟩ => ⟨S1x1x64, .f32⟩
  | .local _ .vmem, ⟨17, _⟩ => ⟨S1x1x64, .f32⟩
  | .local _ .vmem, ⟨18, _⟩ => ⟨S1x1x64, .f32⟩
  | .local _ .vmem, ⟨19, _⟩ => ⟨S1x1x64, .f32⟩
  | .local _ .vmem, ⟨20, _⟩ => ⟨S512x64, .f32⟩
  | .local _ .vmem, ⟨21, _⟩ => ⟨S1x256x512, .f32⟩
  | .local _ .vmem, ⟨22, _⟩ => ⟨S1x256x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x1x512, .f32⟩
  | .local _ .vmem, ⟨27, _⟩ => ⟨S1024x512, .f32⟩
  | .local _ .vmem, ⟨28, _⟩ => ⟨S1024x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1024x512, .f32⟩
  | .local _ .vmem, ⟨34, _⟩ => ⟨S1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20_0 : Ref sig .tc := ⟨.hbm, 42, rfl⟩
abbrev main_v20_1 : Ref sig .tc := ⟨.hbm, 43, rfl⟩
abbrev main_v20_2 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_cst_6 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x20 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S8x1024x20 : S_.BroadcastsInDim S8x1024x20 (![] : Fin 0 → Fin S8x1024x20.rank)
  slices_S64x1024_S64x512_0_0 : S64x1024.Slices ![0, 0] S64x512
  slices_S64x1024_S64x512_0_512 : S64x1024.Slices ![0, 512] S64x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1x64_S1x1x64_0_0_0 : ∀ a, (![0, 0, 0] : Fin 3 → Nat) a + S1x1x64.size a ≤ S1x1x64.size a
  h_S1x1x64 : 0 < S1x1x64.numel
  h_S256x64 : 0 < S256x64.numel
  iota_S1x1024_d1_w32 : S1x1024.Iotas .tc 32 [1]
  inb_S1x256x20_S1x256x1_0_0_0 : ∀ a, (![0, 0, 0] : Fin 3 → Nat) a + S1x256x1.size a ≤ S1x256x20.size a
  h_S1x256x1 : 0 < S1x256x1.numel
  shapeCasts_S1x256x1_S256x1 : S1x256x1.ShapeCasts S256x1
  broadcasts_S256x1_S256x1024 : S256x1.Broadcasts S256x1024
  broadcasts_S1x1024_S256x1024 : S1x1024.Broadcasts S256x1024
  natLt_1_32 : 1 < 32
  reduces_S256x64_S64 : S256x64.Reduces [0] S64
  shapeCasts_S64_S1x64 : S64.ShapeCasts S1x64
  inb_S1x256x1280_S1x256x64_0_0_0 : ∀ a, (![0, 0, 0] : Fin 3 → Nat) a + S1x256x64.size a ≤ S1x256x1280.size a
  h_S1x256x64 : 0 < S1x256x64.numel
  shapeCasts_S1x256x64_S256x64 : S1x256x64.ShapeCasts S256x64
  shapeCasts_S256x64_S1x256x64 : S256x64.ShapeCasts S1x256x64
  packedbf16_S1x256x1280_S1x256x64_0_0_0 : (Rect.unit (s := S1x256x1280) ![0, 0, 0] S1x256x64.size inb_S1x256x1280_S1x256x64_0_0_0).PackedRows (EltTy.packing .bf16)
  inb_S1x256x20_S1x256x1_0_0_1 : ∀ a, (![0, 0, 1] : Fin 3 → Nat) a + S1x256x1.size a ≤ S1x256x20.size a
  inb_S1x256x1280_S1x256x64_0_0_64 : ∀ a, (![0, 0, 64] : Fin 3 → Nat) a + S1x256x64.size a ≤ S1x256x1280.size a
  packedbf16_S1x256x1280_S1x256x64_0_0_64 : (Rect.unit (s := S1x256x1280) ![0, 0, 64] S1x256x64.size inb_S1x256x1280_S1x256x64_0_0_64).PackedRows (EltTy.packing .bf16)
  inb_S1x256x20_S1x256x1_0_0_2 : ∀ a, (![0, 0, 2] : Fin 3 → Nat) a + S1x256x1.size a ≤ S1x256x20.size a
  inb_S1x256x1280_S1x256x64_0_0_128 : ∀ a, (![0, 0, 128] : Fin 3 → Nat) a + S1x256x64.size a ≤ S1x256x1280.size a
  packedbf16_S1x256x1280_S1x256x64_0_0_128 : (Rect.unit (s := S1x256x1280) ![0, 0, 128] S1x256x64.size inb_S1x256x1280_S1x256x64_0_0_128).PackedRows (EltTy.packing .bf16)
  inb_S1x256x20_S1x256x1_0_0_3 : ∀ a, (![0, 0, 3] : Fin 3 → Nat) a + S1x256x1.size a ≤ S1x256x20.size a
  inb_S1x256x1280_S1x256x64_0_0_192 : ∀ a, (![0, 0, 192] : Fin 3 → Nat) a + S1x256x64.size a ≤ S1x256x1280.size a
  packedbf16_S1x256x1280_S1x256x64_0_0_192 : (Rect.unit (s := S1x256x1280) ![0, 0, 192] S1x256x64.size inb_S1x256x1280_S1x256x64_0_0_192).PackedRows (EltTy.packing .bf16)
  inb_S1x256x20_S1x256x1_0_0_4 : ∀ a, (![0, 0, 4] : Fin 3 → Nat) a + S1x256x1.size a ≤ S1x256x20.size a
  inb_S1x256x1280_S1x256x64_0_0_256 : ∀ a, (![0, 0, 256] : Fin 3 → Nat) a + S1x256x64.size a ≤ S1x256x1280.size a
  packedbf16_S1x256x1280_S1x256x64_0_0_256 : (Rect.unit (s := S1x256x1280) ![0, 0, 256] S1x256x64.size inb_S1x256x1280_S1x256x64_0_0_256).PackedRows (EltTy.packing .bf16)
  inb_S1x256x20_S1x256x1_0_0_5 : ∀ a, (![0, 0, 5] : Fin 3 → Nat) a + S1x256x1.size a ≤ S1x256x20.size a
  inb_S1x256x1280_S1x256x64_0_0_320 : ∀ a, (![0, 0, 320] : Fin 3 → Nat) a + S1x256x64.size a ≤ S1x256x1280.size a
  packedbf16_S1x256x1280_S1x256x64_0_0_320 : (Rect.unit (s := S1x256x1280) ![0, 0, 320] S1x256x64.size inb_S1x256x1280_S1x256x64_0_0_320).PackedRows (EltTy.packing .bf16)
  inb_S1x256x20_S1x256x1_0_0_6 : ∀ a, (![0, 0, 6] : Fin 3 → Nat) a + S1x256x1.size a ≤ S1x256x20.size a
  inb_S1x256x1280_S1x256x64_0_0_384 : ∀ a, (![0, 0, 384] : Fin 3 → Nat) a + S1x256x64.size a ≤ S1x256x1280.size a
  packedbf16_S1x256x1280_S1x256x64_0_0_384 : (Rect.unit (s := S1x256x1280) ![0, 0, 384] S1x256x64.size inb_S1x256x1280_S1x256x64_0_0_384).PackedRows (EltTy.packing .bf16)
  inb_S1x256x20_S1x256x1_0_0_7 : ∀ a, (![0, 0, 7] : Fin 3 → Nat) a + S1x256x1.size a ≤ S1x256x20.size a
  inb_S1x256x1280_S1x256x64_0_0_448 : ∀ a, (![0, 0, 448] : Fin 3 → Nat) a + S1x256x64.size a ≤ S1x256x1280.size a
  packedbf16_S1x256x1280_S1x256x64_0_0_448 : (Rect.unit (s := S1x256x1280) ![0, 0, 448] S1x256x64.size inb_S1x256x1280_S1x256x64_0_0_448).PackedRows (EltTy.packing .bf16)
  inb_S1x256x20_S1x256x1_0_0_8 : ∀ a, (![0, 0, 8] : Fin 3 → Nat) a + S1x256x1.size a ≤ S1x256x20.size a
  inb_S1x256x1280_S1x256x64_0_0_512 : ∀ a, (![0, 0, 512] : Fin 3 → Nat) a + S1x256x64.size a ≤ S1x256x1280.size a
  packedbf16_S1x256x1280_S1x256x64_0_0_512 : (Rect.unit (s := S1x256x1280) ![0, 0, 512] S1x256x64.size inb_S1x256x1280_S1x256x64_0_0_512).PackedRows (EltTy.packing .bf16)
  inb_S1x256x20_S1x256x1_0_0_9 : ∀ a, (![0, 0, 9] : Fin 3 → Nat) a + S1x256x1.size a ≤ S1x256x20.size a
  inb_S1x256x1280_S1x256x64_0_0_576 : ∀ a, (![0, 0, 576] : Fin 3 → Nat) a + S1x256x64.size a ≤ S1x256x1280.size a
  packedbf16_S1x256x1280_S1x256x64_0_0_576 : (Rect.unit (s := S1x256x1280) ![0, 0, 576] S1x256x64.size inb_S1x256x1280_S1x256x64_0_0_576).PackedRows (EltTy.packing .bf16)
  inb_S1x256x20_S1x256x1_0_0_10 : ∀ a, (![0, 0, 10] : Fin 3 → Nat) a + S1x256x1.size a ≤ S1x256x20.size a
  inb_S1x256x1280_S1x256x64_0_0_640 : ∀ a, (![0, 0, 640] : Fin 3 → Nat) a + S1x256x64.size a ≤ S1x256x1280.size a
  packedbf16_S1x256x1280_S1x256x64_0_0_640 : (Rect.unit (s := S1x256x1280) ![0, 0, 640] S1x256x64.size inb_S1x256x1280_S1x256x64_0_0_640).PackedRows (EltTy.packing .bf16)
  inb_S1x256x20_S1x256x1_0_0_11 : ∀ a, (![0, 0, 11] : Fin 3 → Nat) a + S1x256x1.size a ≤ S1x256x20.size a
  inb_S1x256x1280_S1x256x64_0_0_704 : ∀ a, (![0, 0, 704] : Fin 3 → Nat) a + S1x256x64.size a ≤ S1x256x1280.size a
  packedbf16_S1x256x1280_S1x256x64_0_0_704 : (Rect.unit (s := S1x256x1280) ![0, 0, 704] S1x256x64.size inb_S1x256x1280_S1x256x64_0_0_704).PackedRows (EltTy.packing .bf16)
  inb_S1x256x20_S1x256x1_0_0_12 : ∀ a, (![0, 0, 12] : Fin 3 → Nat) a + S1x256x1.size a ≤ S1x256x20.size a
  inb_S1x256x1280_S1x256x64_0_0_768 : ∀ a, (![0, 0, 768] : Fin 3 → Nat) a + S1x256x64.size a ≤ S1x256x1280.size a
  packedbf16_S1x256x1280_S1x256x64_0_0_768 : (Rect.unit (s := S1x256x1280) ![0, 0, 768] S1x256x64.size inb_S1x256x1280_S1x256x64_0_0_768).PackedRows (EltTy.packing .bf16)
  inb_S1x256x20_S1x256x1_0_0_13 : ∀ a, (![0, 0, 13] : Fin 3 → Nat) a + S1x256x1.size a ≤ S1x256x20.size a
  inb_S1x256x1280_S1x256x64_0_0_832 : ∀ a, (![0, 0, 832] : Fin 3 → Nat) a + S1x256x64.size a ≤ S1x256x1280.size a
  packedbf16_S1x256x1280_S1x256x64_0_0_832 : (Rect.unit (s := S1x256x1280) ![0, 0, 832] S1x256x64.size inb_S1x256x1280_S1x256x64_0_0_832).PackedRows (EltTy.packing .bf16)
  inb_S1x256x20_S1x256x1_0_0_14 : ∀ a, (![0, 0, 14] : Fin 3 → Nat) a + S1x256x1.size a ≤ S1x256x20.size a
  inb_S1x256x1280_S1x256x64_0_0_896 : ∀ a, (![0, 0, 896] : Fin 3 → Nat) a + S1x256x64.size a ≤ S1x256x1280.size a
  packedbf16_S1x256x1280_S1x256x64_0_0_896 : (Rect.unit (s := S1x256x1280) ![0, 0, 896] S1x256x64.size inb_S1x256x1280_S1x256x64_0_0_896).PackedRows (EltTy.packing .bf16)
  inb_S1x256x20_S1x256x1_0_0_15 : ∀ a, (![0, 0, 15] : Fin 3 → Nat) a + S1x256x1.size a ≤ S1x256x20.size a
  inb_S1x256x1280_S1x256x64_0_0_960 : ∀ a, (![0, 0, 960] : Fin 3 → Nat) a + S1x256x64.size a ≤ S1x256x1280.size a
  packedbf16_S1x256x1280_S1x256x64_0_0_960 : (Rect.unit (s := S1x256x1280) ![0, 0, 960] S1x256x64.size inb_S1x256x1280_S1x256x64_0_0_960).PackedRows (EltTy.packing .bf16)
  inb_S1x256x20_S1x256x1_0_0_16 : ∀ a, (![0, 0, 16] : Fin 3 → Nat) a + S1x256x1.size a ≤ S1x256x20.size a
  inb_S1x256x1280_S1x256x64_0_0_1024 : ∀ a, (![0, 0, 1024] : Fin 3 → Nat) a + S1x256x64.size a ≤ S1x256x1280.size a
  packedbf16_S1x256x1280_S1x256x64_0_0_1024 : (Rect.unit (s := S1x256x1280) ![0, 0, 1024] S1x256x64.size inb_S1x256x1280_S1x256x64_0_0_1024).PackedRows (EltTy.packing .bf16)
  inb_S1x256x20_S1x256x1_0_0_17 : ∀ a, (![0, 0, 17] : Fin 3 → Nat) a + S1x256x1.size a ≤ S1x256x20.size a
  inb_S1x256x1280_S1x256x64_0_0_1088 : ∀ a, (![0, 0, 1088] : Fin 3 → Nat) a + S1x256x64.size a ≤ S1x256x1280.size a
  packedbf16_S1x256x1280_S1x256x64_0_0_1088 : (Rect.unit (s := S1x256x1280) ![0, 0, 1088] S1x256x64.size inb_S1x256x1280_S1x256x64_0_0_1088).PackedRows (EltTy.packing .bf16)
  inb_S1x256x20_S1x256x1_0_0_18 : ∀ a, (![0, 0, 18] : Fin 3 → Nat) a + S1x256x1.size a ≤ S1x256x20.size a
  inb_S1x256x1280_S1x256x64_0_0_1152 : ∀ a, (![0, 0, 1152] : Fin 3 → Nat) a + S1x256x64.size a ≤ S1x256x1280.size a
  packedbf16_S1x256x1280_S1x256x64_0_0_1152 : (Rect.unit (s := S1x256x1280) ![0, 0, 1152] S1x256x64.size inb_S1x256x1280_S1x256x64_0_0_1152).PackedRows (EltTy.packing .bf16)
  inb_S1x256x20_S1x256x1_0_0_19 : ∀ a, (![0, 0, 19] : Fin 3 → Nat) a + S1x256x1.size a ≤ S1x256x20.size a
  inb_S1x256x1280_S1x256x64_0_0_1216 : ∀ a, (![0, 0, 1216] : Fin 3 → Nat) a + S1x256x64.size a ≤ S1x256x1280.size a
  packedbf16_S1x256x1280_S1x256x64_0_0_1216 : (Rect.unit (s := S1x256x1280) ![0, 0, 1216] S1x256x64.size inb_S1x256x1280_S1x256x64_0_0_1216).PackedRows (EltTy.packing .bf16)
  shapeCasts_S1x1x64_S1x1x64 : S1x1x64.ShapeCasts S1x1x64
  shapeCasts_S1x64_S1x1x64 : S1x64.ShapeCasts S1x1x64
  shapeCasts_S8x1x64_S8x64 : S8x1x64.ShapeCasts S8x64
  reducesTo_S8x64_S64_d0 : S8x64.ReducesTo [0] S64
  h_S_ : 0 < S_.numel
  bcast_S_S64 : S_.BroadcastsInDim S64 (![] : Fin 0 → Fin S64.rank)
  shapeCasts_S64_S1x1x64 : S64.ShapeCasts S1x1x64
  inb_S1x1x512_S1x1x512_0_0_0 : ∀ a, (![0, 0, 0] : Fin 3 → Nat) a + S1x1x512.size a ≤ S1x1x512.size a
  h_S1x1x512 : 0 < S1x1x512.numel
  shapeCasts_S1x1x64_S1x64 : S1x1x64.ShapeCasts S1x64
  broadcasts_S1x64_S256x64 : S1x64.Broadcasts S256x64
  inb_S512x64_S512x64_0_0 : ∀ a, (![0, 0] : Fin 2 → Nat) a + S512x64.size a ≤ S512x64.size a
  h_S512x64 : 0 < S512x64.numel
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  shapeCasts_S1x1x512_S1x1x512 : S1x1x512.ShapeCasts S1x1x512
  reduces_S256x512_S512 : S256x512.Reduces [0] S512
  shapeCasts_S512_S1x512 : S512.ShapeCasts S1x512
  shapeCasts_S1x512_S1x1x512 : S1x512.ShapeCasts S1x1x512
  shapeCasts_S8x1x512_S8x512 : S8x1x512.ShapeCasts S8x512
  reducesTo_S8x512_S512_d0 : S8x512.ReducesTo [0] S512
  bcast_S_S512 : S_.BroadcastsInDim S512 (![] : Fin 0 → Fin S512.rank)
  shapeCasts_S8x1024x512_S8192x512 : S8x1024x512.ShapeCasts S8192x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x512_S8x1024x512 : S8192x512.ShapeCasts S8x1024x512
  dot_S1024x512_S64x512_S1024x64_1_1_0_0_n_n_wf : DotDims.WF S1024x512 S64x512 S1024x64 [1] [1] [0] [0] [] []
  dot_S256x1024_S1024x64_S256x64_1_0_0_1_n_n_wf : DotDims.WF S256x1024 S1024x64 S256x64 [1] [0] [0] [1] [] []
  dot_S256x64_S512x64_S256x512_1_1_0_0_n_n_wf : DotDims.WF S256x64 S512x64 S256x512 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x64.size a ≤ S1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x20.size a ≤ S8x1024x20.size a
  hwx0_1 : ∀ i : grid0.Coords, EltTy.bits .i32 = 32 ∨ (Rect.block (s := S8x1024x20) S1x256x20.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1280.size a ≤ S8x1024x1280.size a
  hwx0_4 : ∀ i : grid0.Coords, EltTy.bits .bf16 = 32 ∨ (Rect.block (s := S8x1024x1280) S1x256x1280.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S8x1x64.size a
  hwx0_5 : ∀ i : grid0.Coords, EltTy.bits .f32 = 32 ∨ (Rect.block (s := S8x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S8x1x64.size a
  hwx0_6 : ∀ i : grid0.Coords, EltTy.bits .f32 = 32 ∨ (Rect.block (s := S8x1x64) S1x1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1280.size a ≤ S8x1024x1280.size a
  hwx1_0 : ∀ i : grid1.Coords, EltTy.bits .bf16 = 32 ∨ (Rect.block (s := S8x1024x1280) S1x256x1280.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S1x1x64.size a
  hwx1_1 : ∀ i : grid1.Coords, EltTy.bits .f32 = 32 ∨ (Rect.block (s := S1x1x64) S1x1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S1x1x64.size a
  hwx1_2 : ∀ i : grid1.Coords, EltTy.bits .f32 = 32 ∨ (Rect.block (s := S1x1x64) S1x1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S1x1x64.size a
  hwx1_3 : ∀ i : grid1.Coords, EltTy.bits .f32 = 32 ∨ (Rect.block (s := S1x1x64) S1x1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1x64.size a ≤ S1x1x64.size a
  hwx1_4 : ∀ i : grid1.Coords, EltTy.bits .f32 = 32 ∨ (Rect.block (s := S1x1x64) S1x1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x64.size a ≤ S512x64.size a
  hwx1_5 : ∀ i : grid1.Coords, EltTy.bits .f32 = 32 ∨ (Rect.block (s := S512x64) S512x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x512.size a ≤ S8x1024x512.size a
  hwx1_6 : ∀ i : grid1.Coords, EltTy.bits .f32 = 32 ∨ (Rect.block (s := S8x1024x512) S1x256x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x512.size a ≤ S8x1x512.size a
  hwx1_7 : ∀ i : grid1.Coords, EltTy.bits .f32 = 32 ∨ (Rect.block (s := S8x1x512) S1x1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x512.size a ≤ S8x1x512.size a
  hwx1_8 : ∀ i : grid1.Coords, EltTy.bits .f32 = 32 ∨ (Rect.block (s := S8x1x512) S1x1x512.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S8192x512.size a
  hwx2_5 : ∀ i : grid2.Coords, EltTy.bits .f32 = 32 ∨ (Rect.block (s := S8192x512) S1024x512.size (cc2_transform_5 i) (hinb2_5 i)).WholeWords (EltTy.packing .f32)

variable [Facts₀]

def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S512x64_S256x512_1_1_0_0_n_n : DotDims S256x64 S512x64 S256x512 where
  lhsContracting := [1]
  rhsContracting := [1]
  lhsNonContracting := [0]
  rhsNonContracting := [0]
  lhsBatch := []
  rhsBatch := []
  wf := dot_S256x64_S512x64_S256x512_1_1_0_0_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x256x1280.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x1x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S1x256x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S512x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20_0) S1x256x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_1) S1x1x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v20_2) S1x1x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v37) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1024x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8x1024x512 : Shape := ⟨3, ![8, 1024, 512]⟩
abbrev S8x1024x20 : Shape := ⟨3, ![8, 1024, 20]⟩
abbrev S64x1024 : Shape := ⟨2, ![64, 1024]⟩
abbrev S64 : Shape := ⟨1, ![64]⟩
abbrev S512x64 : Shape := ⟨2, ![512, 64]⟩
abbrev S512 : Shape := ⟨1, ![512]⟩
abbrev S_ : Shape := ⟨0, ![]⟩
abbrev S8x1024x20x1 : Shape := ⟨4, ![8, 1024, 20, 1]⟩
abbrev S8x1024x20x512 : Shape := ⟨4, ![8, 1024, 20, 512]⟩
abbrev S8x1024x1x512 : Shape := ⟨4, ![8, 1024, 1, 512]⟩
abbrev S8x1024x20x1024 : Shape := ⟨4, ![8, 1024, 20, 1024]⟩
abbrev S8x1024x20x64 : Shape := ⟨4, ![8, 1024, 20, 64]⟩
abbrev S1x1x1x64 : Shape := ⟨4, ![1, 1, 1, 64]⟩
abbrev S8x1024x64 : Shape := ⟨3, ![8, 1024, 64]⟩
abbrev S1x1x512 : Shape := ⟨3, ![1, 1, 512]⟩

abbrev nBuf : Space → Nat
  | .hbm => 128
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x20, .i32⟩
  | .hbm, ⟨2, _⟩ => ⟨S64x1024, .f32⟩
  | .hbm, ⟨3, _⟩ => ⟨S64, .f32⟩
  | .hbm, ⟨4, _⟩ => ⟨S64, .f32⟩
  | .hbm, ⟨5, _⟩ => ⟨S512x64, .f32⟩
  | .hbm, ⟨6, _⟩ => ⟨S512, .f32⟩
  | .hbm, ⟨7, _⟩ => ⟨S512, .f32⟩
  | .hbm, ⟨8, _⟩ => ⟨S_, .i32⟩
  | .hbm, ⟨9, _⟩ => ⟨S8x1024x20, .i32⟩
  | .hbm, ⟨10, _⟩ => ⟨S8x1024x20, .i1⟩
  | .hbm, ⟨11, _⟩ => ⟨S_, .i32⟩
  | .hbm, ⟨12, _⟩ => ⟨S8x1024x20, .i32⟩
  | .hbm, ⟨13, _⟩ => ⟨S8x1024x20, .i32⟩
  | .hbm, ⟨14, _⟩ => ⟨S8x1024x20, .i32⟩
  | .hbm, ⟨15, _⟩ => ⟨S8x1024x20x1, .i32⟩
  | .hbm, ⟨16, _⟩ => ⟨S8x1024x20x512, .f32⟩
  | .hbm, ⟨17, _⟩ => ⟨S8x1024x1x512, .f32⟩
  | .hbm, ⟨18, _⟩ => ⟨S8x1024x20x512, .f32⟩
  | .hbm, ⟨19, _⟩ => ⟨S8x1024x20x512, .f32⟩
  | .hbm, ⟨20, _⟩ => ⟨S8x1024x20x512, .f32⟩
  | .hbm, ⟨21, _⟩ => ⟨S8x1024x20x1024, .f32⟩
  | .hbm, ⟨22, _⟩ => ⟨S8x1024x20x64, .f32⟩
  | .hbm, ⟨23, _⟩ => ⟨S_, .f32⟩
  | .hbm, ⟨24, _⟩ => ⟨S64, .f32⟩
  | .hbm, ⟨25, _⟩ => ⟨S1x1x1x64, .f32⟩
  | .hbm, ⟨26, _⟩ => ⟨S_, .f32⟩
  | .hbm, ⟨27, _⟩ => ⟨S1x1x1x64, .f32⟩
  | .hbm, ⟨28, _⟩ => ⟨S1x1x1x64, .f32⟩
  | .hbm, ⟨29, _⟩ => ⟨S_, .i32⟩
  | .hbm, ⟨30, _⟩ => ⟨S_, .f32⟩
  | .hbm, ⟨31, _⟩ => ⟨S64, .f32⟩
  | .hbm, ⟨32, _⟩ => ⟨S1x1x1x64, .f32⟩
  | .hbm, ⟨33, _⟩ => ⟨S_, .f32⟩
  | .hbm, ⟨34, _⟩ => ⟨S1x1x1x64, .f32⟩
  | .hbm, ⟨35, _⟩ => ⟨S1x1x1x64, .f32⟩
  | .hbm, ⟨36, _⟩ => ⟨S8x1024x20x64, .f32⟩
  | .hbm, ⟨37, _⟩ => ⟨S8x1024x20x64, .f32⟩
  | .hbm, ⟨38, _⟩ => ⟨S8x1024x20x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S64, .f32⟩
  | .hbm, ⟨44, _⟩ => ⟨S1x1x1x64, .f32⟩
  | .hbm, ⟨45, _⟩ => ⟨S1x1x1x64, .f32⟩
  | .hbm, ⟨46, _⟩ => ⟨S1x1x1x64, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S1x1x1x64, .f32⟩
  | .hbm, ⟨52, _⟩ => ⟨S1x1x1x64, .f32⟩
  | .hbm, ⟨53, _⟩ => ⟨S8x1024x20x64, .f32⟩
  | .hbm, ⟨54, _⟩ => ⟨S8x1024x20x64, .f32⟩
  | .hbm, ⟨55, _⟩ => ⟨S_, .f32⟩
  | .hbm, ⟨56, _⟩ => ⟨S1x1x1x64, .f32⟩
  | .hbm, ⟨57, _⟩ => ⟨S1x1x1x64, .f32⟩
  | .hbm, ⟨58, _⟩ => ⟨S1x1x1x64, .f32⟩
  | .hbm, ⟨59, _⟩ => ⟨S8x1024x20x64, .f32⟩
  | .hbm, ⟨60, _⟩ => ⟨S8x1024x20x64, .f32⟩
  | .hbm, ⟨61, _⟩ => ⟨S1x1x1x64, .f32⟩
  | .hbm, ⟨62, _⟩ => ⟨S8x1024x20x64, .f32⟩
  | .hbm, ⟨63, _⟩ => ⟨S8x1024x20x64, .f32⟩
  | .hbm, ⟨64, _⟩ => ⟨S1x1x1x64, .f32⟩
  | .hbm, ⟨65, _⟩ => ⟨S8x1024x20x64, .f32⟩
  | .hbm, ⟨66, _⟩ => ⟨S8x1024x20x64, .f32⟩
  | .hbm, ⟨67, _⟩ => ⟨S_, .f32⟩
  | .hbm, ⟨68, _⟩ => ⟨S8x1024x20x64, .f32⟩
  | .hbm, ⟨69, _⟩ => ⟨S8x1024x20x64, .i1⟩
  | .hbm, ⟨70, _⟩ => ⟨S_, .f32⟩
  | .hbm, ⟨71, _⟩ => ⟨S8x1024x20x64, .f32⟩
  | .hbm, ⟨72, _⟩ => ⟨S8x1024x20x64, .f32⟩
  | .hbm, ⟨73, _⟩ => ⟨S8x1024x20x64, .f32⟩
  | .hbm, ⟨74, _⟩ => ⟨S_, .f32⟩
  | .hbm, ⟨75, _⟩ => ⟨S8x1024x64, .f32⟩
  | .hbm, ⟨76, _⟩ => ⟨S8x1024x512, .f32⟩
  | .hbm, ⟨77, _⟩ => ⟨S_, .f32⟩
  | .hbm, ⟨78, _⟩ => ⟨S512, .f32⟩
  | .hbm, ⟨79, _⟩ => ⟨S1x1x512, .f32⟩
  | .hbm, ⟨80, _⟩ => ⟨S_, .f32⟩
  | .hbm, ⟨81, _⟩ => ⟨S1x1x512, .f32⟩
  | .hbm, ⟨82, _⟩ => ⟨S1x1x512, .f32⟩
  | .hbm, ⟨83, _⟩ => ⟨S_, .i32⟩
  | .hbm, ⟨84, _⟩ => ⟨S_, .f32⟩
  | .hbm, ⟨85, _⟩ => ⟨S512, .f32⟩
  | .hbm, ⟨86, _⟩ => ⟨S1x1x512, .f32⟩
  | .hbm, ⟨87, _⟩ => ⟨S_, .f32⟩
  | .hbm, ⟨88, _⟩ => ⟨S1x1x512, .f32⟩
  | .hbm, ⟨89, _⟩ => ⟨S1x1x512, .f32⟩
  | .hbm, ⟨90, _⟩ => ⟨S8x1024x512, .f32⟩
  | .hbm, ⟨91, _⟩ => ⟨S8x1024x512, .f32⟩
  | .hbm, ⟨92, _⟩ => ⟨S8x1024x512, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S512, .f32⟩
  | .hbm, ⟨98, _⟩ => ⟨S1x1x512, .f32⟩
  | .hbm, ⟨99, _⟩ => ⟨S1x1x512, .f32⟩
  | .hbm, ⟨100, _⟩ => ⟨S1x1x512, .f32⟩
  | .hbm, ⟨101, _⟩ => ⟨S_, .f32⟩
  | .hbm, ⟨102, _⟩ => ⟨S_, .i1⟩
  | .hbm, ⟨103, _⟩ => ⟨S_, .f32⟩
  | .hbm, ⟨104, _⟩ => ⟨S_, .f32⟩
  | .hbm, ⟨105, _⟩ => ⟨S1x1x512, .f32⟩
  | .hbm, ⟨106, _⟩ => ⟨S1x1x512, .f32⟩
  | .hbm, ⟨107, _⟩ => ⟨S8x1024x512, .f32⟩
  | .hbm, ⟨108, _⟩ => ⟨S8x1024x512, .f32⟩
  | .hbm, ⟨109, _⟩ => ⟨S_, .f32⟩
  | .hbm, ⟨110, _⟩ => ⟨S1x1x512, .f32⟩
  | .hbm, ⟨111, _⟩ => ⟨S1x1x512, .f32⟩
  | .hbm, ⟨112, _⟩ => ⟨S1x1x512, .f32⟩
  | .hbm, ⟨113, _⟩ => ⟨S8x1024x512, .f32⟩
  | .hbm, ⟨114, _⟩ => ⟨S8x1024x512, .f32⟩
  | .hbm, ⟨115, _⟩ => ⟨S1x1x512, .f32⟩
  | .hbm, ⟨116, _⟩ => ⟨S8x1024x512, .f32⟩
  | .hbm, ⟨117, _⟩ => ⟨S8x1024x512, .f32⟩
  | .hbm, ⟨118, _⟩ => ⟨S1x1x512, .f32⟩
  | .hbm, ⟨119, _⟩ => ⟨S8x1024x512, .f32⟩
  | .hbm, ⟨120, _⟩ => ⟨S8x1024x512, .f32⟩
  | .hbm, ⟨121, _⟩ => ⟨S_, .f32⟩
  | .hbm, ⟨122, _⟩ => ⟨S8x1024x512, .f32⟩
  | .hbm, ⟨123, _⟩ => ⟨S8x1024x512, .i1⟩
  | .hbm, ⟨124, _⟩ => ⟨S_, .f32⟩
  | .hbm, ⟨125, _⟩ => ⟨S8x1024x512, .f32⟩
  | .hbm, ⟨126, _⟩ => ⟨S8x1024x512, .f32⟩
  | .hbm, ⟨127, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_cst_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_cst_3 : Ref sig .tc := ⟨.hbm, 47, rfl⟩
abbrev main_call0_v13 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_3 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_4 : Ref sig .tc := ⟨.hbm, 67, rfl⟩
abbrev main_v31 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_6 : Ref sig .tc := ⟨.hbm, 74, rfl⟩
abbrev main_v36 : Ref sig .tc := ⟨.hbm, 75, rfl⟩
abbrev main_v37 : Ref sig .tc := ⟨.hbm, 76, rfl⟩
abbrev main_cst_7 : Ref sig .tc := ⟨.hbm, 77, rfl⟩
abbrev main_v38 : Ref sig .tc := ⟨.hbm, 78, rfl⟩
abbrev main_v39 : Ref sig .tc := ⟨.hbm, 79, rfl⟩
abbrev main_cst_8 : Ref sig .tc := ⟨.hbm, 80, rfl⟩
abbrev main_v40 : Ref sig .tc := ⟨.hbm, 81, rfl⟩
abbrev main_v41 : Ref sig .tc := ⟨.hbm, 82, rfl⟩
abbrev main_c_9 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_cst_3 : Ref sig .tc := ⟨.hbm, 101, rfl⟩
abbrev main_call2_v13 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_cst_10 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_11 : Ref sig .tc := ⟨.hbm, 121, rfl⟩
abbrev main_v56 : Ref sig .tc := ⟨.hbm, 122, rfl⟩
abbrev main_v57 : Ref sig .tc := ⟨.hbm, 123, rfl⟩
abbrev main_cst_12 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩

abbrev nD : Nat := 1
abbrev τ : Topo := Topo.v7x

variable {F : FTy → Type} [FloatOps F]

class Facts₀ : Prop where
  bcast_S_S8x1024x20 : S_.BroadcastsInDim S8x1024x20 (![] : Fin 0 → Fin S8x1024x20.rank)
  bcast_S8x1024x20_S8x1024x20x1_0_1_2 : S8x1024x20.BroadcastsInDim S8x1024x20x1 (![0, 1, 2] : Fin 3 → Fin S8x1024x20x1.rank)
  bcast_S8x1024x512_S8x1024x1x512_0_1_3 : S8x1024x512.BroadcastsInDim S8x1024x1x512 (![0, 1, 3] : Fin 3 → Fin S8x1024x1x512.rank)
  bcast_S8x1024x1x512_S8x1024x20x512_0_1_2_3 : S8x1024x1x512.BroadcastsInDim S8x1024x20x512 (![0, 1, 2, 3] : Fin 4 → Fin S8x1024x20x512.rank)
  concatenates_S8x1024x20x512_S8x1024x20x512_S8x1024x20x1024_d3 : Shape.Concatenates [S8x1024x20x512, S8x1024x20x512] S8x1024x20x1024 3
  reducesTo_S8x1024x20x64_S64_d0_1_2 : S8x1024x20x64.ReducesTo [0, 1, 2] S64
  h_S_ : 0 < S_.numel
  bcast_S64_S1x1x1x64_3 : S64.BroadcastsInDim S1x1x1x64 (![3] : Fin 1 → Fin S1x1x1x64.rank)
  bcast_S_S1x1x1x64 : S_.BroadcastsInDim S1x1x1x64 (![] : Fin 0 → Fin S1x1x1x64.rank)
  bcast_S1x1x1x64_S8x1024x20x64_0_1_2_3 : S1x1x1x64.BroadcastsInDim S8x1024x20x64 (![0, 1, 2, 3] : Fin 4 → Fin S8x1024x20x64.rank)
  bcast_S_S8x1024x20x64 : S_.BroadcastsInDim S8x1024x20x64 (![] : Fin 0 → Fin S8x1024x20x64.rank)
  reducesTo_S8x1024x20x64_S8x1024x64_d2 : S8x1024x20x64.ReducesTo [2] S8x1024x64
  reducesTo_S8x1024x512_S512_d0_1 : S8x1024x512.ReducesTo [0, 1] S512
  bcast_S512_S1x1x512_2 : S512.BroadcastsInDim S1x1x512 (![2] : Fin 1 → Fin S1x1x512.rank)
  bcast_S_S1x1x512 : S_.BroadcastsInDim S1x1x512 (![] : Fin 0 → Fin S1x1x512.rank)
  bcast_S1x1x512_S8x1024x512_0_1_2 : S1x1x512.BroadcastsInDim S8x1024x512 (![0, 1, 2] : Fin 3 → Fin S8x1024x512.rank)
  bcast_S_S8x1024x512 : S_.BroadcastsInDim S8x1024x512 (![] : Fin 0 → Fin S8x1024x512.rank)
  gather_S8x1024x512_S8x1024x20x1_S8x1024x20x512_3_1_0_0_1_3_11512_wf : GatherDims.WF S8x1024x512 S8x1024x20x1 S8x1024x20x512 [3] [1] [0] [1] [0] 3 ![1, 1, 512]
  dot_S8x1024x20x1024_S64x1024_S8x1024x20x64_3_1_012_0_n_n_wf : DotDims.WF S8x1024x20x1024 S64x1024 S8x1024x20x64 [3] [1] [0, 1, 2] [0] [] []
  dot_S8x1024x64_S512x64_S8x1024x512_2_1_01_0_n_n_wf : DotDims.WF S8x1024x64 S512x64 S8x1024x512 [2] [1] [0, 1] [0] [] []

variable [Facts₀]

def gather_S8x1024x512_S8x1024x20x1_S8x1024x20x512_3_1_0_0_1_3_11512 : GatherDims S8x1024x512 S8x1024x20x1 S8x1024x20x512 where
  offsetDims := [3]
  collapsedSliceDims := [1]
  operandBatchingDims := [0]
  startIndicesBatchingDims := [0]
  startIndexMap := [1]
  indexVectorDim := 3
  sliceSizes := ![1, 1, 512]
  wf := gather_S8x1024x512_S8x1024x20x1_S8x1024x20x512_3_1_0_0_1_3_11512_wf
def dot_S8x1024x20x1024_S64x1024_S8x1024x20x64_3_1_012_0_n_n : DotDims S8x1024x20x1024 S64x1024 S8x1024x20x64 where
  lhsContracting := [3]
  rhsContracting := [1]
  lhsNonContracting := [0, 1, 2]
  rhsNonContracting := [0]
  lhsBatch := []
  rhsBatch := []
  wf := dot_S8x1024x20x1024_S64x1024_S8x1024x20x64_3_1_012_0_n_n_wf
def dot_S8x1024x64_S512x64_S8x1024x512_2_1_01_0_n_n : DotDims S8x1024x64 S512x64 S8x1024x512 where
  lhsContracting := [2]
  rhsContracting := [1]
  lhsNonContracting := [0, 1]
  rhsNonContracting := [0]
  lhsBatch := []
  rhsBatch := []
  wf := dot_S8x1024x64_S512x64_S8x1024x512_2_1_01_0_n_n_wf

class Facts : Prop extends Facts₀ where

variable [Facts]
-- ==== Proof.KI.Leaves.lean ====
import proofs.«401853_j10514079941286_3_alg».proof.Proof.Gen.KernelIdeal.Launch
import proofs.«401853_j10514079941286_3_alg».proof.Proof.Gen.KernelIdeal.Skeleton
import proofs.«401853_j10514079941286_3_alg».proof.Proof.Gen.KernelIdeal.Points
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What a list of stored pieces leaves in a buffer read through `v`, whatever it held. -/
def leaves {S : Shape} {ty : EltTy} (v : View sig .tc .vmem S ty) (L : List (View.Piece (Elt F) S ty)) : Vec F S ty :=
  v.read (Elt F) (v.writes (Elt F) v.junk L)

/-- The pieces reach every index of the buffer. -/
abbrev Covered {S : Shape} {ty : EltTy} (L : List (View.Piece (Elt F) S ty)) : Prop := ∀ y : S.Idx, ∃ pc ∈ L, y ∈ pc.1.set

end Cert.KernelIdeal.Hand

end
-- ==== Proof.KI.R0Runs.lean ====
import proofs.«401853_j10514079941286_3_alg».proof.Proof.KI.Leaves
import proofs.«401853_j10514079941286_3_alg».proof.Proof.Gen.KernelIdeal.Launch
import proofs.«401853_j10514079941286_3_alg».proof.Proof.Gen.KernelIdeal.Skeleton
import proofs.«401853_j10514079941286_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Blocks

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev VO0_4 : View sig .tc .vmem S1x256x1280 .bf16 := (Memref.whole cc0_stg4_0 : Memref sig .tc .vmem S1x256x1280 .bf16).view
abbrev VO0_5 : View sig .tc .vmem S1x1x64 .f32 := (Memref.whole cc0_stg5_0 : Memref sig .tc .vmem S1x1x64 .f32).view
abbrev VO0_6 : View sig .tc .vmem S1x1x64 .f32 := (Memref.whole cc0_stg6_0 : Memref sig .tc .vmem S1x1x64 .f32).view
abbrev ms0_0 (t : Fin cfg0.N) : Memref sig .tc .vmem S1x1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x20 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1280 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x64 .f32 := win0_6.stage (cfg0.slots t 6)
abbrev hs0_6 (t : Fin cfg0.N) : (ms0_6 t).IsWhole := hstage0_6 ((cfg0.slots t 6).cast nbuf0_6)
abbrev scM0_0 : Memref sig .tc .vmem S1024x64 .f32 := Memref.whole cc0_scratch0
abbrev scM0_1 : Memref sig .tc .vmem S1024x64 .f32 := Memref.whole cc0_scratch1
abbrev VS0_0 : View sig .tc .vmem S1024x64 .f32 := scM0_0.view
abbrev VS0_1 : View sig .tc .vmem S1024x64 .f32 := scM0_1.view

def restSc0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg8_1), ((c : Thread nD τ).loc cc1_stg8_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restSc0 c) ∗ (∃ r, prngReg c r)) := by
  unfold Pipeline.ΦA restSc0; rw [scopedRest0_eq]; simp only [scM0_0, scM0_1, owns_whole]; try rfl

end Cert.KernelIdeal.Hand

end
-- ==== Proof.KI.R0RunA.lean ====
import proofs.«401853_j10514079941286_3_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x512 .f32) (harg2 : arg2.IsWhole) (arg3 : Memref sig .tc .vmem S1x256x20 .i32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x256x1280 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1024x64 .f32) (harg9 : arg9.IsWhole) (arg10 : Memref sig .tc .vmem S1024x64 .f32) (harg10 : arg10.IsWhole) (hc0 : cond0_0 i)
    (x0 : Vec F S1x1024x512 .f32) (x1 : Vec F S1x256x20 .i32) (x2 : Vec F S64x512 .f32) (x3 : Vec F S64x512 .f32) :
    Σ' (L4 : List (View.Piece (Elt F) S1x256x1280 .bf16)) (L5 : List (View.Piece (Elt F) S1x1x64 .f32)) (L6 : List (View.Piece (Elt F) S1x1x64 .f32))
       (LS0 : List (View.Piece (Elt F) S1024x64 .f32)), { LS1 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__proj_gather_stats_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__proj_gather_stats_kernel_eq_skeleton]; unfold cc0__proj_gather_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R0RunB.lean ====
import proofs.«401853_j10514079941286_3_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x512 .f32) (harg2 : arg2.IsWhole) (arg3 : Memref sig .tc .vmem S1x256x20 .i32) (harg3 : arg3.IsWhole) (arg4 : Memref sig .tc .vmem S64x512 .f32) (harg4 : arg4.IsWhole) (arg5 : Memref sig .tc .vmem S64x512 .f32) (harg5 : arg5.IsWhole) (arg6 : Memref sig .tc .vmem S1x256x1280 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i)
    (x0 : Vec F S1x1024x512 .f32) (x1 : Vec F S1x256x20 .i32) (x2 : Vec F S64x512 .f32) (x3 : Vec F S64x512 .f32)
    (xo5 : Vec F S1x1x64 .f32) (xo6 : Vec F S1x1x64 .f32) (xs0 : Vec F S1024x64 .f32) (xs1 : Vec F S1024x64 .f32) :
    Σ' (L4 : List (View.Piece (Elt F) S1x256x1280 .bf16)) (L5 : List (View.Piece (Elt F) S1x1x64 .f32)), { L6 : List (View.Piece (Elt F) S1x1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xo5 ∗ owns (c : Thread nD τ) arg8 fullShare xo6
            ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ owns (c : Thread nD τ) arg9 fullShare xs0 ∗ owns (c : Thread nD τ) arg10 fullShare xs1) -∗ K ⟨⟩))
          ⊢ wp frame (wpE (defs₀ (F := F)) Variants.none c none) E (cc0__proj_gather_stats_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__proj_gather_stats_kernel_eq_skeleton]; unfold cc0__proj_gather_stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hfs0; obtain rfl := harg10.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]
    · iexists _; isplitr; · ipureintro; exact harg9.read_unread _
      iexact HS0
    iexists _; isplitr; · ipureintro; exact harg10.read_unread _
    iexact HS1

end Cert.KernelIdeal.Hand

end
-- ==== Proof.KI.R0.lean ====
import proofs.«401853_j10514079941286_3_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Point

variable (c : Dev nD) (i : grid0.Coords)
  (arg2 : Memref sig .tc .vmem S1x1024x512 .f32)
  (harg2 : arg2.IsWhole)
  (arg3 : Memref sig .tc .vmem S1x256x20 .i32)
  (harg3 : arg3.IsWhole)
  (arg4 : Memref sig .tc .vmem S64x512 .f32)
  (harg4 : arg4.IsWhole)
  (arg5 : Memref sig .tc .vmem S64x512 .f32)
  (harg5 : arg5.IsWhole)
  (arg6 : Memref sig .tc .vmem S1x256x1280 .bf16)
  (harg6 : arg6.IsWhole)
  (arg7 : Memref sig .tc .vmem S1x1x64 .f32)
  (harg7 : arg7.IsWhole)
  (arg8 : Memref sig .tc .vmem S1x1x64 .f32)
  (harg8 : arg8.IsWhole)
  (arg9 : Memref sig .tc .vmem S1024x64 .f32)
  (harg9 : arg9.IsWhole)
  (arg10 : Memref sig .tc .vmem S1024x64 .f32)
  (harg10 : arg10.IsWhole)

/-- What a first point of a batch leaves in the three outputs and the two tables. -/
def outsA0 (hc0 : cond0_0 i) (x0 : Vec F S1x1024x512 .f32) (x1 : Vec F S1x256x20 .i32) (x2 x3 : Vec F S64x512 .f32) : Vec F S1x256x1280 .bf16 × Vec F S1x1x64 .f32 × Vec F S1x1x64 .f32 × Vec F S1024x64 .f32 × Vec F S1024x64 .f32 :=
  let r := kernelRun0_A c i arg2 harg2 arg3 harg3 arg4 harg4 arg5 harg5 arg6 harg6 arg7 harg7 arg8 harg8 arg9 harg9 arg10 harg10 hc0 x0 x1 x2 x3
  (leaves VO0_4 r.1, leaves VO0_5 r.2.1, leaves VO0_6 r.2.2.1, leaves VS0_0 r.2.2.2.1, leaves VS0_1 r.2.2.2.2.1)

/-- Its stores tile each of the five buffers. -/
theorem coversA0 (hc0 : cond0_0 i) (x0 : Vec F S1x1024x512 .f32) (x1 : Vec F S1x256x20 .i32) (x2 x3 : Vec F S64x512 .f32) :
    let r := kernelRun0_A c i arg2 harg2 arg3 harg3 arg4 harg4 arg5 harg5 arg6 harg6 arg7 harg7 arg8 harg8 arg9 harg9 arg10 harg10 hc0 x0 x1 x2 x3
    Covered r.1 ∧ Covered r.2.1 ∧ Covered r.2.2.1 ∧ Covered r.2.2.2.1 ∧ Covered r.2.2.2.2.1 :=
  ⟨View.cover_of_tiledL _ S1x256x64.size (by sl_kernel_rfl), View.cover_of_tiledL _ S1x1x64.size (by sl_kernel_rfl),
    View.cover_of_tiledL _ S1x1x64.size (by sl_kernel_rfl), View.cover_of_tiledL _ S1024x64.size (by sl_kernel_rfl),
    View.cover_of_tiledL _ S1024x64.size (by sl_kernel_rfl)⟩

/-- What a later point leaves: the sums over what they held, the tables kept. -/
def outsB0 (hc0 : ¬cond0_0 i) (x0 : Vec F S1x1024x512 .f32) (x1 : Vec F S1x256x20 .i32) (x2 x3 : Vec F S64x512 .f32) (xo5 xo6 : Vec F S1x1x64 .f32) (xs0 xs1 : Vec F S1024x64 .f32) : Vec F S1x256x1280 .bf16 × Vec F S1x1x64 .f32 × Vec F S1x1x64 .f32 × Vec F S1024x64 .f32 × Vec F S1024x64 .f32 :=
  let r := kernelRun0_B c i arg2 harg2 arg3 harg3 arg4 harg4 arg5 harg5 arg6 harg6 arg7 harg7 arg8 harg8 arg9 harg9 arg10 harg10 hc0 x0 x1 x2 x3 xo5 xo6 xs0 xs1
  (leaves VO0_4 r.1, leaves VO0_5 r.2.1, leaves VO0_6 r.2.2.1, xs0, xs1)

theorem coversB0 (hc0 : ¬cond0_0 i) (x0 : Vec F S1x1024x512 .f32) (x1 : Vec F S1x256x20 .i32) (x2 x3 : Vec F S64x512 .f32) (xo5 xo6 : Vec F S1x1x64 .f32) (xs0 xs1 : Vec F S1024x64 .f32) :
    let r := kernelRun0_B c i arg2 harg2 arg3 harg3 arg4 harg4 arg5 harg5 arg6 harg6 arg7 harg7 arg8 harg8 arg9 harg9 arg10 harg10 hc0 x0 x1 x2 x3 xo5 xo6 xs0 xs1
    Covered r.1 ∧ Covered r.2.1 ∧ Covered r.2.2.1 :=
  ⟨View.cover_of_tiledL _ S1x256x64.size (by sl_kernel_rfl), View.cover_of_tiledL _ S1x1x64.size (by sl_kernel_rfl),
    View.cover_of_tiledL _ S1x1x64.size (by sl_kernel_rfl)⟩

end Point

variable (V : (c : Dev nD) → (b : Ref sig .tc) → Buf (Elt F) ((c : Thread nD τ).loc b))

def outsAt0 (c : Dev nD) : (n : ℕ) → n < cfg0.N → Vec F S1x256x1280 .bf16 × Vec F S1x1x64 .f32 × Vec F S1x1x64 .f32 × Vec F S1024x64 .f32 × Vec F S1024x64 .f32
  | 0, hn => outsA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 4 = 0 then
      outsA0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      outsB0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2

theorem outsAt0_A (c : Dev nD) (t : Fin cfg0.N) (h0 : t.val % 4 = 0) :
    outsAt0 V c t.val t.isLt = outsA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk0 V c 0 t) (iblk0 V c 1 t) (iblk0 V c 2 t) (iblk0 V c 3 t) := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = outsB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.2.2.1 ∗ owns (c : Thread nD τ) scM0_1 fullShare (outsAt0 V c n hn).2.2.2.2 ∗ restSc0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (outsAt0 V c n hn).2.2.2.1 ∗ owns (c : Thread nD τ) scM0_1 fullShare (outsAt0 V c n hn).2.2.2.2 ∗ restSc0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).2.2.2.1 ∗ owns (c : Thread nD τ) scM0_1 fullShare (outsAt0 V c (n - 1) (by omega)).2.2.2.2 ∗ restSc0 c) ∗ (∃ r, prngReg c r)) := by
  cases n with
  | zero => exact absurd rfl hz
  | succ n => rfl

/-- At any position the invariant yields the two tables at some contents. -/
theorem PhiS0_some (c : Dev nD) (n : ℕ) (h : n ≤ cfg0.N) :
    PhiS0 V c n h ⊢ iprop(iprop((∃ d, owns (c : Thread nD τ) scM0_0 fullShare d) ∗ (∃ d, owns (c : Thread nD τ) scM0_1 fullShare d) ∗ restSc0 c) ∗ (∃ r, prngReg c r)) := by
  cases n with
  | zero => rw [PhiS0_zero V c 0 h rfl, PhiA0_eq]
  | succ n =>
    rw [PhiS0_succ]
    iintro ⟨⟨HS0, HS1, HR⟩, Hg⟩
    isplitl [HS0 HS1 HR]
    · isplitl [HS0]; · iexists _; iexact HS0
      isplitl [HS1]; · iexists _; iexact HS1
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

theorem before0_5_B (c : Dev nD) (t : Fin cfg0.N) (h0 : ¬t.val % 4 = 0) (d) :
    (dat0 V c).before 5 t d = (outsAt0 V c (t.val - 1) (Nat.lt_of_le_of_lt (Nat.sub_le _ _) t.isLt)).2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dat0]
theorem before0_6_B (c : Dev nD) (t : Fin cfg0.N) (h0 : ¬t.val % 4 = 0) (d) :
    (dat0 V c).before 6 t d = (outsAt0 V c (t.val - 1) (Nat.lt_of_le_of_lt (Nat.sub_le _ _) t.isLt)).2.2.1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6]
  have hN : t.val < 32 := lt_of_lt_of_eq t.isLt (show cfg0.N = 32 from N_0)
  by_cases h0 : t.val % 4 = 0
  · rw [outsAt0_A V c t h0]
    unfold outsA0 leaves; dsimp only
    rw [PhiS0_castSucc V c t]
    iintro ⟨HΦ, Ho, ⟨%d0, H0⟩, ⟨%d1, H1⟩, ⟨%d2, H2⟩, ⟨%d3, H3⟩, ⟨%d4, H4⟩, ⟨%d5, H5⟩, ⟨%d6, H6⟩⟩
    ihave H := (PhiS0_some V c _ _) $$ HΦ
    icases H with ⟨⟨HS0, HS1, HR⟩, Hg⟩
    iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (coversA0 c _ _ _ _ _ _ _ _ _ _ _ _ _ _ _ _ _ _ _ _ _ _ _ _).2.2.2.1
        isplitl [HS1]
        · unfold owns; iexists _; isplitr
          swap; · iexact HS1
          ipureintro; exact View.read_writes_of_cover _ _ _ _ _ (coversA0 c _ _ _ _ _ _ _ _ _ _ _ _ _ _ _ _ _ _ _ _ _ _ _ _).2.2.2.2
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coversA0 c _ _ _ _ _ _ _ _ _ _ _ _ _ _ _ _ _ _ _ _ _ _ _ _).1
    isplitl [H5]
    · unfold owns; iexists _; isplitr
      swap; · iexact H5
      ipureintro; exact View.read_writes_of_cover _ _ _ _ _ (coversA0 c _ _ _ _ _ _ _ _ _ _ _ _ _ _ _ _ _ _ _ _ _ _ _ _).2.1
    unfold owns; iexists _; isplitr
    swap; · iexact H6
    ipureintro; exact View.read_writes_of_cover _ _ _ _ _ (coversA0 c _ _ _ _ _ _ _ _ _ _ _ _ _ _ _ _ _ _ _ _ _ _ _ _).2.2.1
  · rw [outsAt0_B V c t h0]
    simp only [before0_5_B V c t h0, before0_6_B V c t h0]
    unfold outsB0 leaves; dsimp only
    have hz : t.val ≠ 0 := fun h => h0 (by rw [h])
    rw [PhiS0_castSucc V c t, PhiS0_pos V c _ _ hz]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) _ _ _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, ⟨%e5, H5⟩, ⟨%e6, H6⟩, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coversB0 c _ _ _ _ _ _ _ _ _ _ _ _ _ _ _ _ _ _ _ _ _ _ _ _ _ _ _ _).1
    isplitl [H5]
    · unfold owns; iexists _; isplitr
      swap; · iexact H5
      ipureintro; exact View.read_writes_of_cover _ _ _ _ _ (coversB0 c _ _ _ _ _ _ _ _ _ _ _ _ _ _ _ _ _ _ _ _ _ _ _ _ _ _ _ _).2.1
    unfold owns; iexists _; isplitr
    swap; · iexact H6
    ipureintro; exact View.read_writes_of_cover _ _ _ _ _ (coversB0 c _ _ _ _ _ _ _ _ _ _ _ _ _ _ _ _ _ _ _ _ _ _ _ _ _ _ _ _).2.2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl, PhiA0_eq]
  exact PhiS0_some V c _ _

end Cert.KernelIdeal.Hand

end
-- ==== Proof.KI.R1Runs.lean ====
import proofs.«401853_j10514079941286_3_alg».proof.Proof.KI.Leaves
import proofs.«401853_j10514079941286_3_alg».proof.Proof.Gen.KernelIdeal.Launch
import proofs.«401853_j10514079941286_3_alg».proof.Proof.Gen.KernelIdeal.Skeleton
import proofs.«401853_j10514079941286_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev VO1_6 : View sig .tc .vmem S1x256x512 .f32 := (Memref.whole cc1_stg6_0 : Memref sig .tc .vmem S1x256x512 .f32).view
abbrev VO1_7 : View sig .tc .vmem S1x1x512 .f32 := (Memref.whole cc1_stg7_0 : Memref sig .tc .vmem S1x1x512 .f32).view
abbrev VO1_8 : View sig .tc .vmem S1x1x512 .f32 := (Memref.whole cc1_stg8_0 : Memref sig .tc .vmem S1x1x512 .f32).view
abbrev ms1_0 (t : Fin cfg1.N) : Memref sig .tc .vmem S1x256x1280 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x512 .f32 := win1_8.stage (cfg1.slots t 8)
abbrev hs1_8 (t : Fin cfg1.N) : (ms1_8 t).IsWhole := hstage1_8 ((cfg1.slots t 8).cast nbuf1_8)

end Cert.KernelIdeal.Hand

end
-- ==== Proof.KI.R1RunA.lean ====
import proofs.«401853_j10514079941286_3_alg».proof.Proof.KI.R1Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x256x1280 .bf16) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S512x64 .f32) (harg7 : arg7.IsWhole) (arg8 : Memref sig .tc .vmem S1x256x512 .f32) (harg8 : arg8.IsWhole) (arg9 : Memref sig .tc .vmem S1x1x512 .f32) (harg9 : arg9.IsWhole) (arg10 : Memref sig .tc .vmem S1x1x512 .f32) (harg10 : arg10.IsWhole) (hc0 : cond1_0 i)
    (x0 : Vec F S1x256x1280 .bf16) (x1 : Vec F S1x1x64 .f32) (x2 : Vec F S1x1x64 .f32) (x3 : Vec F S1x1x64 .f32) (x4 : Vec F S1x1x64 .f32) (x5 : Vec F S512x64 .f32) :
    Σ' (L6 : List (View.Piece (Elt F) S1x256x512 .f32)) (L7 : List (View.Piece (Elt F) S1x1x512 .f32)), { L8 : List (View.Piece (Elt F) S1x1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc1__bn1_max_mm2_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__bn1_max_mm2_kernel_eq_skeleton]; unfold cc1__bn1_max_mm2_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.KernelIdeal.Hand

end
-- ==== Proof.KI.R1RunB.lean ====
import proofs.«401853_j10514079941286_3_alg».proof.Proof.KI.R1RunA
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x256x1280 .bf16) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S512x64 .f32) (harg7 : arg7.IsWhole) (arg8 : Memref sig .tc .vmem S1x256x512 .f32) (harg8 : arg8.IsWhole) (arg9 : Memref sig .tc .vmem S1x1x512 .f32) (harg9 : arg9.IsWhole) (arg10 : Memref sig .tc .vmem S1x1x512 .f32) (harg10 : arg10.IsWhole) (hc0 : ¬cond1_0 i)
    (x0 : Vec F S1x256x1280 .bf16) (x1 : Vec F S1x1x64 .f32) (x2 : Vec F S1x1x64 .f32) (x3 : Vec F S1x1x64 .f32) (x4 : Vec F S1x1x64 .f32) (x5 : Vec F S512x64 .f32) (xo7 : Vec F S1x1x512 .f32) (xo8 : Vec F S1x1x512 .f32) :
    Σ' (L6 : List (View.Piece (Elt F) S1x256x512 .f32)) (L7 : List (View.Piece (Elt F) S1x1x512 .f32)), { L8 : List (View.Piece (Elt F) S1x1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc1__bn1_max_mm2_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__bn1_max_mm2_kernel_eq_skeleton]; unfold cc1__bn1_max_mm2_kernel_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.KernelIdeal.Hand

end
-- ==== Proof.KI.R1.lean ====
import proofs.«401853_j10514079941286_3_alg».proof.Proof.KI.R1RunB
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Point

variable (c : Dev nD) (i : grid1.Coords)
  (arg2 : Memref sig .tc .vmem S1x256x1280 .bf16)
  (harg2 : arg2.IsWhole)
  (arg3 : Memref sig .tc .vmem S1x1x64 .f32)
  (harg3 : arg3.IsWhole)
  (arg4 : Memref sig .tc .vmem S1x1x64 .f32)
  (harg4 : arg4.IsWhole)
  (arg5 : Memref sig .tc .vmem S1x1x64 .f32)
  (harg5 : arg5.IsWhole)
  (arg6 : Memref sig .tc .vmem S1x1x64 .f32)
  (harg6 : arg6.IsWhole)
  (arg7 : Memref sig .tc .vmem S512x64 .f32)
  (harg7 : arg7.IsWhole)
  (arg8 : Memref sig .tc .vmem S1x256x512 .f32)
  (harg8 : arg8.IsWhole)
  (arg9 : Memref sig .tc .vmem S1x1x512 .f32)
  (harg9 : arg9.IsWhole)
  (arg10 : Memref sig .tc .vmem S1x1x512 .f32)
  (harg10 : arg10.IsWhole)

/-- What a first point of a batch leaves in the three outputs. -/
def outsA1 (hc0 : cond1_0 i) (x0 : Vec F S1x256x1280 .bf16) (x1 x2 x3 x4 : Vec F S1x1x64 .f32) (x5 : Vec F S512x64 .f32) : Vec F S1x256x512 .f32 × Vec F S1x1x512 .f32 × Vec F S1x1x512 .f32 :=
  let r := kernelRun1_A c i arg2 harg2 arg3 harg3 arg4 harg4 arg5 harg5 arg6 harg6 arg7 harg7 arg8 harg8 arg9 harg9 arg10 harg10 hc0 x0 x1 x2 x3 x4 x5
  (leaves VO1_6 r.1, leaves VO1_7 r.2.1, leaves VO1_8 r.2.2.1)

/-- Its stores tile each of the three buffers. -/
theorem coversA1 (hc0 : cond1_0 i) (x0 : Vec F S1x256x1280 .bf16) (x1 x2 x3 x4 : Vec F S1x1x64 .f32) (x5 : Vec F S512x64 .f32) :
    let r := kernelRun1_A c i arg2 harg2 arg3 harg3 arg4 harg4 arg5 harg5 arg6 harg6 arg7 harg7 arg8 harg8 arg9 harg9 arg10 harg10 hc0 x0 x1 x2 x3 x4 x5
    Covered r.1 ∧ Covered r.2.1 ∧ Covered r.2.2.1 :=
  ⟨View.cover_of_tiledL _ S1x256x512.size (by sl_kernel_rfl), View.cover_of_tiledL _ S1x1x512.size (by sl_kernel_rfl), View.cover_of_tiledL _ S1x1x512.size (by sl_kernel_rfl)⟩

/-- What a later point leaves, over what the two sums held. -/
def outsB1 (hc0 : ¬cond1_0 i) (x0 : Vec F S1x256x1280 .bf16) (x1 x2 x3 x4 : Vec F S1x1x64 .f32) (x5 : Vec F S512x64 .f32) (xo7 xo8 : Vec F S1x1x512 .f32) : Vec F S1x256x512 .f32 × Vec F S1x1x512 .f32 × Vec F S1x1x512 .f32 :=
  let r := kernelRun1_B c i arg2 harg2 arg3 harg3 arg4 harg4 arg5 harg5 arg6 harg6 arg7 harg7 arg8 harg8 arg9 harg9 arg10 harg10 hc0 x0 x1 x2 x3 x4 x5 xo7 xo8
  (leaves VO1_6 r.1, leaves VO1_7 r.2.1, leaves VO1_8 r.2.2.1)

theorem coversB1 (hc0 : ¬cond1_0 i) (x0 : Vec F S1x256x1280 .bf16) (x1 x2 x3 x4 : Vec F S1x1x64 .f32) (x5 : Vec F S512x64 .f32) (xo7 xo8 : Vec F S1x1x512 .f32) :
    let r := kernelRun1_B c i arg2 harg2 arg3 harg3 arg4 harg4 arg5 harg5 arg6 harg6 arg7 harg7 arg8 harg8 arg9 harg9 arg10 harg10 hc0 x0 x1 x2 x3 x4 x5 xo7 xo8
    Covered r.1 ∧ Covered r.2.1 ∧ Covered r.2.2.1 :=
  ⟨View.cover_of_tiledL _ S1x256x512.size (by sl_kernel_rfl), View.cover_of_tiledL _ S1x1x512.size (by sl_kernel_rfl), View.cover_of_tiledL _ S1x1x512.size (by sl_kernel_rfl)⟩

end Point

def outsAt1 (c : Dev nD) : (n : ℕ) → n < cfg1.N → Vec F S1x256x512 .f32 × Vec F S1x1x512 .f32 × Vec F S1x1x512 .f32
  | 0, hn => outsA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)
  | n + 1, hn =>
    if h0 : (n + 1) % 4 = 0 then
      outsA1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
    else
      outsB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2

theorem outsAt1_A (c : Dev nD) (t : Fin cfg1.N) (h0 : t.val % 4 = 0) :
    outsAt1 V c t.val t.isLt = outsA1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t) := by
  obtain ⟨n, hn⟩ := t
  cases n with
  | zero => exact rfl
  | succ n => exact (dif_pos h0).trans rfl

theorem outsAt1_B (c : Dev nD) (t : Fin cfg1.N) (h0 : ¬t.val % 4 = 0) :
    outsAt1 V c t.val t.isLt = outsB1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_7_B (c : Dev nD) (t : Fin cfg1.N) (h0 : ¬t.val % 4 = 0) (d) :
    (dat1 V c).before 7 t d = (outsAt1 V c (t.val - 1) (Nat.lt_of_le_of_lt (Nat.sub_le _ _) t.isLt)).2.1 := by
  have hN : t.val < 32 := lt_of_lt_of_eq t.isLt (show cfg1.N = 32 from N_1)
  rw [Dat.before_out_kept _ 7 rfl t (by omega) (Bool.eq_false_iff.mpr fun h => by have := (flush1_7 _).mp h; dsimp only at this; omega)
    (fun _ => rfl) (fun _ _ => rfl)]
  dsimp only [dat1]
theorem before1_8_B (c : Dev nD) (t : Fin cfg1.N) (h0 : ¬t.val % 4 = 0) (d) :
    (dat1 V c).before 8 t d = (outsAt1 V c (t.val - 1) (Nat.lt_of_le_of_lt (Nat.sub_le _ _) t.isLt)).2.2 := by
  have hN : t.val < 32 := lt_of_lt_of_eq t.isLt (show cfg1.N = 32 from N_1)
  rw [Dat.before_out_kept _ 8 rfl t (by omega) (Bool.eq_false_iff.mpr fun h => by have := (flush1_8 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  have hN : t.val < 32 := lt_of_lt_of_eq t.isLt (show cfg1.N = 32 from N_1)
  by_cases h0 : t.val % 4 = 0
  · rw [outsAt1_A V c t h0]
    unfold outsA1 leaves; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coversA1 c _ _ _ _ _ _ _ _ _ _ _ _ _ _ _ _ _ _ _ _ _ _ _ _ _ _).1
    isplitl [H7]
    · unfold owns; iexists _; isplitr
      swap; · iexact H7
      ipureintro; exact View.read_writes_of_cover _ _ _ _ _ (coversA1 c _ _ _ _ _ _ _ _ _ _ _ _ _ _ _ _ _ _ _ _ _ _ _ _ _ _).2.1
    unfold owns; iexists _; isplitr
    swap; · iexact H8
    ipureintro; exact View.read_writes_of_cover _ _ _ _ _ (coversA1 c _ _ _ _ _ _ _ _ _ _ _ _ _ _ _ _ _ _ _ _ _ _ _ _ _ _).2.2
  · rw [outsAt1_B V c t h0]
    simp only [before1_7_B V c t h0, before1_8_B V c t h0]
    unfold outsB1 leaves; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coversB1 c _ _ _ _ _ _ _ _ _ _ _ _ _ _ _ _ _ _ _ _ _ _ _ _ _ _ _ _).1
    isplitl [H7]
    · unfold owns; iexists _; isplitr
      swap; · iexact H7
      ipureintro; exact View.read_writes_of_cover _ _ _ _ _ (coversB1 c _ _ _ _ _ _ _ _ _ _ _ _ _ _ _ _ _ _ _ _ _ _ _ _ _ _ _ _).2.1
    unfold owns; iexists _; isplitr
    swap; · iexact H8
    ipureintro; exact View.read_writes_of_cover _ _ _ _ _ (coversB1 c _ _ _ _ _ _ _ _ _ _ _ _ _ _ _ _ _ _ _ _ _ _ _ _ _ _ _ _).2.2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := BIBase.Entails.rfl

theorem hout1 (c : Dev nD) : (dat1 V c).Φ (Fin.last cfg1.N) ⊢ (Pipeline.ΦA spec1 c : sProp 𝕄) := BIBase.Entails.rfl

end Cert.KernelIdeal.Hand

end
-- ==== Proof.KI.R2.lean ====
import proofs.«401853_j10514079941286_3_alg».proof.Proof.Gen.KernelIdeal.Launch
import proofs.«401853_j10514079941286_3_alg».proof.Proof.Gen.KernelIdeal.Skeleton
import proofs.«401853_j10514079941286_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x512 := Rect.unit (s := S1024x512) ![0, 0] S1024x512.size inb_S1024x512_S1024x512_0_0
abbrev r2_1 : Rect S1x512 := Rect.unit (s := S1x512) ![0, 0] S1x512.size inb_S1x512_S1x512_0_0

def out2_5 (x0 : Vec F S1024x512 .f32) (x1 : Vec F S1x512 .f32) (x2 : Vec F S1x512 .f32) (x3 : Vec F S1x512 .f32) (x4 : Vec F S1x512 .f32) : Vec F S1024x512 .f32 :=
  View.canon [⟨r2_0, k2_pay1 (View.ld x0 r2_0) (View.ld x1 r2_1) (View.ld x2 r2_1) (View.ld x3 r2_1) (View.ld x4 r2_1)⟩]

theorem cover2_5 (p0 : Vec F S1024x512 .f32) (y : S1024x512.Idx) :
    ∃ pc ∈ ([⟨r2_0, p0⟩] : List (View.Piece (Elt F) S1024x512 .f32)), y ∈ pc.1.set :=
  View.cover_of_tiled [⟨r2_0, p0⟩] S1024x512.size (by rfl) y

set_option maxHeartbeats 1000000 in
theorem sound_kernel2 (c : Dev nD) (E : Set ℕ) (i : grid2.Coords) (arg1 : Memref sig .tc .vmem S1024x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole)
    (x0 : Vec F S1024x512 .f32) (x1 : Vec F S1x512 .f32) (x2 : Vec F S1x512 .f32) (x3 : Vec F S1x512 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn2_final_kernel i arg1 harg1 arg2 harg2 arg3 harg3 arg4 harg4 arg5 harg5 arg6 harg6) K := by
  simp only [cc2__bn2_final_kernel_eq_skeleton]; unfold cc2__bn2_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = Pipeline.ΦA spec2 c from rfl]

theorem hout2 (c : Dev nD) : (dat2 V c).Φ (Fin.last cfg2.N) ⊢ (Pipeline.ΦA spec2 c : sProp 𝕄) := by
  rw [show (dat2 V c).Φ (Fin.last cfg2.N) = Pipeline.ΦA spec2 c from rfl]

end Cert.KernelIdeal.Hand

end
-- ==== Proof.KI.Run.lean ====
import proofs.«401853_j10514079941286_3_alg».proof.Proof.KI.R0
import proofs.«401853_j10514079941286_3_alg».proof.Proof.KI.R1
import proofs.«401853_j10514079941286_3_alg».proof.Proof.KI.R2
import proofs.«401853_j10514079941286_3_alg».proof.Proof.Gen.KernelIdeal.Launch
import proofs.«401853_j10514079941286_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents after a region entered at V: the region's arrays at their final contents, every other buffer as entered. -/
abbrev leave {cfg : Cfg sig Λ₀} {c : Dev nD} (d : Dat τ (Elt F) Unit ℕ (UR sig nD τ) ℕ cfg c) (V : Valuation τ sig (Elt F)) :
    Valuation τ sig (Elt F) :=
  Pipeline.withArrays cfg.spec c V fun w => d.arrAt w cfg.N

theorem leave_of_in {cfg : Cfg sig Λ₀} {c : Dev nD} (d : Dat τ (Elt F) Unit ℕ (UR sig nD τ) ℕ cfg c)
    (hinj : Function.Injective (Pipeline.arrRef cfg.spec)) (V : Valuation τ sig (Elt F)) (r : Ref sig .tc)
    (hA : ∀ w, d.A w = V (Proc.devRef .tc (Pipeline.arrRef cfg.spec w)))
    (h : ∀ w, Pipeline.arrRef cfg.spec w = r → (cfg.win w).isOut = false) :
    leave d V (Proc.devRef .tc r) = V (Proc.devRef .tc r) := by
  by_cases e : ∃ w, Pipeline.arrRef cfg.spec w = r
  · obtain ⟨w, rfl⟩ := e
    exact (Pipeline.withArrays_arr _ hinj c _ _ w).trans ((d.arrAt_in w (h w rfl) _).trans (hA w))
  · exact Pipeline.withArrays_of_ne _ c _ _ r fun w hw => e ⟨w, hw⟩

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) := leave (dat0 (V3 m ρ) c) (W3 m ρ c)
theorem W4_arr (c : Dev nD) (w : Fin cfg0.W) :
    W4 m ρ c (Proc.devRef .tc (Pipeline.arrRef spec0 w)) = (dat0 (V3 m ρ) c).arrAt w cfg0.N :=
  by unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  by unfold W4; exact Pipeline.withArrays_of_ne spec0 c _ _ b hb
abbrev V4 : (c : Dev nD) → (b : Ref sig .tc) → Buf (Elt F) ((c : Thread nD τ).loc b) := fun c b => W4 m ρ c b
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) := leave (dat1 (V5 m ρ) c) (W5 m ρ c)
theorem W6_arr (c : Dev nD) (w : Fin cfg1.W) :
    W6 m ρ c (Proc.devRef .tc (Pipeline.arrRef spec1 w)) = (dat1 (V5 m ρ) c).arrAt w cfg1.N :=
  by unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) :=
  by unfold W6; exact Pipeline.withArrays_of_ne spec1 c _ _ b hb
abbrev V6 : (c : Dev nD) → (b : Ref sig .tc) → Buf (Elt F) ((c : Thread nD τ).loc b) := fun c b => W6 m ρ c b
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
def W8 (c : Dev nD) : Valuation τ sig (Elt F) := leave (dat2 (V7 m ρ) c) (W7 m ρ c)
theorem W8_arr (c : Dev nD) (w : Fin cfg2.W) :
    W8 m ρ c (Proc.devRef .tc (Pipeline.arrRef spec2 w)) = (dat2 (V7 m ρ) c).arrAt w cfg2.N :=
  by unfold W8; exact Pipeline.withArrays_arr spec2 launch2.win.arr_inj c _ _ w
abbrev V8 : (c : Dev nD) → (b : Ref sig .tc) → Buf (Elt F) ((c : Thread nD τ).loc b) := fun c b => W8 m ρ c b
abbrev W9 : Dev nD → Valuation τ sig (Elt F) := fun c => StableHlo.after hostOps3 (W8 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
theorem pdats_plain : (p : Fin 3) → (c : Dev nD) → (∀ w, (pdats m ρ p c).q w = fullShare) ∧ (∀ t, (pdats m ρ p c).owed t = 0)
      ∧ (pdats m ρ p c).recorded 0 = Set.univ
  | ⟨0, _⟩, _ | ⟨1, _⟩, _ | ⟨2, _⟩, _ => ⟨fun _ => rfl, fun _ => rfl, rfl⟩
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

set_option backward.isDefEq.respectTransparency.types false in
def reg (p : Fin 3) (lf : Pipeline.LaunchFacts (nD := nD) (τ := τ) cfgs p) (V : Dev nD → Valuation τ sig (Elt F))
    (hb : ∀ c, BodyObligation (pdats m ρ p c) (defs₀ (F := F)) Variants.none () Set.univ)
    (hA : ∀ c w, (pdats m ρ p c).A w = V c (Proc.devRef .tc (Pipeline.arrRef (cfgs p).spec w)))
    (h₀ : ∀ c, (Pipeline.ΦA (cfgs p).spec c : sProp 𝕄) ⊢ (pdats m ρ p c).Φ 0)
    (hₙ : ∀ c, (pdats m ρ p c).Φ (Fin.last (cfgs p).N) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m ρ p c).2.1
  pre c := iprop(StableHlo.held (c : Thread nD τ) (Pipeline.ucRefs τ sig) (V c) ∗ R c)
  post c := iprop(StableHlo.held (c : Thread nD τ) (Pipeline.ucRefs τ sig) (leave (pdats m ρ p c) (V c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m ρ) lf.win lf.arr_whole c
      ((pdats m ρ p c).share_full (pdats_plain m ρ p c).1) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_plain m ρ p c).2.1]
      icases HO with ⟨%W, HO⟩; iexists W; isplitr; · ipureintro; exact fun _ _ => Or.inl (by rw [(pdats_plain m ρ p c).2.2]; trivial)
      iexact HO
    isplitl [Hp]; · iexact Hp
    iexact Hrest
  hin c := by
    iintro ⟨Hp, -, Hr⟩
    iapply (h₀ c)
    unfold Pipeline.ΦA
    isplitl [Hr]; · iexact Hr
    iexact Hp
  hout c := by
    rw [Pipeline.ownSems0_none]
    iintro HΦ
    ihave H := (hₙ c) $$ HΦ
    unfold Pipeline.ΦA
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (pdats_plain m ρ p c).1)
      (fun b => V c b) (fun b => leave (pdats m ρ p c) (V c) b) ((pdats m ρ p c).arrAt · (Pipeline.pin pcfgs adm p).N)
      (fun w => (Pipeline.withArrays_arr _ lf.win.arr_inj c (V c) ((pdats m ρ p c).arrAt · _) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(pdats_plain m ρ p c).2.1]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg m ρ 0 launch0 (W3 m ρ) (body_obligation0 (V3 m ρ)) (A_eq0 (V3 m ρ)) (hin0 (V3 m ρ)) (hout0 (V3 m ρ))),
    .host (hseg hostOps1 hostOps1_sub hostOps1_fresh (W4 m ρ)),
    .region (reg m ρ 1 launch1 (W5 m ρ) (body_obligation1 (V5 m ρ)) (A_eq1 (V5 m ρ)) (hin1 (V5 m ρ)) (hout1 (V5 m ρ))),
    .host (hseg hostOps2 hostOps2_sub hostOps2_fresh (W6 m ρ)),
    .region (reg m ρ 2 launch2 (W7 m ρ) (body_obligation2 (V7 m ρ)) (A_eq2 (V7 m ρ)) (hin2 (V7 m ρ)) (hout2 (V7 m ρ))),
    .host (hseg hostOps3 hostOps3_sub hostOps3_fresh (W8 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

/-- A buffer that no host stretch writes and no region has an output window on ends as launched: the fold walks back to the launch memory. -/
theorem arg_end (c : Dev nD) (r : Ref sig .tc) {s : MemSt nD τ sig (Elt F)}
    (hs : ∀ b ∈ Pipeline.ucRefs τ sig, s.mem (((c : Thread nD τ)).1, b) = W9 m ρ c b) :
    ¬ (Proc.devRef .tc r : DevRef τ sig).isScoped
      ∧ (r ∉ hostOps0_W ∧ r ∉ hostOps0_1_W ∧ r ∉ hostOps0_2_W ∧ r ∉ hostOps1_W ∧ r ∉ hostOps2_W ∧ r ∉ hostOps3_W)
      ∧ (∀ w, Pipeline.arrRef spec0 w = r → (cfg0.win w).isOut = false)
      ∧ (∀ w, Pipeline.arrRef spec1 w = r → (cfg1.win w).isOut = false)
      ∧ (∀ w, Pipeline.arrRef spec2 w = r → (cfg2.win w).isOut = false) →
    s.mem ((c.tc : Thread nD τ).loc r) = m ((c.tc : Thread nD τ).loc r)
  | ⟨hu, ⟨h1, h2, h3, h5, h7, h9⟩, k0, k1, k2⟩ =>
    (hs _ (mem_uc r hu)).trans <|
    (StableHlo.after_of_writes_sub hostOps3 _ hostOps3_writes h9).trans <|
    (leave_of_in (dat2 (V7 m ρ) c) launch2.win.arr_inj _ r (A_eq2 (V7 m ρ) c) k2).trans <|
    (StableHlo.after_of_writes_sub hostOps2 _ hostOps2_writes h7).trans <|
    (leave_of_in (dat1 (V5 m ρ) c) launch1.win.arr_inj _ r (A_eq1 (V5 m ρ) c) k1).trans <|
    (W5_of m ρ c r h5).trans <|
    (leave_of_in (dat0 (V3 m ρ) c) launch0.win.arr_inj _ r (A_eq0 (V3 m ρ) c) k0).trans <|
    (W3_of m ρ c r h3).trans <| (W2_of m ρ c r h2).trans (W1_of m ρ c r h1)

theorem result : θ_run defs (onTc (τ := τ) (main (F := F))) ⟨m, fun _ => 0, ρ⟩ (fun r => ∀ c : Dev nD,
      r.2.mem ((c.tc : Thread nD τ).loc main_v39) = W9 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    refine ⟨h c _ (mem_uc main_v39 (by decide)), ?_, ?_, ?_, ?_, ?_, ?_, ?_, ?_⟩ <;>
      refine arg_end m ρ c _ (h c) ?_ <;> decide) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (result m ρ)

end Cert.KernelIdeal.Hand

end
-- ==== Proof.Spec.lean ====
import Idealize.ShloMosaic.PureOps.Ideal
import Idealize.ShloMosaic.Lib.ValueIdx

noncomputable section

namespace Cert.Spec

open Idealize.ShloMosaic

abbrev ArrX : Type := Fin 8 → Fin 1024 → Fin 512 → EReal
abbrev ArrIdx : Type := Fin 8 → Fin 1024 → Fin 20 → BitVec 32
abbrev ArrW1 : Type := Fin 64 → Fin 1024 → EReal
abbrev ArrV64 : Type := Fin 64 → EReal
abbrev ArrW2 : Type := Fin 512 → Fin 64 → EReal
abbrev ArrV512 : Type := Fin 512 → EReal
abbrev ArrH : Type := Fin 8 → Fin 1024 → Fin 20 → Fin 64 → EReal
abbrev ArrH2 : Type := Fin 8 → Fin 1024 → Fin 512 → EReal

def cur1 {α : Type} {n0 : Nat} (a : (⟨1, ![n0]⟩ : Shape).Idx → α) : Fin n0 → α := fun i => a (ValueIdx.ix1 i)
def cur2 {α : Type} {n0 n1 : Nat} (a : (⟨2, ![n0, n1]⟩ : Shape).Idx → α) : Fin n0 → Fin n1 → α := fun i j => a (ValueIdx.ix2 i j)
def cur3 {α : Type} {n0 n1 n2 : Nat} (a : (⟨3, ![n0, n1, n2]⟩ : Shape).Idx → α) : Fin n0 → Fin n1 → Fin n2 → α :=
  fun i j k => a (ValueIdx.ix3 i j k)

def eps : EReal := Ideal.ofBits .f32 0x3727C5AC#32
def slope : EReal := Ideal.ofBits .f32 0x3E4CCCCD#32
def cnt1 : EReal := Ideal.ofBits .f32 0x48200000#32
def cnt2 : EReal := Ideal.ofBits .f32 0x46000000#32

def InRange (idx : ArrIdx) : Prop := ∀ b n k, 0 ≤ (idx b n k).toInt ∧ (idx b n k).toInt < 1024

def Fin3 (x : ArrX) : Prop := ∀ b n c, x b n c ≠ ⊤ ∧ x b n c ≠ ⊥
def Fin2W1 (w : ArrW1) : Prop := ∀ m c, w m c ≠ ⊤ ∧ w m c ≠ ⊥
def Fin2W2 (w : ArrW2) : Prop := ∀ d m, w d m ≠ ⊤ ∧ w d m ≠ ⊥
def Fin1a (v : ArrV64) : Prop := ∀ m, v m ≠ ⊤ ∧ v m ≠ ⊥
def Fin1b (v : ArrV512) : Prop := ∀ d, v d ≠ ⊤ ∧ v d ≠ ⊥

def row (idx : ArrIdx) (b : Fin 8) (n : Fin 1024) (k : Fin 20) : Fin 1024 :=
  ⟨(idx b n k).toNat % 1024, Nat.mod_lt _ (by norm_num)⟩

def leaky (v : EReal) : EReal := if 0 ≤ v then v else slope * v
def bn (v mean var g b : EReal) : EReal := (v - mean) * Ideal.rsqrt (var + eps) * g + b

def w1lo (W1 : ArrW1) (m : Fin 64) (c : Fin 512) : EReal := W1 m ⟨c.val, by omega⟩
def w1hi (W1 : ArrW1) (m : Fin 64) (c : Fin 512) : EReal := W1 m ⟨512 + c.val, by omega⟩

def proj (x : ArrX) (w : Fin 64 → Fin 512 → EReal) (b : Fin 8) (n : Fin 1024) (m : Fin 64) : EReal :=
  ∑ c : Fin 512, x b n c * w m c
def pick (x : ArrX) (idx : ArrIdx) (W1 : ArrW1) (b : Fin 8) (n : Fin 1024) (k : Fin 20) (m : Fin 64) : EReal :=
  ∑ j : Fin 1024, (if row idx b n k = j then (1 : EReal) else 0) * proj x (w1lo W1) b j m
def hK (x : ArrX) (idx : ArrIdx) (W1 : ArrW1) : ArrH := fun b n k m =>
  pick x idx W1 b n k m - proj x (w1lo W1) b n m + proj x (w1hi W1) b n m

def edge (x : ArrX) (idx : ArrIdx) (b : Fin 8) (n : Fin 1024) (k : Fin 20) (c : Fin 1024) : EReal :=
  if h : c.val < 512 then x b (row idx b n k) ⟨c.val, h⟩ - x b n ⟨c.val, h⟩ else x b n ⟨c.val - 512, by omega⟩
def hR (x : ArrX) (idx : ArrIdx) (W1 : ArrW1) : ArrH := fun b n k m =>
  ∑ c : Fin 1024, edge x idx b n k c * W1 m c

def sum1 (h : ArrH) (m : Fin 64) : EReal := ∑ b : Fin 8, ∑ n : Fin 1024, ∑ k : Fin 20, h b n k m
def sumsq1 (h : ArrH) (m : Fin 64) : EReal := ∑ b : Fin 8, ∑ n : Fin 1024, ∑ k : Fin 20, h b n k m * h b n k m
def mean1 (h : ArrH) (m : Fin 64) : EReal := Ideal.div (sum1 h m) cnt1
def var1K (h : ArrH) (m : Fin 64) : EReal := max (Ideal.div (sumsq1 h m) cnt1 - mean1 h m * mean1 h m) 0
def var1R (h : ArrH) (m : Fin 64) : EReal :=
  Ideal.div (∑ b : Fin 8, ∑ n : Fin 1024, ∑ k : Fin 20, (h b n k m - mean1 h m) * (h b n k m - mean1 h m)) cnt1

def act1 (h : ArrH) (var : Fin 64 → EReal) (g1 b1 : ArrV64) : ArrH := fun b n k m =>
  leaky (bn (h b n k m) (mean1 h m) (var m) (g1 m) (b1 m))
def hmax (a : ArrH) (b : Fin 8) (n : Fin 1024) (m : Fin 64) : EReal := Finset.univ.sup fun k : Fin 20 => a b n k m
def proj2 (a : ArrH) (W2 : ArrW2) : ArrH2 := fun b n d => ∑ m : Fin 64, hmax a b n m * W2 d m

def sum2 (v : ArrH2) (d : Fin 512) : EReal := ∑ b : Fin 8, ∑ n : Fin 1024, v b n d
def sumsq2 (v : ArrH2) (d : Fin 512) : EReal := ∑ b : Fin 8, ∑ n : Fin 1024, v b n d * v b n d
def mean2 (v : ArrH2) (d : Fin 512) : EReal := Ideal.div (sum2 v d) cnt2
def var2K (v : ArrH2) (d : Fin 512) : EReal := max (Ideal.div (sumsq2 v d) cnt2 - mean2 v d * mean2 v d) 0
def var2R (v : ArrH2) (d : Fin 512) : EReal :=
  Ideal.div (∑ b : Fin 8, ∑ n : Fin 1024, (v b n d - mean2 v d) * (v b n d - mean2 v d)) cnt2
def act2 (v : ArrH2) (var : Fin 512 → EReal) (g2 b2 : ArrV512) : ArrH2 := fun b n d =>
  leaky (bn (v b n d) (mean2 v d) (var d) (g2 d) (b2 d))

def outK (x : ArrX) (idx : ArrIdx) (W1 : ArrW1) (g1 b1 : ArrV64) (W2 : ArrW2) (g2 b2 : ArrV512) : ArrH2 :=
  let h := hK x idx W1
  let v := proj2 (act1 h (var1K h) g1 b1) W2
  act2 v (var2K v) g2 b2

def outR (x : ArrX) (idx : ArrIdx) (W1 : ArrW1) (g1 b1 : ArrV64) (W2 : ArrW2) (g2 b2 : ArrV512) : ArrH2 :=
  let h := hR x idx W1
  let v := proj2 (act1 h (var1R h) g1 b1) W2
  act2 v (var2R v) g2 b2

end Cert.Spec

end
-- ==== Proof.SpecK.lean ====
import proofs.«401853_j10514079941286_3_alg».proof.Proof.Spec

noncomputable section

namespace Cert.Spec

open Idealize.ShloMosaic

def col (k : Fin 20) (m : Fin 64) : Fin 1280 := ⟨64 * k.val + m.val, by omega⟩

def hKw (x : ArrX) (iw : ArrIdx) (wlo whi : Fin 64 → Fin 512 → EReal) : ArrH := fun b n k m =>
  (∑ j : Fin 1024, (if iw b n k = BitVec.ofNat 32 j.val then (1 : EReal) else 0) * proj x wlo b j m)
    - proj x wlo b n m + proj x whi b n m

def colsum1 (h : ArrH) (b : Fin 8) (m : Fin 64) : EReal := ∑ n : Fin 1024, ∑ k : Fin 20, h b n k m
def colsumsq1 (h : ArrH) (b : Fin 8) (m : Fin 64) : EReal := ∑ n : Fin 1024, ∑ k : Fin 20, h b n k m * h b n k m

def meanOf1 (s : Fin 8 → Fin 64 → EReal) (m : Fin 64) : EReal := Ideal.div (∑ b : Fin 8, s b m) cnt1
def varOf1 (s ss : Fin 8 → Fin 64 → EReal) (m : Fin 64) : EReal :=
  max (Ideal.div (∑ b : Fin 8, ss b m) cnt1 - meanOf1 s m * meanOf1 s m) 0

def act1w (e : ArrH) (mean var g1 b1 : ArrV64) : ArrH := fun b n k m =>
  leaky (bn (e b n k m) (mean m) (var m) (g1 m) (b1 m))
def colsum2 (v : ArrH2) (b : Fin 8) (d : Fin 512) : EReal := ∑ n : Fin 1024, v b n d
def colsumsq2 (v : ArrH2) (b : Fin 8) (d : Fin 512) : EReal := ∑ n : Fin 1024, v b n d * v b n d
def meanOf2 (s : Fin 8 → Fin 512 → EReal) (d : Fin 512) : EReal := Ideal.div (∑ b : Fin 8, s b d) cnt2
def varOf2 (s ss : Fin 8 → Fin 512 → EReal) (d : Fin 512) : EReal :=
  max (Ideal.div (∑ b : Fin 8, ss b d) cnt2 - meanOf2 s d * meanOf2 s d) 0

def act2w (v : ArrH2) (mean var g2 b2 : ArrV512) : ArrH2 := fun b n d =>
  leaky (bn (v b n d) (mean d) (var d) (g2 d) (b2 d))

theorem hKw_eq_hK (x : ArrX) (idx iw : ArrIdx) (W1 : ArrW1)
    (hiw : ∀ b n k (j : Fin 1024), iw b n k = BitVec.ofNat 32 j.val ↔ row idx b n k = j) :
    hKw x iw (w1lo W1) (w1hi W1) = hK x idx W1 := by
  funext b n k m
  unfold hKw hK pick
  congr 2
  refine Finset.sum_congr rfl fun j _ => ?_
  by_cases hj : row idx b n k = j
  · rw [if_pos ((hiw b n k j).mpr hj), if_pos hj]
  · rw [if_neg (fun h => hj ((hiw b n k j).mp h)), if_neg hj]

theorem outK_stages (x : ArrX) (idx : ArrIdx) (W1 : ArrW1) (g1 b1 : ArrV64) (W2 : ArrW2) (g2 b2 : ArrV512) :
    (let h := hK x idx W1
     let v := proj2 (act1w h (meanOf1 (colsum1 h)) (varOf1 (colsum1 h) (colsumsq1 h)) g1 b1) W2
     act2w v (meanOf2 (colsum2 v)) (varOf2 (colsum2 v) (colsumsq2 v)) g2 b2)
      = outK x idx W1 g1 b1 W2 g2 b2 := rfl

end Cert.Spec

end
-- ==== Proof.KV.R0Defs.lean ====
import proofs.«401853_j10514079941286_3_alg».proof.Proof.KI.R0
import proofs.«401853_j10514079941286_3_alg».proof.Proof.SpecK
import Idealize.ShloMosaic.Lib.Pipeline.Value
import Idealize.ShloMosaic.Lib.ValueLayout

set_option maxRecDepth 16384

noncomputable section

namespace Cert.KernelIdeal.HandV

open Cert.KernelIdeal Cert.KernelIdeal.Gen Cert.KernelIdeal.Hand Cert.Spec
open Idealize.ShloMosaic Idealize.ShloMosaic.TcCoe Idealize.ShloMosaic.Tactic
open Idealize.SL Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

def csF (h : FVec F S256x64 .f32) : FVec F S1x64 .f32 :=
  shapeCast S1x64 (multiReduction .add [0] S64 h 0x00000000#32 reduces_S256x64_S64 (.inl rfl) rfl) shapeCasts_S64_S1x64

def zero64 : FVec F S1x64 .f32 := broadcast S1x64 (Scalar.ofBits .f32 0x00000000#32)

def iwOf (x1 : Vec F S1x256x20 .i32) : ℕ → Vec F S1x256x1 .i32
  | 0 => View.ld x1 (Rect.unit (s := S1x256x20) ![0, 0, 0] S1x256x1.size inb_S1x256x20_S1x256x1_0_0_0)
  | 1 => View.ld x1 (Rect.unit (s := S1x256x20) ![0, 0, 1] S1x256x1.size inb_S1x256x20_S1x256x1_0_0_1)
  | 2 => View.ld x1 (Rect.unit (s := S1x256x20) ![0, 0, 2] S1x256x1.size inb_S1x256x20_S1x256x1_0_0_2)
  | 3 => View.ld x1 (Rect.unit (s := S1x256x20) ![0, 0, 3] S1x256x1.size inb_S1x256x20_S1x256x1_0_0_3)
  | 4 => View.ld x1 (Rect.unit (s := S1x256x20) ![0, 0, 4] S1x256x1.size inb_S1x256x20_S1x256x1_0_0_4)
  | 5 => View.ld x1 (Rect.unit (s := S1x256x20) ![0, 0, 5] S1x256x1.size inb_S1x256x20_S1x256x1_0_0_5)
  | 6 => View.ld x1 (Rect.unit (s := S1x256x20) ![0, 0, 6] S1x256x1.size inb_S1x256x20_S1x256x1_0_0_6)
  | 7 => View.ld x1 (Rect.unit (s := S1x256x20) ![0, 0, 7] S1x256x1.size inb_S1x256x20_S1x256x1_0_0_7)
  | 8 => View.ld x1 (Rect.unit (s := S1x256x20) ![0, 0, 8] S1x256x1.size inb_S1x256x20_S1x256x1_0_0_8)
  | 9 => View.ld x1 (Rect.unit (s := S1x256x20) ![0, 0, 9] S1x256x1.size inb_S1x256x20_S1x256x1_0_0_9)
  | 10 => View.ld x1 (Rect.unit (s := S1x256x20) ![0, 0, 10] S1x256x1.size inb_S1x256x20_S1x256x1_0_0_10)
  | 11 => View.ld x1 (Rect.unit (s := S1x256x20) ![0, 0, 11] S1x256x1.size inb_S1x256x20_S1x256x1_0_0_11)
  | 12 => View.ld x1 (Rect.unit (s := S1x256x20) ![0, 0, 12] S1x256x1.size inb_S1x256x20_S1x256x1_0_0_12)
  | 13 => View.ld x1 (Rect.unit (s := S1x256x20) ![0, 0, 13] S1x256x1.size inb_S1x256x20_S1x256x1_0_0_13)
  | 14 => View.ld x1 (Rect.unit (s := S1x256x20) ![0, 0, 14] S1x256x1.size inb_S1x256x20_S1x256x1_0_0_14)
  | 15 => View.ld x1 (Rect.unit (s := S1x256x20) ![0, 0, 15] S1x256x1.size inb_S1x256x20_S1x256x1_0_0_15)
  | 16 => View.ld x1 (Rect.unit (s := S1x256x20) ![0, 0, 16] S1x256x1.size inb_S1x256x20_S1x256x1_0_0_16)
  | 17 => View.ld x1 (Rect.unit (s := S1x256x20) ![0, 0, 17] S1x256x1.size inb_S1x256x20_S1x256x1_0_0_17)
  | 18 => View.ld x1 (Rect.unit (s := S1x256x20) ![0, 0, 18] S1x256x1.size inb_S1x256x20_S1x256x1_0_0_18)
  | 19 => View.ld x1 (Rect.unit (s := S1x256x20) ![0, 0, 19] S1x256x1.size inb_S1x256x20_S1x256x1_0_0_19)
  | _ + 20 => View.ld x1 (Rect.unit (s := S1x256x20) ![0, 0, 19] S1x256x1.size inb_S1x256x20_S1x256x1_0_0_19)

def sumUpTo (v6 v8 : Vec F S256x64 .f32) (v10 : FVec F S1024x64 .bf16) (v11 : IVec S1x1024 32) (iw : ℕ → Vec F S1x256x1 .i32) :
    ℕ → FVec F S1x64 .f32
  | 0 => addf zero64 (csF (k0_pay14 v6 v8 v10 v11 (iw 0)))
  | n + 1 => addf (sumUpTo v6 v8 v10 v11 iw n) (csF (k0_pay14 v6 v8 v10 v11 (iw (n + 1))))

def sqUpTo (v6 v8 : Vec F S256x64 .f32) (v10 : FVec F S1024x64 .bf16) (v11 : IVec S1x1024 32) (iw : ℕ → Vec F S1x256x1 .i32) :
    ℕ → FVec F S1x64 .f32
  | 0 => addf zero64 (csF (mulf (k0_pay14 v6 v8 v10 v11 (iw 0)) (k0_pay14 v6 v8 v10 v11 (iw 0))))
  | n + 1 => addf (sqUpTo v6 v8 v10 v11 iw n) (csF (mulf (k0_pay14 v6 v8 v10 v11 (iw (n + 1))) (k0_pay14 v6 v8 v10 v11 (iw (n + 1)))))

def edgeF (h : FVec F S256x64 .f32) : FVec F S1x256x64 .bf16 :=
  shapeCast S1x256x64 (truncf .bf16 h bitsLt_bf16_f32) shapeCasts_S256x64_S1x256x64

def rowsOf (i : grid0.Coords) (xs : Vec F S1024x64 .f32) : Vec F S256x64 .f32 :=
  View.ld xs (Rect.unit (s := S1024x64) (k0_off1 i) S256x64.size (k0_off1_inb i))

def edgeList (P : ℕ → FVec F S1x256x64 .bf16) : List (View.Piece (Elt F) S1x256x1280 .bf16) :=
  [⟨Rect.unit (s := S1x256x1280) ![0, 0, 1216] S1x256x64.size inb_S1x256x1280_S1x256x64_0_0_1216, P 19⟩,
   ⟨Rect.unit (s := S1x256x1280) ![0, 0, 1152] S1x256x64.size inb_S1x256x1280_S1x256x64_0_0_1152, P 18⟩,
   ⟨Rect.unit (s := S1x256x1280) ![0, 0, 1088] S1x256x64.size inb_S1x256x1280_S1x256x64_0_0_1088, P 17⟩,
   ⟨Rect.unit (s := S1x256x1280) ![0, 0, 1024] S1x256x64.size inb_S1x256x1280_S1x256x64_0_0_1024, P 16⟩,
   ⟨Rect.unit (s := S1x256x1280) ![0, 0, 960] S1x256x64.size inb_S1x256x1280_S1x256x64_0_0_960, P 15⟩,
   ⟨Rect.unit (s := S1x256x1280) ![0, 0, 896] S1x256x64.size inb_S1x256x1280_S1x256x64_0_0_896, P 14⟩,
   ⟨Rect.unit (s := S1x256x1280) ![0, 0, 832] S1x256x64.size inb_S1x256x1280_S1x256x64_0_0_832, P 13⟩,
   ⟨Rect.unit (s := S1x256x1280) ![0, 0, 768] S1x256x64.size inb_S1x256x1280_S1x256x64_0_0_768, P 12⟩,
   ⟨Rect.unit (s := S1x256x1280) ![0, 0, 704] S1x256x64.size inb_S1x256x1280_S1x256x64_0_0_704, P 11⟩,
   ⟨Rect.unit (s := S1x256x1280) ![0, 0, 640] S1x256x64.size inb_S1x256x1280_S1x256x64_0_0_640, P 10⟩,
   ⟨Rect.unit (s := S1x256x1280) ![0, 0, 576] S1x256x64.size inb_S1x256x1280_S1x256x64_0_0_576, P 9⟩,
   ⟨Rect.unit (s := S1x256x1280) ![0, 0, 512] S1x256x64.size inb_S1x256x1280_S1x256x64_0_0_512, P 8⟩,
   ⟨Rect.unit (s := S1x256x1280) ![0, 0, 448] S1x256x64.size inb_S1x256x1280_S1x256x64_0_0_448, P 7⟩,
   ⟨Rect.unit (s := S1x256x1280) ![0, 0, 384] S1x256x64.size inb_S1x256x1280_S1x256x64_0_0_384, P 6⟩,
   ⟨Rect.unit (s := S1x256x1280) ![0, 0, 320] S1x256x64.size inb_S1x256x1280_S1x256x64_0_0_320, P 5⟩,
   ⟨Rect.unit (s := S1x256x1280) ![0, 0, 256] S1x256x64.size inb_S1x256x1280_S1x256x64_0_0_256, P 4⟩,
   ⟨Rect.unit (s := S1x256x1280) ![0, 0, 192] S1x256x64.size inb_S1x256x1280_S1x256x64_0_0_192, P 3⟩,
   ⟨Rect.unit (s := S1x256x1280) ![0, 0, 128] S1x256x64.size inb_S1x256x1280_S1x256x64_0_0_128, P 2⟩,
   ⟨Rect.unit (s := S1x256x1280) ![0, 0, 64] S1x256x64.size inb_S1x256x1280_S1x256x64_0_0_64, P 1⟩,
   ⟨Rect.unit (s := S1x256x1280) ![0, 0, 0] S1x256x64.size inb_S1x256x1280_S1x256x64_0_0_0, P 0⟩]

def edgeOf (v6 v8 : Vec F S256x64 .f32) (v10 : FVec F S1024x64 .bf16) (x1 : Vec F S1x256x20 .i32) : Vec F S1x256x1280 .bf16 :=
  View.canon (edgeList fun k => edgeF (k0_pay14 v6 v8 v10 (iota .tc S1x1024 32 [1] iota_S1x1024_d1_w32) (iwOf x1 k)))

section Arrays

variable (V : (c : Dev nD) → (b : Ref sig .tc) → Buf (Elt Ideal) ((c : Thread nD τ).loc b))

abbrev hOf (c : Dev nD) : Spec.ArrH :=
  Spec.hKw (Spec.cur3 (V c main_arg0)) (Spec.cur3 (V c main_v0)) (Spec.cur2 (V c main_v1)) (Spec.cur2 (V c main_v2))

def bOf (t : Fin cfg0.N) : Fin 8 := ⟨t.val / 4, by have := t.isLt; have : cfg0.N = 32 := N_0; omega⟩
def rowOf (t : Fin cfg0.N) (r : Fin 256) : Fin 1024 := ⟨256 * (t.val % 4) + r.val, by have := r.isLt; omega⟩

def tileSum (c : Dev nD) (t : Fin cfg0.N) (m : Fin 64) : EReal :=
  ∑ k : Fin 20, ∑ r : Fin 256, hOf V c (bOf t) (rowOf t r) k m
def tileSumSq (c : Dev nD) (t : Fin cfg0.N) (m : Fin 64) : EReal :=
  ∑ k : Fin 20, ∑ r : Fin 256, hOf V c (bOf t) (rowOf t r) k m * hOf V c (bOf t) (rowOf t r) k m

end Arrays

end Cert.KernelIdeal.HandV

end
-- ==== Proof.KV.R0Pieces.lean ====
import proofs.«401853_j10514079941286_3_alg».proof.Proof.KV.R0Defs

set_option maxRecDepth 16384

noncomputable section

namespace Cert.KernelIdeal.HandV

open Cert.KernelIdeal Cert.KernelIdeal.Gen Cert.KernelIdeal.Hand Cert.Spec
open Idealize.ShloMosaic Idealize.ShloMosaic.TcCoe Idealize.ShloMosaic.Tactic
open Idealize.SL Idealize.SL.Sem
open Idealize.ShloMosaic.Pipeline (Dat)

variable {F : FTy → Type} [FloatOps F]

section Point

variable (c : Dev nD) (i : grid0.Coords)
  (arg2 : Memref sig .tc .vmem S1x1024x512 .f32)
  (harg2 : arg2.IsWhole)
  (arg3 : Memref sig .tc .vmem S1x256x20 .i32)
  (harg3 : arg3.IsWhole)
  (arg4 : Memref sig .tc .vmem S64x512 .f32)
  (harg4 : arg4.IsWhole)
  (arg5 : Memref sig .tc .vmem S64x512 .f32)
  (harg5 : arg5.IsWhole)
  (arg6 : Memref sig .tc .vmem S1x256x1280 .bf16)
  (harg6 : arg6.IsWhole)
  (arg7 : Memref sig .tc .vmem S1x1x64 .f32)
  (harg7 : arg7.IsWhole)
  (arg8 : Memref sig .tc .vmem S1x1x64 .f32)
  (harg8 : arg8.IsWhole)
  (arg9 : Memref sig .tc .vmem S1024x64 .f32)
  (harg9 : arg9.IsWhole)
  (arg10 : Memref sig .tc .vmem S1024x64 .f32)
  (harg10 : arg10.IsWhole)

set_option maxHeartbeats 2000000 in
theorem r0_out_B_5 (hc0 : ¬cond0_0 i)
    (x0 : Vec F S1x1024x512 .f32) (x1 : Vec F S1x256x20 .i32) (x2 : Vec F S64x512 .f32) (x3 : Vec F S64x512 .f32)
    (xo5 : Vec F S1x1x64 .f32) (xo6 : Vec F S1x1x64 .f32) (xs0 : Vec F S1024x64 .f32) (xs1 : Vec F S1024x64 .f32) :
    (outsB0 c i arg2 harg2 arg3 harg3 arg4 harg4 arg5 harg5 arg6 harg6 arg7 harg7 arg8 harg8 arg9 harg9 arg10 harg10 hc0 x0 x1 x2 x3 xo5 xo6 xs0 xs1).2.1
      = k0_pay2 (sumUpTo (rowsOf i xs0) (rowsOf i xs1) (k0_pay9 xs0) (iota .tc S1x1024 32 [1] iota_S1x1024_d1_w32) (iwOf x1) 19) xo5 := by
  unfold outsB0 leaves; dsimp only
  rw [View.read_writes_junk_eq_canon]
  unfold kernelRun0_B
  dsimp only
  rw [View.canon_unit_zero hz3]
  sl_unfold_words
  simp only [View.readAt_eq_ld, harg2.read_unread, harg3.read_unread, harg4.read_unread, harg5.read_unread, harg7.read_unread, harg8.read_unread, harg9.read_unread, harg10.read_unread, View.ld_unit_zero (S := S1024x64) hz2, View.ld_unit_zero (S := S1x1x64) hz3]
  refine congrArg (fun v => k0_pay2 v xo5) ?_
  simp only [sumUpTo, iwOf, rowsOf]
  rfl

set_option maxHeartbeats 2000000 in
theorem r0_out_B_6 (hc0 : ¬cond0_0 i)
    (x0 : Vec F S1x1024x512 .f32) (x1 : Vec F S1x256x20 .i32) (x2 : Vec F S64x512 .f32) (x3 : Vec F S64x512 .f32)
    (xo5 : Vec F S1x1x64 .f32) (xo6 : Vec F S1x1x64 .f32) (xs0 : Vec F S1024x64 .f32) (xs1 : Vec F S1024x64 .f32) :
    (outsB0 c i arg2 harg2 arg3 harg3 arg4 harg4 arg5 harg5 arg6 harg6 arg7 harg7 arg8 harg8 arg9 harg9 arg10 harg10 hc0 x0 x1 x2 x3 xo5 xo6 xs0 xs1).2.2.1
      = k0_pay3 (sqUpTo (rowsOf i xs0) (rowsOf i xs1) (k0_pay9 xs0) (iota .tc S1x1024 32 [1] iota_S1x1024_d1_w32) (iwOf x1) 19) xo6 := by
  unfold outsB0 leaves; dsimp only
  rw [View.read_writes_junk_eq_canon]
  unfold kernelRun0_B
  dsimp only
  rw [View.canon_unit_zero hz3]
  sl_unfold_words
  simp only [View.readAt_eq_ld, harg2.read_unread, harg3.read_unread, harg4.read_unread, harg5.read_unread, harg7.read_unread, harg8.read_unread, harg9.read_unread, harg10.read_unread, View.ld_unit_zero (S := S1024x64) hz2, View.ld_unit_zero (S := S1x1x64) hz3]
  refine congrArg (fun v => k0_pay3 v xo6) ?_
  simp only [sqUpTo, iwOf, rowsOf]
  rfl

set_option maxHeartbeats 2000000 in
theorem r0_out_B_4 (hc0 : ¬cond0_0 i)
    (x0 : Vec F S1x1024x512 .f32) (x1 : Vec F S1x256x20 .i32) (x2 : Vec F S64x512 .f32) (x3 : Vec F S64x512 .f32)
    (xo5 : Vec F S1x1x64 .f32) (xo6 : Vec F S1x1x64 .f32) (xs0 : Vec F S1024x64 .f32) (xs1 : Vec F S1024x64 .f32) :
    (outsB0 c i arg2 harg2 arg3 harg3 arg4 harg4 arg5 harg5 arg6 harg6 arg7 harg7 arg8 harg8 arg9 harg9 arg10 harg10 hc0 x0 x1 x2 x3 xo5 xo6 xs0 xs1).1
      = edgeOf (rowsOf i xs0) (rowsOf i xs1) (k0_pay9 xs0) x1 := by
  unfold outsB0 leaves; dsimp only
  rw [View.read_writes_junk_eq_canon]
  unfold kernelRun0_B
  dsimp only
  sl_unfold_words
  simp only [View.readAt_eq_ld, harg2.read_unread, harg3.read_unread, harg4.read_unread, harg5.read_unread, harg7.read_unread, harg8.read_unread, harg9.read_unread, harg10.read_unread, View.ld_unit_zero (S := S1024x64) hz2, View.ld_unit_zero (S := S1x1x64) hz3]
  unfold edgeOf edgeList
  simp only [iwOf, rowsOf]
  rfl

theorem r0_sout_A_0 (hc0 : cond0_0 i)
    (x0 : Vec F S1x1024x512 .f32) (x1 : Vec F S1x256x20 .i32) (x2 : Vec F S64x512 .f32) (x3 : Vec F S64x512 .f32) :
    (outsA0 c i arg2 harg2 arg3 harg3 arg4 harg4 arg5 harg5 arg6 harg6 arg7 harg7 arg8 harg8 arg9 harg9 arg10 harg10 hc0 x0 x1 x2 x3).2.2.2.1 = k0_pay5 x0 x2 := by
  unfold outsA0 leaves; dsimp only
  rw [View.read_writes_junk_eq_canon]
  unfold kernelRun0_A
  dsimp only
  sl_unfold_words
  rw [View.canon_unit_zero hz2]
  simp only [View.readAt_eq_ld, harg2.read_unread, harg3.read_unread, harg4.read_unread, harg5.read_unread, View.ld_unit_zero (S := S1024x64) hz2, View.ld_unit_zero (S := S1x1x64) hz3, View.ld_unit_zero (S := S1x1024x512) hz3, View.ld_unit_zero (S := S64x512) hz2]

theorem r0_sout_A_1 (hc0 : cond0_0 i)
    (x0 : Vec F S1x1024x512 .f32) (x1 : Vec F S1x256x20 .i32) (x2 : Vec F S64x512 .f32) (x3 : Vec F S64x512 .f32) :
    (outsA0 c i arg2 harg2 arg3 harg3 arg4 harg4 arg5 harg5 arg6 harg6 arg7 harg7 arg8 harg8 arg9 harg9 arg10 harg10 hc0 x0 x1 x2 x3).2.2.2.2 = k0_pay6 x0 x3 := by
  unfold outsA0 leaves; dsimp only
  rw [View.read_writes_junk_eq_canon]
  unfold kernelRun0_A
  dsimp only
  sl_unfold_words
  rw [View.canon_unit_zero hz2]
  simp only [View.readAt_eq_ld, harg2.read_unread, harg3.read_unread, harg4.read_unread, harg5.read_unread, View.ld_unit_zero (S := S1024x64) hz2, View.ld_unit_zero (S := S1x1x64) hz3, View.ld_unit_zero (S := S1x1024x512) hz3, View.ld_unit_zero (S := S64x512) hz2]

set_option maxHeartbeats 2000000 in
theorem r0_out_A_5 (hc0 : cond0_0 i)
    (x0 : Vec F S1x1024x512 .f32) (x1 : Vec F S1x256x20 .i32) (x2 : Vec F S64x512 .f32) (x3 : Vec F S64x512 .f32) :
    (outsA0 c i arg2 harg2 arg3 harg3 arg4 harg4 arg5 harg5 arg6 harg6 arg7 harg7 arg8 harg8 arg9 harg9 arg10 harg10 hc0 x0 x1 x2 x3).2.1
      = k0_pay2 (sumUpTo (rowsOf i (k0_pay5 x0 x2)) (rowsOf i (k0_pay6 x0 x3)) (k0_pay9 (k0_pay5 x0 x2)) (iota .tc S1x1024 32 [1] iota_S1x1024_d1_w32) (iwOf x1) 19) (k0_pay7 (F := F)) := by
  unfold outsA0 leaves; dsimp only
  rw [View.read_writes_junk_eq_canon]
  unfold kernelRun0_A
  dsimp only
  sl_unfold_words
  rw [View.canon_cons_unit_zero (S := S1x1x64) hz3]
  simp only [View.readAt_eq_ld, harg2.read_unread, harg3.read_unread, harg4.read_unread, harg5.read_unread, View.ld_unit_zero (S := S1024x64) hz2, View.ld_unit_zero (S := S1x1x64) hz3, View.ld_unit_zero (S := S1x1024x512) hz3, View.ld_unit_zero (S := S64x512) hz2, View.read_writes_junk_eq_canon, View.canon_unit_zero (S := S1024x64) hz2, View.readCov_unit_zero (S := S1024x64) _ hz2, View.readCov_unit_zero (S := S1x1x64) _ hz3]
  refine congrArg (fun v => k0_pay2 v (k0_pay7 (F := F))) ?_
  simp only [sumUpTo, iwOf, rowsOf]
  rfl

set_option maxHeartbeats 2000000 in
theorem r0_out_A_6 (hc0 : cond0_0 i)
    (x0 : Vec F S1x1024x512 .f32) (x1 : Vec F S1x256x20 .i32) (x2 : Vec F S64x512 .f32) (x3 : Vec F S64x512 .f32) :
    (outsA0 c i arg2 harg2 arg3 harg3 arg4 harg4 arg5 harg5 arg6 harg6 arg7 harg7 arg8 harg8 arg9 harg9 arg10 harg10 hc0 x0 x1 x2 x3).2.2.1
      = k0_pay3 (sqUpTo (rowsOf i (k0_pay5 x0 x2)) (rowsOf i (k0_pay6 x0 x3)) (k0_pay9 (k0_pay5 x0 x2)) (iota .tc S1x1024 32 [1] iota_S1x1024_d1_w32) (iwOf x1) 19) (k0_pay8 (F := F)) := by
  unfold outsA0 leaves; dsimp only
  rw [View.read_writes_junk_eq_canon]
  unfold kernelRun0_A
  dsimp only
  sl_unfold_words
  rw [View.canon_cons_unit_zero (S := S1x1x64) hz3]
  simp only [View.readAt_eq_ld, harg2.read_unread, harg3.read_unread, harg4.read_unread, harg5.read_unread, View.ld_unit_zero (S := S1024x64) hz2, View.ld_unit_zero (S := S1x1x64) hz3, View.ld_unit_zero (S := S1x1024x512) hz3, View.ld_unit_zero (S := S64x512) hz2, View.read_writes_junk_eq_canon, View.canon_unit_zero (S := S1024x64) hz2, View.readCov_unit_zero (S := S1024x64) _ hz2, View.readCov_unit_zero (S := S1x1x64) _ hz3]
  refine congrArg (fun v => k0_pay3 v (k0_pay8 (F := F))) ?_
  simp only [sqUpTo, iwOf, rowsOf]
  rfl

set_option maxHeartbeats 2000000 in
theorem r0_out_A_4 (hc0 : cond0_0 i)
    (x0 : Vec F S1x1024x512 .f32) (x1 : Vec F S1x256x20 .i32) (x2 : Vec F S64x512 .f32) (x3 : Vec F S64x512 .f32) :
    (outsA0 c i arg2 harg2 arg3 harg3 arg4 harg4 arg5 harg5 arg6 harg6 arg7 harg7 arg8 harg8 arg9 harg9 arg10 harg10 hc0 x0 x1 x2 x3).1
      = edgeOf (rowsOf i (k0_pay5 x0 x2)) (rowsOf i (k0_pay6 x0 x3)) (k0_pay9 (k0_pay5 x0 x2)) x1 := by
  unfold outsA0 leaves; dsimp only
  rw [View.read_writes_junk_eq_canon]
  unfold kernelRun0_A
  dsimp only
  sl_unfold_words
  simp only [View.readAt_eq_ld, harg2.read_unread, harg3.read_unread, harg4.read_unread, harg5.read_unread, View.ld_unit_zero (S := S1024x64) hz2, View.ld_unit_zero (S := S1x1x64) hz3, View.ld_unit_zero (S := S1x1024x512) hz3, View.ld_unit_zero (S := S64x512) hz2, View.read_writes_junk_eq_canon, View.canon_unit_zero (S := S1024x64) hz2, View.readCov_unit_zero (S := S1024x64) _ hz2, View.readCov_unit_zero (S := S1x1x64) _ hz3]
  unfold edgeOf edgeList
  simp only [iwOf, rowsOf]
  rfl

end Point

end Cert.KernelIdeal.HandV

end
-- ==== Proof.KV.SumLemmas.lean ====
import Mathlib.Data.EReal.Basic
import Mathlib.Algebra.BigOperators.Fin
import Mathlib.Algebra.BigOperators.Group.Finset.Basic
import Mathlib.Data.Fintype.BigOperators
import Mathlib.Logic.Equiv.Fin.Basic
import Mathlib.Data.Finset.Lattice.Fold

noncomputable section

namespace Cert.Spec

open Finset

theorem rec_sum_range {M : Type} [AddCommMonoid M] (S g : ℕ → M) (h0 : S 0 = 0 + g 0) (hs : ∀ n, S (n + 1) = S n + g (n + 1)) :
    ∀ n, S n = ∑ k ∈ Finset.range (n + 1), g k := by
  intro n
  induction n with
  | zero => rw [h0, Finset.sum_range_one, zero_add]
  | succ n ih => rw [hs, ih, Finset.sum_range_succ g (n + 1)]

theorem rec_sum_fin20 {M : Type} [AddCommMonoid M] (S g : ℕ → M) (h0 : S 0 = 0 + g 0) (hs : ∀ n, S (n + 1) = S n + g (n + 1)) :
    S 19 = ∑ k : Fin 20, g k.val := by
  rw [rec_sum_range S g h0 hs 19, Finset.sum_range]

theorem lt_tile {a b : ℕ} (t : Fin a) (r : Fin b) : b * t.val + r.val < a * b := by
  have ht := t.isLt
  have hr := r.isLt
  calc b * t.val + r.val < b * t.val + b := by omega
    _ = b * (t.val + 1) := by ring
    _ ≤ b * a := Nat.mul_le_mul_left b ht
    _ = a * b := Nat.mul_comm b a

theorem sum_fin_mul {M : Type} [AddCommMonoid M] (a b : ℕ) (f : Fin (a * b) → M) :
    ∑ n, f n = ∑ t : Fin a, ∑ r : Fin b, f ⟨b * t.val + r.val, lt_tile t r⟩ := by
  rw [← Fintype.sum_prod_type']
  refine (Fintype.sum_equiv finProdFinEquiv _ _ fun p => ?_).symm
  congr 1
  apply Fin.ext
  show b * p.1.val + p.2.val = p.2.val + b * p.1.val
  omega

theorem sum_rows_4x256 {M : Type} [AddCommMonoid M] (f : Fin 1024 → M) :
    ∑ n, f n = ∑ t : Fin 4, ∑ r : Fin 256, f ⟨256 * t.val + r.val, by have := t.isLt; have := r.isLt; omega⟩ :=
  sum_fin_mul 4 256 f

theorem sum_tiles4 {M : Type} [AddCommMonoid M] (T : Fin 4 → M) : ((T 0 + T 1) + T 2) + T 3 = ∑ t : Fin 4, T t :=
  (Fin.sum_univ_four T).symm
theorem add_sum_castSucc {M : Type} [AddCommMonoid M] {n : ℕ} (z : M) (g : Fin (n + 1) → M) :
    z + ∑ k, g k = (z + ∑ k : Fin n, g k.castSucc) + g (Fin.last n) := by
  rw [Fin.sum_univ_castSucc, add_assoc]

theorem sup_univ_castSucc {α : Type} [SemilatticeSup α] [OrderBot α] {n : ℕ} (a : Fin (n + 1) → α) :
    Finset.univ.sup a = (Finset.univ.sup fun k : Fin n => a k.castSucc) ⊔ a (Fin.last n) := by
  apply le_antisymm
  · refine Finset.sup_le fun k _ => ?_
    refine Fin.lastCases ?_ (fun i => ?_) k
    · exact le_sup_right
    · exact le_sup_of_le_left (Finset.le_sup (f := fun k : Fin n => a k.castSucc) (Finset.mem_univ i))
  · refine sup_le (Finset.sup_le fun i _ => ?_) ?_
    · exact Finset.le_sup (f := a) (Finset.mem_univ i.castSucc)
    · exact Finset.le_sup (f := a) (Finset.mem_univ (Fin.last n))

theorem max_sup_castSucc {n : ℕ} (z : EReal) (a : Fin (n + 1) → EReal) :
    max z (Finset.univ.sup a) = max (max z (Finset.univ.sup fun k : Fin n => a k.castSucc)) (a (Fin.last n)) := by
  rw [sup_univ_castSucc a, max_assoc]

end Cert.Spec

end
-- ==== Proof.LibAttnOps.lean ====
import Idealize.ShloMosaic.PureOps.Ideal
import Idealize.ShloMosaic.PureOps.Ideal.Laws
import Idealize.ShloMosaic.Lib.ValueIdx

noncomputable section

namespace Cert.LibAttnOps

open Idealize.ShloMosaic Idealize.ShloMosaic.ValueIdx

namespace TN

abbrev dims (M K N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {M K N : Nat} (wf : DotDims.WF ⟨2, ![K, M]⟩ ⟨2, ![K, N]⟩ ⟨2, ![M, N]⟩ [0] [0] [1] [1] [] [])

theorem lhs_row (i : (⟨2, ![M, N]⟩ : Shape).Idx) (c : (dims M K N wf).contr.Idx) :
    ((dims M K N wf).lhsIdx i c 0).val = (c ⟨0, Nat.one_pos⟩).val :=
  (dims M K N wf).lhsIdx_val_of_single rfl i c

theorem lhs_col (i : (⟨2, ![M, N]⟩ : Shape).Idx) (c : (dims M K N wf).contr.Idx) :
    ((dims M K N wf).lhsIdx i c 1).val = (i 0).val := by
  rw [DotDims.lhsIdx, dif_neg (show ¬(1 : Fin 2) ∈ (dims M K N wf).lhsBatch from List.not_mem_nil),
    dif_pos (show (1 : Fin 2) ∈ (dims M K N wf).lhsNonContracting from List.mem_singleton.mpr rfl)]
  rfl

theorem rhs_row (i : (⟨2, ![M, N]⟩ : Shape).Idx) (c : (dims M K N wf).contr.Idx) :
    ((dims M K N wf).rhsIdx i c 0).val = (c ⟨0, Nat.one_pos⟩).val :=
  (dims M K N wf).rhsIdx_val_of_single rfl i c

theorem rhs_col (i : (⟨2, ![M, N]⟩ : Shape).Idx) (c : (dims M K N wf).contr.Idx) :
    ((dims M K N wf).rhsIdx i c 1).val = (i 1).val := by
  rw [DotDims.rhsIdx, dif_neg (show ¬(1 : Fin 2) ∈ (dims M K N wf).rhsBatch from List.not_mem_nil),
    dif_pos (show (1 : Fin 2) ∈ (dims M K N wf).rhsNonContracting from List.mem_singleton.mpr rfl)]
  rfl

theorem matmul_dims_apply {φ₁ φ₂ : FTy} (prec : Option ContractPrecision)
    (l : FVec Ideal ⟨2, ![K, M]⟩ φ₁) (r : FVec Ideal ⟨2, ![K, N]⟩ φ₂) (p : Fin M) (q : Fin N) :
    FloatOps.matmul (dims M K N wf) prec l r (constant ⟨2, ![M, N]⟩ .f32 0x00000000#32) (ix2 p q)
      = ∑ k : Fin K, l (ix2 k p) * r (ix2 k q) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 k p :=
    funext fun a => Fin.ext (by
      match a with
      | ⟨0, _⟩ => exact (lhs_row wf _ _).trans hk
      | ⟨1, _⟩ => exact lhs_col wf _ _)
  have er : (dims M K N wf).rhsIdx (ix2 p q) ((contrEquiv1 (dims M K N wf) K rfl rfl).symm k) = ix2 k q :=
    funext fun a => Fin.ext (by
      match a with
      | ⟨0, _⟩ => exact (rhs_row wf _ _).trans hk
      | ⟨1, _⟩ => exact rhs_col wf _ _)
  rw [el, er]

end TN

namespace NT

abbrev dims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

theorem lhs_row (i : (⟨2, ![M, N]⟩ : Shape).Idx) (c : (dims M K N wf).contr.Idx) :
    ((dims M K N wf).lhsIdx i c 0).val = (i 0).val := by
  rw [DotDims.lhsIdx, dif_neg (show ¬(0 : Fin 2) ∈ (dims M K N wf).lhsBatch from List.not_mem_nil),
    dif_pos (show (0 : Fin 2) ∈ (dims M K N wf).lhsNonContracting from List.mem_singleton.mpr rfl)]
  rfl

theorem lhs_col (i : (⟨2, ![M, N]⟩ : Shape).Idx) (c : (dims M K N wf).contr.Idx) :
    ((dims M K N wf).lhsIdx i c 1).val = (c ⟨0, Nat.one_pos⟩).val :=
  (dims M K N wf).lhsIdx_val_of_single rfl i c

theorem rhs_row (i : (⟨2, ![M, N]⟩ : Shape).Idx) (c : (dims M K N wf).contr.Idx) :
    ((dims M K N wf).rhsIdx i c 0).val = (i 1).val := by
  rw [DotDims.rhsIdx, dif_neg (show ¬(0 : Fin 2) ∈ (dims M K N wf).rhsBatch from List.not_mem_nil),
    dif_pos (show (0 : Fin 2) ∈ (dims M K N wf).rhsNonContracting from List.mem_singleton.mpr rfl)]
  rfl

theorem rhs_col (i : (⟨2, ![M, N]⟩ : Shape).Idx) (c : (dims M K N wf).contr.Idx) :
    ((dims M K N wf).rhsIdx i c 1).val = (c ⟨0, Nat.one_pos⟩).val :=
  (dims M K N wf).rhsIdx_val_of_single rfl i c

theorem matmul_dims_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (dims M K N wf) prec l r (constant ⟨2, ![M, N]⟩ .f32 0x00000000#32) (ix2 p q)
      = ∑ k : Fin K, l (ix2 p k) * r (ix2 q k) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 p k :=
    funext fun a => Fin.ext (by
      match a with
      | ⟨0, _⟩ => exact lhs_row wf _ _
      | ⟨1, _⟩ => exact (lhs_col wf _ _).trans hk)
  have er : (dims M K N wf).rhsIdx (ix2 p q) ((contrEquiv1 (dims M K N wf) K rfl rfl).symm k) = ix2 q k :=
    funext fun a => Fin.ext (by
      match a with
      | ⟨0, _⟩ => exact rhs_row wf _ _
      | ⟨1, _⟩ => exact (rhs_col wf _ _).trans hk)
  rw [el, er]

end NT

theorem matmul_nt_apply {M K N : Nat} {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ k : Fin K, l (ix2 p k) * r (ix2 q k) := by
  obtain ⟨lc, rc, ln, rn, lb, rb, wf⟩ := d
  simp only at h1 h2 h3 h4 h5 h6
  subst h1 h2 h3 h4 h5 h6
  exact NT.matmul_dims_apply wf prec l r p q

theorem lift_row {a b : Nat} (h : (⟨2, ![a, b]⟩ : Shape).Reduces [1] ⟨1, ![a]⟩) (i : Fin a) (k : Fin b) :
    h.lift (ix1 i) k = ix2 i k :=
  funext fun c => Fin.ext (by
    match c with
    | ⟨0, _⟩ => rfl
    | ⟨1, _⟩ => rfl)

end Cert.LibAttnOps

end
-- ==== Proof.LibPlainMatmul.lean ====
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

end Cert.Lib

end
-- ==== Proof.KV.R0Pay.lean ====
import proofs.«401853_j10514079941286_3_alg».proof.Proof.KV.R0Defs
import proofs.«401853_j10514079941286_3_alg».proof.Proof.KV.SumLemmas
import proofs.«401853_j10514079941286_3_alg».proof.Proof.LibAttnOps
import proofs.«401853_j10514079941286_3_alg».proof.Proof.LibPlainMatmul
import Idealize.ShloMosaic.Lib.Pipeline.Value
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.Spec
open Idealize.ShloMosaic Idealize.ShloMosaic.TcCoe Idealize.ShloMosaic.ValueIdx

theorem onehot_val (a b : BitVec 32) :
    ((((BitVec.ofBool (a == b)).setWidth 32).toInt : ℝ) : EReal) = if a = b then 1 else 0 := by
  by_cases h : a = b
  · subst h
    rw [if_pos rfl, beq_self_eq_true]
    have : ((BitVec.ofBool true).setWidth 32).toInt = 1 := by decide
    rw [this]; simp
  · rw [if_neg h, beq_eq_false_iff_ne.mpr h]
    have : ((BitVec.ofBool false).setWidth 32).toInt = 0 := by decide
    rw [this]; simp

theorem idxcol_apply (iw : Vec Ideal S1x256x1 .i32) (r : Fin 256) (j : Fin 1024) :
    broadcastTo S256x1024 (shapeCast S256x1 iw shapeCasts_S1x256x1_S256x1 : IVec S256x1 32) broadcasts_S256x1_S256x1024 (ix2 r j)
      = iw (ix3 (0 : Fin 1) r (0 : Fin 1)) := by
  refine (broadcastTo_apply _ broadcasts_S256x1_S256x1024 (ix2 r j) (ix2 r (0 : Fin 1)) fun ax => ?_).trans ?_
  · match ax with
    | ⟨0, _⟩ => rfl
    | ⟨1, _⟩ => rfl
  · exact shapeCast_1ab_ab_apply iw shapeCasts_S1x256x1_S256x1 r (0 : Fin 1)

theorem iotarow_apply (r : Fin 256) (j : Fin 1024) :
    broadcastTo S256x1024 (iota .tc S1x1024 32 [1] iota_S1x1024_d1_w32) broadcasts_S1x1024_S256x1024 (ix2 r j)
      = BitVec.ofNat 32 j.val := by
  refine (broadcastTo_1b_ab_apply _ broadcasts_S1x1024_S256x1024 r j).trans ?_
  exact iota_single_apply .tc S1x1024 32 1 iota_S1x1024_d1_w32 (ix2 (0 : Fin 1) j)

theorem hk_apply (v6 v8 : Vec Ideal S256x64 .f32) (v10 : FVec Ideal S1024x64 .bf16) (iw : Vec Ideal S1x256x1 .i32)
    (r : Fin 256) (m : Fin 64) :
    k0_pay14 (F := Ideal) v6 v8 v10 (iota .tc S1x1024 32 [1] iota_S1x1024_d1_w32) iw (ix2 r m)
      = (∑ j : Fin 1024, (if iw (ix3 (0 : Fin 1) r (0 : Fin 1)) = BitVec.ofNat 32 j.val then (1 : EReal) else 0) * v10 (ix2 j m))
          - v6 (ix2 r m) + v8 (ix2 r m) := by
  unfold k0_pay14
  simp only [addf_apply, subf_apply]
  refine congrArg (fun s : EReal => s - v6 (ix2 r m) + v8 (ix2 r m)) ?_
  refine (Cert.Lib.matmul_plain_apply dot_S256x1024_S1024x64_S256x64_1_0_0_1_n_n rfl rfl rfl rfl rfl rfl none _ v10 r m).trans ?_
  refine Finset.sum_congr rfl fun j _ => ?_
  refine congrArg (fun s : EReal => s * v10 (ix2 j m)) ?_
  rw [truncf_apply, sitofp_apply, extui_apply]
  show ((((IntOp.cmpi .eq _ _).setWidth 32).toInt : ℝ) : EReal) = _
  rw [idxcol_apply, iotarow_apply]
  exact onehot_val _ _

theorem csF_apply (h : FVec Ideal S256x64 .f32) (u : Fin 1) (m : Fin 64) :
    csF (F := Ideal) h (ix2 u m) = ∑ r : Fin 256, h (ix2 r m) := by
  unfold csF
  rw [shapeCast_a_1a_apply _ shapeCasts_S64_S1x64 u m]
  refine (Ideal.multiReduction_add_single h 0x00000000#32 reduces_S256x64_S64 _ _ (ix1 m)).trans ?_
  refine Finset.sum_congr rfl fun r _ => congrArg h ?_
  funext a
  match a with
  | ⟨0, _⟩ => rfl
  | ⟨1, _⟩ => rfl

theorem zero64_apply (i : S1x64.Idx) : zero64 (F := Ideal) i = 0 := by
  show Ideal.ofBits .f32 0x00000000#32 = 0
  exact Ideal.ofBits_zero_f32

theorem sumUpTo_apply (v6 v8 : Vec Ideal S256x64 .f32) (v10 : FVec Ideal S1024x64 .bf16) (iw : ℕ → Vec Ideal S1x256x1 .i32)
    (u : Fin 1) (m : Fin 64) :
    sumUpTo (F := Ideal) v6 v8 v10 (iota .tc S1x1024 32 [1] iota_S1x1024_d1_w32) iw 19 (ix2 u m)
      = ∑ k : Fin 20, ∑ r : Fin 256, k0_pay14 (F := Ideal) v6 v8 v10 (iota .tc S1x1024 32 [1] iota_S1x1024_d1_w32) (iw k.val) (ix2 r m) := by
  refine Cert.Spec.rec_sum_fin20
    (fun n => sumUpTo (F := Ideal) v6 v8 v10 (iota .tc S1x1024 32 [1] iota_S1x1024_d1_w32) iw n (ix2 u m))
    (fun n => ∑ r : Fin 256, k0_pay14 (F := Ideal) v6 v8 v10 (iota .tc S1x1024 32 [1] iota_S1x1024_d1_w32) (iw n) (ix2 r m)) ?_ ?_
  · show (addf (zero64 (F := Ideal)) (csF (F := Ideal) (k0_pay14 (F := Ideal) v6 v8 v10 (iota .tc S1x1024 32 [1] iota_S1x1024_d1_w32) (iw 0)))) (ix2 u m) = _
    rw [addf_apply, csF_apply, zero64_apply]
  · intro n
    show (addf (sumUpTo (F := Ideal) v6 v8 v10 (iota .tc S1x1024 32 [1] iota_S1x1024_d1_w32) iw n)
        (csF (F := Ideal) (k0_pay14 (F := Ideal) v6 v8 v10 (iota .tc S1x1024 32 [1] iota_S1x1024_d1_w32) (iw (n + 1))))) (ix2 u m) = _
    rw [addf_apply, csF_apply]

theorem sqUpTo_apply (v6 v8 : Vec Ideal S256x64 .f32) (v10 : FVec Ideal S1024x64 .bf16) (iw : ℕ → Vec Ideal S1x256x1 .i32)
    (u : Fin 1) (m : Fin 64) :
    sqUpTo (F := Ideal) v6 v8 v10 (iota .tc S1x1024 32 [1] iota_S1x1024_d1_w32) iw 19 (ix2 u m)
      = ∑ k : Fin 20, ∑ r : Fin 256,
          k0_pay14 (F := Ideal) v6 v8 v10 (iota .tc S1x1024 32 [1] iota_S1x1024_d1_w32) (iw k.val) (ix2 r m)
            * k0_pay14 (F := Ideal) v6 v8 v10 (iota .tc S1x1024 32 [1] iota_S1x1024_d1_w32) (iw k.val) (ix2 r m) := by
  refine Cert.Spec.rec_sum_fin20
    (fun n => sqUpTo (F := Ideal) v6 v8 v10 (iota .tc S1x1024 32 [1] iota_S1x1024_d1_w32) iw n (ix2 u m))
    (fun n => ∑ r : Fin 256, k0_pay14 (F := Ideal) v6 v8 v10 (iota .tc S1x1024 32 [1] iota_S1x1024_d1_w32) (iw n) (ix2 r m)
      * k0_pay14 (F := Ideal) v6 v8 v10 (iota .tc S1x1024 32 [1] iota_S1x1024_d1_w32) (iw n) (ix2 r m)) ?_ ?_
  · show (addf (zero64 (F := Ideal)) (csF (F := Ideal) (mulf (k0_pay14 (F := Ideal) v6 v8 v10 (iota .tc S1x1024 32 [1] iota_S1x1024_d1_w32) (iw 0))
        (k0_pay14 (F := Ideal) v6 v8 v10 (iota .tc S1x1024 32 [1] iota_S1x1024_d1_w32) (iw 0))))) (ix2 u m) = _
    rw [addf_apply, csF_apply, zero64_apply]
    rfl
  · intro n
    show (addf (sqUpTo (F := Ideal) v6 v8 v10 (iota .tc S1x1024 32 [1] iota_S1x1024_d1_w32) iw n)
        (csF (F := Ideal) (mulf (k0_pay14 (F := Ideal) v6 v8 v10 (iota .tc S1x1024 32 [1] iota_S1x1024_d1_w32) (iw (n + 1)))
          (k0_pay14 (F := Ideal) v6 v8 v10 (iota .tc S1x1024 32 [1] iota_S1x1024_d1_w32) (iw (n + 1)))))) (ix2 u m) = _
    rw [addf_apply, csF_apply]
    rfl

theorem edgeF_apply (h : FVec Ideal S256x64 .f32) (u : Fin 1) (r : Fin 256) (m : Fin 64) :
    edgeF (F := Ideal) h (ix3 u r m) = h (ix2 r m) := by
  unfold edgeF
  rw [shapeCast_ab_1ab_apply _ shapeCasts_S256x64_S1x256x64 u r m, truncf_apply]

theorem pay2_apply (v445 : FVec Ideal S1x64 .f32) (v454 : Vec Ideal S1x1x64 .f32) (m : Fin 64) :
    k0_pay2 (F := Ideal) v445 v454 (ix3 (0 : Fin 1) (0 : Fin 1) m) = v454 (ix3 0 0 m) + v445 (ix2 (0 : Fin 1) m) := by
  unfold k0_pay2
  rw [addf_apply, shapeCast_self, shapeCast_ab_1ab_apply _ shapeCasts_S1x64_S1x1x64 (0 : Fin 1) (0 : Fin 1) m]

theorem pay3_apply (v449 : FVec Ideal S1x64 .f32) (v459 : Vec Ideal S1x1x64 .f32) (m : Fin 64) :
    k0_pay3 (F := Ideal) v449 v459 (ix3 (0 : Fin 1) (0 : Fin 1) m) = v459 (ix3 0 0 m) + v449 (ix2 (0 : Fin 1) m) := by
  unfold k0_pay3
  rw [addf_apply, shapeCast_self, shapeCast_ab_1ab_apply _ shapeCasts_S1x64_S1x1x64 (0 : Fin 1) (0 : Fin 1) m]

theorem pay7_apply (m : Fin 64) : k0_pay7 (F := Ideal) (ix3 (0 : Fin 1) (0 : Fin 1) m) = 0 := by
  show Ideal.ofBits .f32 0x00000000#32 = 0
  exact Ideal.ofBits_zero_f32

theorem pay8_apply (m : Fin 64) : k0_pay8 (F := Ideal) (ix3 (0 : Fin 1) (0 : Fin 1) m) = 0 := by
  show Ideal.ofBits .f32 0x00000000#32 = 0
  exact Ideal.ofBits_zero_f32

end Cert.KernelIdeal.HandV

end
-- ==== Proof.KV.R0Blocks.lean ====
import proofs.«401853_j10514079941286_3_alg».proof.Proof.KV.R0Defs
import proofs.«401853_j10514079941286_3_alg».proof.Proof.KI.R0
import proofs.«401853_j10514079941286_3_alg».proof.Proof.LibAttnOps
import Idealize.ShloMosaic.Lib.Pipeline.Value
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)
open scoped BigOperators

theorem r0_xrows_apply (x0 : Vec Ideal S1x1024x512 .f32) (h : S1x1024x512.ShapeCasts S1024x512) (j : Fin 1024) (cc : Fin 512) :
    (shapeCast S1024x512 x0 h : FVec Ideal S1024x512 .f32) (ix2 j cc) = x0 (ix3 (0 : Fin 1) j cc) :=
  (shapeCast_dropUnit_apply ![1024, 512] x0 h (ix2 j cc)).trans (congrArg x0 (funext fun a => by
    match a with
    | ⟨0, _⟩ => rfl
    | ⟨1, _⟩ => rfl
    | ⟨2, _⟩ => rfl))

theorem tbl0_apply (x0 : Vec Ideal S1x1024x512 .f32) (x2 : Vec Ideal S64x512 .f32) (j : Fin 1024) (m : Fin 64) :
    k0_pay5 (F := Ideal) x0 x2 (ix2 j m) = ∑ cc : Fin 512, x0 (ix3 (0 : Fin 1) j cc) * x2 (ix2 m cc) := by
  unfold k0_pay5 k0_pay4
  refine (congrFun (shapeCast_self _ _) (ix2 j m)).trans ?_
  refine (Cert.LibAttnOps.matmul_nt_apply dot_S1024x512_S64x512_S1024x64_1_1_0_0_n_n rfl rfl rfl rfl rfl rfl none _ _ j m).trans ?_
  refine Finset.sum_congr rfl fun cc _ => ?_
  show (shapeCast S1024x512 x0 _ : FVec Ideal S1024x512 .f32) (ix2 j cc) * (shapeCast S64x512 x2 _ : FVec Ideal S64x512 .f32) (ix2 m cc) = _
  rw [r0_xrows_apply, shapeCast_self]

theorem tbl1_apply (x0 : Vec Ideal S1x1024x512 .f32) (x3 : Vec Ideal S64x512 .f32) (j : Fin 1024) (m : Fin 64) :
    k0_pay6 (F := Ideal) x0 x3 (ix2 j m) = ∑ cc : Fin 512, x0 (ix3 (0 : Fin 1) j cc) * x3 (ix2 m cc) := by
  unfold k0_pay6 k0_pay4
  refine (congrFun (shapeCast_self _ _) (ix2 j m)).trans ?_
  refine (Cert.LibAttnOps.matmul_nt_apply dot_S1024x512_S64x512_S1024x64_1_1_0_0_n_n rfl rfl rfl rfl rfl rfl none _ _ j m).trans ?_
  refine Finset.sum_congr rfl fun cc _ => ?_
  show (shapeCast S1024x512 x0 _ : FVec Ideal S1024x512 .f32) (ix2 j cc) * (shapeCast S64x512 x3 _ : FVec Ideal S64x512 .f32) (ix2 m cc) = _
  rw [r0_xrows_apply, shapeCast_self]

theorem idx_in0 : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ k0_off1 (grid0.coords t) (0 : Fin 2) = 256 * (t.val % 4) ∧ k0_off1 (grid0.coords t) (1 : Fin 2) = 0 :=
  (by decide +kernel : ∀ t : Fin grid0.N, _)

section Blocks

variable (V : (c : Dev nD) → (b : Ref sig .tc) → Buf (Elt Ideal) ((c : Thread nD τ).loc b))

theorem xblk_apply (c : Dev nD) (t : Fin cfg0.N) (j : Fin 1024) (cc : Fin 512) :
    (iblk0 V c 0 t : Vec Ideal S1x1024x512 .f32) (ix3 (0 : Fin 1) j cc) = V c main_arg0 (ix3 (bOf t) j cc) := by
  obtain ⟨e0, e1, e2, -, -, -, -, -, -, -, -, -⟩ := idx_in0 t
  show V c main_arg0 (((cfg0.win 0).blk t).view.emb (ix3 (0 : Fin 1) j cc)) = V c main_arg0 (ix3 (bOf t) j cc)
  refine congrArg (V c main_arg0) (funext fun a => Fin.ext ?_)
  match a with
  | ⟨0, _⟩ => show win0_0.index t (0 : Fin 3) * 1 + 1 * 0 = t.val / 4; rw [e0]; omega
  | ⟨1, _⟩ => show win0_0.index t (1 : Fin 3) * 1024 + 1 * j.val = j.val; rw [e1]; omega
  | ⟨2, _⟩ => show win0_0.index t (2 : Fin 3) * 512 + 1 * cc.val = cc.val; rw [e2]; omega

theorem idxblk_apply (c : Dev nD) (t : Fin cfg0.N) (r : Fin 256) (k : Fin 20) :
    (iblk0 V c 1 t : Vec Ideal S1x256x20 .i32) (ix3 (0 : Fin 1) r k) = V c main_v0 (ix3 (bOf t) (rowOf t r) k) := by
  obtain ⟨-, -, -, e0, e1, e2, -, -, -, -, -, -⟩ := idx_in0 t
  show V c main_v0 (((cfg0.win 1).blk t).view.emb (ix3 (0 : Fin 1) r k)) = V c main_v0 (ix3 (bOf t) (rowOf t r) k)
  refine congrArg (V c main_v0) (funext fun a => Fin.ext ?_)
  match a with
  | ⟨0, _⟩ => show win0_1.index t (0 : Fin 3) * 1 + 1 * 0 = t.val / 4; rw [e0]; omega
  | ⟨1, _⟩ => show win0_1.index t (1 : Fin 3) * 256 + 1 * r.val = 256 * (t.val % 4) + r.val; rw [e1]; omega
  | ⟨2, _⟩ => show win0_1.index t (2 : Fin 3) * 20 + 1 * k.val = k.val; rw [e2]; omega

theorem wloblk_apply (c : Dev nD) (t : Fin cfg0.N) (m : Fin 64) (cc : Fin 512) :
    (iblk0 V c 2 t : Vec Ideal S64x512 .f32) (ix2 m cc) = V c main_v1 (ix2 m cc) := by
  obtain ⟨-, -, -, -, -, -, e0, e1, -, -, -, -⟩ := idx_in0 t
  show V c main_v1 (((cfg0.win 2).blk t).view.emb (ix2 m cc)) = V c main_v1 (ix2 m cc)
  refine congrArg (V c main_v1) (funext fun a => Fin.ext ?_)
  match a with
  | ⟨0, _⟩ => show win0_2.index t (0 : Fin 2) * 64 + 1 * m.val = m.val; rw [e0]; omega
  | ⟨1, _⟩ => show win0_2.index t (1 : Fin 2) * 512 + 1 * cc.val = cc.val; rw [e1]; omega

theorem whiblk_apply (c : Dev nD) (t : Fin cfg0.N) (m : Fin 64) (cc : Fin 512) :
    (iblk0 V c 3 t : Vec Ideal S64x512 .f32) (ix2 m cc) = V c main_v2 (ix2 m cc) := by
  obtain ⟨-, -, -, -, -, -, -, -, e0, e1, -, -⟩ := idx_in0 t
  show V c main_v2 (((cfg0.win 3).blk t).view.emb (ix2 m cc)) = V c main_v2 (ix2 m cc)
  refine congrArg (V c main_v2) (funext fun a => Fin.ext ?_)
  match a with
  | ⟨0, _⟩ => show win0_3.index t (0 : Fin 2) * 64 + 1 * m.val = m.val; rw [e0]; omega
  | ⟨1, _⟩ => show win0_3.index t (1 : Fin 2) * 512 + 1 * cc.val = cc.val; rw [e1]; omega

end Blocks

theorem rowsOf_apply (t : Fin cfg0.N) (xs : Vec Ideal S1024x64 .f32) (r : Fin 256) (m : Fin 64) :
    rowsOf (grid0.coords t) xs (ix2 r m) = xs (ix2 (rowOf t r) m) := by
  obtain ⟨-, -, -, -, -, -, -, -, -, -, e0, e1⟩ := idx_in0 t
  show xs ((Rect.unit (s := S1024x64) (k0_off1 (grid0.coords t)) S256x64.size (k0_off1_inb (grid0.coords t))).emb (ix2 r m))
    = xs (ix2 (rowOf t r) m)
  refine congrArg xs (funext fun a => Fin.ext ?_)
  match a with
  | ⟨0, _⟩ => show k0_off1 (grid0.coords t) (0 : Fin 2) + 1 * r.val = 256 * (t.val % 4) + r.val; rw [e0]; omega
  | ⟨1, _⟩ => show k0_off1 (grid0.coords t) (1 : Fin 2) + 1 * m.val = m.val; rw [e1]; omega

theorem iwOf_apply (x1 : Vec Ideal S1x256x20 .i32) (k : Fin 20) (r : Fin 256) :
    iwOf x1 k.val (ix3 (0 : Fin 1) r (0 : Fin 1)) = x1 (ix3 (0 : Fin 1) r k) := by
  fin_cases k <;>
  · refine congrArg x1 (funext fun a => Fin.ext ?_)
    match a with
    | ⟨0, _⟩ => rfl
    | ⟨1, _⟩ => show 0 + 1 * r.val = r.val; omega
    | ⟨2, _⟩ => rfl

end Cert.KernelIdeal.HandV

end
-- ==== Proof.KV.R0Edge.lean ====
import proofs.«401853_j10514079941286_3_alg».proof.Proof.KV.R0Defs

set_option maxRecDepth 16384

noncomputable section

namespace Cert.KernelIdeal.HandV

open Cert.KernelIdeal Cert.KernelIdeal.Gen Cert.KernelIdeal.Hand Cert.Spec
open Idealize.ShloMosaic Idealize.ShloMosaic.TcCoe Idealize.ShloMosaic.ValueIdx Idealize.ShloMosaic.Tactic
open Idealize.SL Idealize.SL.Sem

variable {F : FTy → Type} [FloatOps F]

def r0_edgeG (P : ℕ → FVec F S1x256x64 .bf16) : S1x256x1280.Idx → Elt F .bf16 := fun y =>
  P ((y 2).val / 64) (ix3 (0 : Fin 1) (⟨(y 1).val, (y 1).isLt⟩ : Fin 256)
    (⟨(y 2).val % 64, Nat.mod_lt _ (by norm_num)⟩ : Fin 64))

theorem r0_edge_congr (P : ℕ → FVec F S1x256x64 .bf16) (j : ℕ) (x : S1x256x64.Idx) :
    ∀ (a : ℕ) (y : S1x256x64.Idx), a = j → y = x → P a y = P j x := by
  rintro _ _ rfl rfl; rfl

theorem r0_edgeG_piece (P : ℕ → FVec F S1x256x64 .bf16) (o j : ℕ) (ho : o = 64 * j)
    (inb : ∀ a, (![0, 0, o] : Fin 3 → ℕ) a + S1x256x64.size a ≤ S1x256x1280.size a) (x : S1x256x64.Idx) :
    P j x = r0_edgeG P ((Rect.unit (s := S1x256x1280) ![0, 0, o] S1x256x64.size inb).emb x) := by
  subst ho
  have h0 : (x 0).val < 1 := (x 0).isLt
  have h2 : (x 2).val < 64 := (x 2).isLt
  unfold r0_edgeG
  refine (r0_edge_congr P j x _ _ ?_ ?_).symm
  · show (64 * j + 1 * (x 2).val) / 64 = j
    omega
  · funext a
    apply Fin.ext
    match a with
    | ⟨0, _⟩ => show 0 = (x 0).val; omega
    | ⟨1, _⟩ => show 0 + 1 * (x 1).val = (x 1).val; omega
    | ⟨2, _⟩ => show (64 * j + 1 * (x 2).val) % 64 = (x 2).val; omega

theorem r0_edgeG_pieces (P : ℕ → FVec F S1x256x64 .bf16) :
    ∀ p ∈ edgeList P, ∀ x : p.1.shape.Idx, p.2 x = r0_edgeG P (p.1.emb x) := by
  intro p hp
  unfold edgeList at hp
  simp only [List.mem_cons, List.mem_nil_iff, or_false] at hp
  rcases hp with rfl | rfl | rfl | rfl | rfl | rfl | rfl | rfl | rfl | rfl | rfl | rfl | rfl | rfl | rfl | rfl | rfl | rfl | rfl | rfl
  · intro x; exact r0_edgeG_piece P 1216 19 rfl inb_S1x256x1280_S1x256x64_0_0_1216 x
  · intro x; exact r0_edgeG_piece P 1152 18 rfl inb_S1x256x1280_S1x256x64_0_0_1152 x
  · intro x; exact r0_edgeG_piece P 1088 17 rfl inb_S1x256x1280_S1x256x64_0_0_1088 x
  · intro x; exact r0_edgeG_piece P 1024 16 rfl inb_S1x256x1280_S1x256x64_0_0_1024 x
  · intro x; exact r0_edgeG_piece P 960 15 rfl inb_S1x256x1280_S1x256x64_0_0_960 x
  · intro x; exact r0_edgeG_piece P 896 14 rfl inb_S1x256x1280_S1x256x64_0_0_896 x
  · intro x; exact r0_edgeG_piece P 832 13 rfl inb_S1x256x1280_S1x256x64_0_0_832 x
  · intro x; exact r0_edgeG_piece P 768 12 rfl inb_S1x256x1280_S1x256x64_0_0_768 x
  · intro x; exact r0_edgeG_piece P 704 11 rfl inb_S1x256x1280_S1x256x64_0_0_704 x
  · intro x; exact r0_edgeG_piece P 640 10 rfl inb_S1x256x1280_S1x256x64_0_0_640 x
  · intro x; exact r0_edgeG_piece P 576 9 rfl inb_S1x256x1280_S1x256x64_0_0_576 x
  · intro x; exact r0_edgeG_piece P 512 8 rfl inb_S1x256x1280_S1x256x64_0_0_512 x
  · intro x; exact r0_edgeG_piece P 448 7 rfl inb_S1x256x1280_S1x256x64_0_0_448 x
  · intro x; exact r0_edgeG_piece P 384 6 rfl inb_S1x256x1280_S1x256x64_0_0_384 x
  · intro x; exact r0_edgeG_piece P 320 5 rfl inb_S1x256x1280_S1x256x64_0_0_320 x
  · intro x; exact r0_edgeG_piece P 256 4 rfl inb_S1x256x1280_S1x256x64_0_0_256 x
  · intro x; exact r0_edgeG_piece P 192 3 rfl inb_S1x256x1280_S1x256x64_0_0_192 x
  · intro x; exact r0_edgeG_piece P 128 2 rfl inb_S1x256x1280_S1x256x64_0_0_128 x
  · intro x; exact r0_edgeG_piece P 64 1 rfl inb_S1x256x1280_S1x256x64_0_0_64 x
  · intro x; exact r0_edgeG_piece P 0 0 rfl inb_S1x256x1280_S1x256x64_0_0_0 x

theorem r0_edgeList_apply (P : ℕ → FVec F S1x256x64 .bf16) (r : Fin 256) (k : Fin 20) (m : Fin 64) :
    View.canon (edgeList P) (ValueIdx.ix3 (0 : Fin 1) r (Spec.col k m)) = P k.val (ValueIdx.ix3 (0 : Fin 1) r m) := by
  refine (View.canon_apply_of_pieces (r0_edgeG P) (edgeList P) (r0_edgeG_pieces P) _
    (View.cover_of_tiledL (edgeList P) S1x256x64.size (by sl_kernel_rfl) _)).trans ?_
  have hk : k.val < 20 := k.isLt
  have hm : m.val < 64 := m.isLt
  unfold r0_edgeG
  refine r0_edge_congr P k.val (ix3 (0 : Fin 1) r m) _ _ ?_ ?_
  · show (64 * k.val + m.val) / 64 = k.val
    omega
  · funext a
    apply Fin.ext
    match a with
    | ⟨0, _⟩ => rfl
    | ⟨1, _⟩ => rfl
    | ⟨2, _⟩ => show (64 * k.val + m.val) % 64 = m.val; omega

end Cert.KernelIdeal.HandV

end
-- ==== Proof.KV.R0.lean ====
import proofs.«401853_j10514079941286_3_alg».proof.Proof.KV.R0Pieces
import proofs.«401853_j10514079941286_3_alg».proof.Proof.KV.R0Pay
import proofs.«401853_j10514079941286_3_alg».proof.Proof.KV.R0Blocks
import proofs.«401853_j10514079941286_3_alg».proof.Proof.KV.R0Edge

set_option maxRecDepth 16384

noncomputable section

namespace Cert.KernelIdeal.HandV

open Cert.KernelIdeal Cert.KernelIdeal.Gen Cert.KernelIdeal.Hand Cert.Spec
open Idealize.ShloMosaic Idealize.ShloMosaic.TcCoe Idealize.ShloMosaic.Tactic
open Idealize.SL Idealize.SL.Sem
open Idealize.ShloMosaic.Pipeline (Dat)

open Idealize.ShloMosaic.ValueIdx

variable (V : (c : Dev nD) → (b : Ref sig .tc) → Buf (Elt Ideal) ((c : Thread nD τ).loc b))

theorem r0_tbl0_val (c : Dev nD) (t : Fin cfg0.N) (j : Fin 1024) (m : Fin 64) :
    k0_pay5 (F := Ideal) (iblk0 V c 0 t) (iblk0 V c 2 t) (ix2 j m) = Spec.proj (Spec.cur3 (V c main_arg0)) (Spec.cur2 (V c main_v1)) (bOf t) j m := by
  refine (tbl0_apply _ _ j m).trans ?_
  unfold Spec.proj
  exact Finset.sum_congr rfl fun cc _ => congrArg₂ (fun a b : EReal => a * b) (xblk_apply V c t j cc) (wloblk_apply V c t m cc)

theorem r0_tbl1_val (c : Dev nD) (t : Fin cfg0.N) (j : Fin 1024) (m : Fin 64) :
    k0_pay6 (F := Ideal) (iblk0 V c 0 t) (iblk0 V c 3 t) (ix2 j m) = Spec.proj (Spec.cur3 (V c main_arg0)) (Spec.cur2 (V c main_v2)) (bOf t) j m := by
  refine (tbl1_apply _ _ j m).trans ?_
  unfold Spec.proj
  exact Finset.sum_congr rfl fun cc _ => congrArg₂ (fun a b : EReal => a * b) (xblk_apply V c t j cc) (whiblk_apply V c t m cc)

theorem r0_bOf_pred (t : Fin cfg0.N) (h0 : ¬t.val % 4 = 0) :
    bOf ⟨t.val - 1, (Nat.lt_of_le_of_lt (Nat.sub_le _ _) t.isLt)⟩ = bOf t := by
  apply Fin.ext
  show (t.val - 1) / 4 = t.val / 4
  omega

theorem r0_tables (c : Dev nD) : ∀ (n : ℕ) (hn : n < cfg0.N) (j : Fin 1024) (m : Fin 64),
    (outsAt0 V c n hn).2.2.2.1 (ix2 j m) = Spec.proj (Spec.cur3 (V c main_arg0)) (Spec.cur2 (V c main_v1)) (bOf ⟨n, hn⟩) j m
      ∧ (outsAt0 V c n hn).2.2.2.2 (ix2 j m) = Spec.proj (Spec.cur3 (V c main_arg0)) (Spec.cur2 (V c main_v2)) (bOf ⟨n, hn⟩) j m := by
  intro n
  induction n with
  | zero =>
    intro hn j m
    have h0 : (⟨0, hn⟩ : Fin cfg0.N).val % 4 = 0 := rfl
    rw [outsAt0_A V c ⟨0, hn⟩ h0]
    rw [r0_sout_A_0, r0_sout_A_1]
    exact ⟨r0_tbl0_val V c ⟨0, hn⟩ j m, r0_tbl1_val V c ⟨0, hn⟩ j m⟩
  | succ n ih =>
    intro hn j m
    by_cases h0 : (⟨n + 1, hn⟩ : Fin cfg0.N).val % 4 = 0
    · rw [outsAt0_A V c ⟨n + 1, hn⟩ h0]
      rw [r0_sout_A_0, r0_sout_A_1]
      exact ⟨r0_tbl0_val V c ⟨n + 1, hn⟩ j m, r0_tbl1_val V c ⟨n + 1, hn⟩ j m⟩
    · rw [outsAt0_B V c ⟨n + 1, hn⟩ h0]
      dsimp only [outsB0]
      rw [← r0_bOf_pred ⟨n + 1, hn⟩ h0]
      exact ih (Nat.lt_of_succ_lt hn) j m

theorem r0_hk_val (c : Dev nD) (t : Fin cfg0.N) (xs0 xs1 : Vec Ideal S1024x64 .f32)
    (h0 : ∀ j m, xs0 (ix2 j m) = Spec.proj (Spec.cur3 (V c main_arg0)) (Spec.cur2 (V c main_v1)) (bOf t) j m)
    (h1 : ∀ j m, xs1 (ix2 j m) = Spec.proj (Spec.cur3 (V c main_arg0)) (Spec.cur2 (V c main_v2)) (bOf t) j m)
    (k : Fin 20) (r : Fin 256) (m : Fin 64) :
    k0_pay14 (F := Ideal) (rowsOf (grid0.coords t) xs0) (rowsOf (grid0.coords t) xs1) (k0_pay9 xs0) (iota .tc S1x1024 32 [1] iota_S1x1024_d1_w32)
        (iwOf (iblk0 V c 1 t) k.val) (ix2 r m)
      = hOf V c (bOf t) (rowOf t r) k m := by
  refine (hk_apply _ _ _ _ r m).trans ?_
  rw [rowsOf_apply t xs0 r m, rowsOf_apply t xs1 r m, h0, h1, iwOf_apply (iblk0 V c 1 t) k r, idxblk_apply V c t r k]
  show _ = Spec.hKw (Spec.cur3 (V c main_arg0)) (Spec.cur3 (V c main_v0)) (Spec.cur2 (V c main_v1)) (Spec.cur2 (V c main_v2)) (bOf t) (rowOf t r) k m
  unfold Spec.hKw
  refine congrArg (fun s : EReal => s - Spec.proj (Spec.cur3 (V c main_arg0)) (Spec.cur2 (V c main_v1)) (bOf t) (rowOf t r) m + Spec.proj (Spec.cur3 (V c main_arg0)) (Spec.cur2 (V c main_v2)) (bOf t) (rowOf t r) m)
    (Finset.sum_congr rfl fun j _ => ?_)
  exact congrArg (fun s : EReal => (if V c main_v0 (ix3 (bOf t) (rowOf t r) k) = BitVec.ofNat 32 j.val then (1 : EReal) else 0) * s) (h0 j m)

theorem r0_edge_val (c : Dev nD) (t : Fin cfg0.N) (xs0 xs1 : Vec Ideal S1024x64 .f32)
    (h0 : ∀ j m, xs0 (ix2 j m) = Spec.proj (Spec.cur3 (V c main_arg0)) (Spec.cur2 (V c main_v1)) (bOf t) j m)
    (h1 : ∀ j m, xs1 (ix2 j m) = Spec.proj (Spec.cur3 (V c main_arg0)) (Spec.cur2 (V c main_v2)) (bOf t) j m)
    (r : Fin 256) (k : Fin 20) (m : Fin 64) :
    edgeOf (F := Ideal) (rowsOf (grid0.coords t) xs0) (rowsOf (grid0.coords t) xs1) (k0_pay9 xs0) (iblk0 V c 1 t)
        (ix3 (0 : Fin 1) r (Spec.col k m))
      = hOf V c (bOf t) (rowOf t r) k m := by
  unfold edgeOf
  refine (r0_edgeList_apply _ r k m).trans ?_
  refine (edgeF_apply _ (0 : Fin 1) r m).trans ?_
  exact r0_hk_val V c t xs0 xs1 h0 h1 k r m

theorem r0_sum_val (c : Dev nD) (t : Fin cfg0.N) (xs0 xs1 : Vec Ideal S1024x64 .f32)
    (h0 : ∀ j m, xs0 (ix2 j m) = Spec.proj (Spec.cur3 (V c main_arg0)) (Spec.cur2 (V c main_v1)) (bOf t) j m)
    (h1 : ∀ j m, xs1 (ix2 j m) = Spec.proj (Spec.cur3 (V c main_arg0)) (Spec.cur2 (V c main_v2)) (bOf t) j m) (m : Fin 64) :
    sumUpTo (F := Ideal) (rowsOf (grid0.coords t) xs0) (rowsOf (grid0.coords t) xs1) (k0_pay9 xs0) (iota .tc S1x1024 32 [1] iota_S1x1024_d1_w32)
        (iwOf (iblk0 V c 1 t)) 19 (ix2 (0 : Fin 1) m)
      = tileSum V c t m := by
  refine (sumUpTo_apply _ _ _ _ (0 : Fin 1) m).trans ?_
  unfold tileSum
  exact Finset.sum_congr rfl fun k _ => Finset.sum_congr rfl fun r _ => r0_hk_val V c t xs0 xs1 h0 h1 k r m

theorem r0_sumsq_val (c : Dev nD) (t : Fin cfg0.N) (xs0 xs1 : Vec Ideal S1024x64 .f32)
    (h0 : ∀ j m, xs0 (ix2 j m) = Spec.proj (Spec.cur3 (V c main_arg0)) (Spec.cur2 (V c main_v1)) (bOf t) j m)
    (h1 : ∀ j m, xs1 (ix2 j m) = Spec.proj (Spec.cur3 (V c main_arg0)) (Spec.cur2 (V c main_v2)) (bOf t) j m) (m : Fin 64) :
    sqUpTo (F := Ideal) (rowsOf (grid0.coords t) xs0) (rowsOf (grid0.coords t) xs1) (k0_pay9 xs0) (iota .tc S1x1024 32 [1] iota_S1x1024_d1_w32)
        (iwOf (iblk0 V c 1 t)) 19 (ix2 (0 : Fin 1) m)
      = tileSumSq V c t m := by
  refine (sqUpTo_apply _ _ _ _ (0 : Fin 1) m).trans ?_
  unfold tileSumSq
  exact Finset.sum_congr rfl fun k _ => Finset.sum_congr rfl fun r _ =>
    congrArg₂ (fun a b : EReal => a * b) (r0_hk_val V c t xs0 xs1 h0 h1 k r m) (r0_hk_val V c t xs0 xs1 h0 h1 k r m)

theorem r0_tables_pred (c : Dev nD) (t : Fin cfg0.N) (h0 : ¬t.val % 4 = 0) (j : Fin 1024) (m : Fin 64) :
    (outsAt0 V c (t.val - 1) (Nat.lt_of_le_of_lt (Nat.sub_le _ _) t.isLt)).2.2.2.1 (ix2 j m) = Spec.proj (Spec.cur3 (V c main_arg0)) (Spec.cur2 (V c main_v1)) (bOf t) j m
      ∧ (outsAt0 V c (t.val - 1) (Nat.lt_of_le_of_lt (Nat.sub_le _ _) t.isLt)).2.2.2.2 (ix2 j m) = Spec.proj (Spec.cur3 (V c main_arg0)) (Spec.cur2 (V c main_v2)) (bOf t) j m := by
  rw [← r0_bOf_pred t h0]
  exact r0_tables V c (t.val - 1) _ j m

theorem edge_pt (c : Dev nD) (t : Fin cfg0.N) (r : Fin 256) (k : Fin 20) (m : Fin 64) :
    (outsAt0 V c t.val t.isLt).1 (ix3 (0 : Fin 1) r (Spec.col k m)) = hOf V c (bOf t) (rowOf t r) k m := by
  by_cases h0 : t.val % 4 = 0
  · rw [outsAt0_A V c t h0]
    rw [r0_out_A_4]
    exact r0_edge_val V c t _ _ (fun j m => r0_tbl0_val V c t j m) (fun j m => r0_tbl1_val V c t j m) r k m
  · rw [outsAt0_B V c t h0]
    rw [r0_out_B_4]
    exact r0_edge_val V c t _ _ (fun j m => (r0_tables_pred V c t h0 j m).1) (fun j m => (r0_tables_pred V c t h0 j m).2) r k m

theorem sum_pt_first (c : Dev nD) (t : Fin cfg0.N) (h0 : t.val % 4 = 0) (m : Fin 64) :
    (outsAt0 V c t.val t.isLt).2.1 (ix3 (0 : Fin 1) (0 : Fin 1) m) = tileSum V c t m := by
  rw [outsAt0_A V c t h0]
  rw [r0_out_A_5, pay2_apply, pay7_apply, zero_add]
  exact r0_sum_val V c t _ _ (fun j m => r0_tbl0_val V c t j m) (fun j m => r0_tbl1_val V c t j m) m

theorem sum_pt_next (c : Dev nD) (t : Fin cfg0.N) (h0 : ¬t.val % 4 = 0) (m : Fin 64) :
    (outsAt0 V c t.val t.isLt).2.1 (ix3 (0 : Fin 1) (0 : Fin 1) m)
      = (outsAt0 V c (t.val - 1) (Nat.lt_of_le_of_lt (Nat.sub_le _ _) t.isLt)).2.1 (ix3 (0 : Fin 1) (0 : Fin 1) m) + tileSum V c t m := by
  rw [outsAt0_B V c t h0]
  rw [r0_out_B_5, pay2_apply]
  exact congrArg (fun s : EReal => (outsAt0 V c (t.val - 1) (Nat.lt_of_le_of_lt (Nat.sub_le _ _) t.isLt)).2.1 (ix3 (0 : Fin 1) (0 : Fin 1) m) + s)
    (r0_sum_val V c t _ _ (fun j m => (r0_tables_pred V c t h0 j m).1) (fun j m => (r0_tables_pred V c t h0 j m).2) m)

theorem sumsq_pt_first (c : Dev nD) (t : Fin cfg0.N) (h0 : t.val % 4 = 0) (m : Fin 64) :
    (outsAt0 V c t.val t.isLt).2.2.1 (ix3 (0 : Fin 1) (0 : Fin 1) m) = tileSumSq V c t m := by
  rw [outsAt0_A V c t h0]
  rw [r0_out_A_6, pay3_apply, pay8_apply, zero_add]
  exact r0_sumsq_val V c t _ _ (fun j m => r0_tbl0_val V c t j m) (fun j m => r0_tbl1_val V c t j m) m

theorem sumsq_pt_next (c : Dev nD) (t : Fin cfg0.N) (h0 : ¬t.val % 4 = 0) (m : Fin 64) :
    (outsAt0 V c t.val t.isLt).2.2.1 (ix3 (0 : Fin 1) (0 : Fin 1) m)
      = (outsAt0 V c (t.val - 1) (Nat.lt_of_le_of_lt (Nat.sub_le _ _) t.isLt)).2.2.1 (ix3 (0 : Fin 1) (0 : Fin 1) m) + tileSumSq V c t m := by
  rw [outsAt0_B V c t h0]
  rw [r0_out_B_6, pay3_apply]
  exact congrArg (fun s : EReal => (outsAt0 V c (t.val - 1) (Nat.lt_of_le_of_lt (Nat.sub_le _ _) t.isLt)).2.2.1 (ix3 (0 : Fin 1) (0 : Fin 1) m) + s)
    (r0_sumsq_val V c t _ _ (fun j m => (r0_tables_pred V c t h0 j m).1) (fun j m => (r0_tables_pred V c t h0 j m).2) m)

end Cert.KernelIdeal.HandV

end
-- ==== Proof.KV.Acc.lean ====
import proofs.«401853_j10514079941286_3_alg».proof.Proof.KV.SumLemmas
import Idealize.ShloMosaic.Lib.Pipeline.Value
import Idealize.ShloMosaic.Lib.ValueIdx

noncomputable section

namespace Cert.Spec

open Idealize.ShloMosaic

variable {ι : Type*} {β : Type} [AddCommMonoid β] {N : ℕ}

-- A quantity restarted at the points ≡ 0 mod J and added to at the others is the sum of its run's terms so far.
theorem fold_mod {J : ℕ} (hJ : 0 < J) (f : (n : ℕ) → n < N → ι → β) (M : ℕ → ι → β)
    (h0 : ∀ n h, n % J = 0 → ∀ i, f n h i = M n i)
    (hs : ∀ n (h : n + 1 < N), ¬(n + 1) % J = 0 → ∀ i, f (n + 1) h i = f n (Nat.lt_of_succ_lt h) i + M (n + 1) i)
    (t : ℕ) (ht : t < N) (i : ι) : f t ht i = ∑ s ∈ Finset.range (t % J + 1), M (J * (t / J) + s) i := by
  have h' : J * (t / J) + t % J < N := (Nat.div_add_mod t J).symm ▸ ht
  rw [Pipeline.eq_accAt_of_mod f J (fun n _ i => 0 + M n i) (fun n _ acc i => acc i + M n i)
    (fun n h hn => funext fun i => (h0 n h hn i).trans (zero_add _).symm) (fun n h hn => funext (hs n h hn)) hJ t ht h',
    Pipeline.accAt_add_apply _ _ (fun _ => 0) M _ (t % J) (fun _ _ => rfl) (fun _ _ _ _ _ _ => rfl) _ le_rfl h' i, zero_add]

-- With the term of point n the sum of F over the 256 rows of tile n % 4, a batch's last point holds the sum over all 1024 rows.
theorem fold_tiles (f : (n : ℕ) → n < N → ι → β) (F : (n : ℕ) → n < N → Fin 1024 → ι → β)
    (hF : ∀ n n' h h', n / 4 = n' / 4 → F n h = F n' h')
    (h0 : ∀ n h, n % 4 = 0 → ∀ i, f n h i = ∑ r : Fin 256, F n h ⟨256 * (n % 4) + r.val, by have := r.isLt; omega⟩ i)
    (hs : ∀ n (h : n + 1 < N), ¬(n + 1) % 4 = 0 → ∀ i, f (n + 1) h i
      = f n (Nat.lt_of_succ_lt h) i + ∑ r : Fin 256, F (n + 1) h ⟨256 * ((n + 1) % 4) + r.val, by have := r.isLt; omega⟩ i)
    (t : ℕ) (ht : t < N) (h3 : t % 4 = 3) (i : ι) : f t ht i = ∑ row : Fin 1024, F t ht row i := by
  rw [fold_mod (J := 4) (by norm_num) f
      (fun n i => if h : n < N then ∑ r : Fin 256, F n h ⟨256 * (n % 4) + r.val, by have := r.isLt; omega⟩ i else 0)
      (fun n h hn i => by rw [h0 n h hn i, dif_pos h]) (fun n h hn i => by rw [hs n h hn i, dif_pos h]) t ht i,
    h3, Finset.sum_range, sum_rows_4x256 fun row => F t ht row i]
  refine Finset.sum_congr rfl fun s _ => ?_
  have hs' : 4 * (t / 4) + s.val < N := by have := s.isLt; omega
  rw [dif_pos hs']
  refine Finset.sum_congr rfl fun r _ => ?_
  rw [hF _ t hs' ht (by have := s.isLt; omega)]
  exact congrArg (F t ht · i) (Fin.ext (by have := s.isLt; show 256 * ((4 * (t / 4) + s.val) % 4) + r.val = 256 * s.val + r.val; omega))

end Cert.Spec

namespace Idealize.ShloMosaic.Pipeline

open Idealize.SL Idealize.SL.RA

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

-- An element of a block that is written back keeps its value in the final array.
theorem Dat.arrAt_of_emb (w : Fin cfg.W) (G : Buf Val ((cfg.win w).arr.view.loc (c.tc : Thread nD τ)))
    (hG : ∀ t, (cfg.win w).flush t = true → dat.flushed w t = ((cfg.win w).blk t).view.read Val G)
    (t : Fin cfg.N) (hf : (cfg.win w).flush t = true) (y : ((cfg.win w).xblock (cfg.grid.coords t)).Idx)
    {i : ((cfg.win w).arr.view.loc (c.tc : Thread nD τ)).2.ty.Idx} (E : ((cfg.win w).blk t).view.emb y = i) :
    dat.arrAt w cfg.N i = G i :=
  E ▸ dat.arrAt_apply_of_mem w G hG _ t _ t.isLt hf (View.emb_mem_set _ y)

end Idealize.ShloMosaic.Pipeline

namespace Idealize.ShloMosaic.ValueIdx

-- Every index of a [1, n1, n2] block is some (0, p, d).
theorem forall_idx1 {n1 n2 : ℕ} {P : (⟨3, ![1, n1, n2]⟩ : Shape).Idx → Prop} (h : ∀ p d, P (ix3 0 p d)) (y) : P y := by
  obtain ⟨q, p, d, rfl⟩ : ∃ (q : Fin 1) (p : Fin n1) (d : Fin n2), y = ix3 q p d := ⟨y 0, y 1, y 2, eq_ix3 y⟩
  obtain rfl : q = 0 := Subsingleton.elim _ _
  exact h p d

end Idealize.ShloMosaic.ValueIdx

end
-- ==== Proof.KV.R0Arr.lean ====
import proofs.«401853_j10514079941286_3_alg».proof.Proof.KV.R0
import proofs.«401853_j10514079941286_3_alg».proof.Proof.KV.Acc
import Idealize.ShloMosaic.Lib.Pipeline.Value

set_option maxRecDepth 16384

noncomputable section

namespace Cert.KernelIdeal.HandV

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem idx_out0 : ∀ t : Fin cfg0.N,
    (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = 0 ∧ win0_5.index t (2 : Fin 3) = 0)
    ∧ (win0_6.index t (0 : Fin 3) = t.val / 4 ∧ win0_6.index t (1 : Fin 3) = 0 ∧ win0_6.index t (2 : Fin 3) = 0) :=
  (by decide +kernel : ∀ t : Fin grid0.N, _)

def ptOf0 (b : Fin 8) (j : ℕ) (hj : j < 4) : Fin cfg0.N := ⟨4 * b.val + j, by have := b.isLt; have : cfg0.N = 32 := N_0; omega⟩

def arr0_edgeG (c : Dev nD) : S8x1024x1280.Idx → EReal := fun i =>
  hOf V c (i 0) (i 1) ⟨(i 2).val / 64, by have : (i 2).val < 1280 := (i 2).isLt; omega⟩ ⟨(i 2).val % 64, Nat.mod_lt _ (by norm_num)⟩
def arr0_sumG (c : Dev nD) : S8x1x64.Idx → EReal := fun i => Spec.colsum1 (hOf V c) (i 0) (i 2)
def arr0_sumsqG (c : Dev nD) : S8x1x64.Idx → EReal := fun i => Spec.colsumsq1 (hOf V c) (i 0) (i 2)

theorem emb0_4 (t : Fin cfg0.N) (r : Fin 256) (x : Fin 1280) (b : Fin 8) (n : Fin 1024) (hb : b.val = t.val / 4)
    (hn : n.val = 256 * (t.val % 4) + r.val) : ((cfg0.win 4).blk t).view.emb (ix3 (0 : Fin 1) r x) = ix3 b n x := by
  obtain ⟨⟨e0, e1, e2⟩, -⟩ := idx_out0 t
  funext a; apply Fin.ext
  match a with
  | ⟨0, _⟩ => show win0_4.index t (0 : Fin 3) * 1 + 1 * 0 = b.val; omega
  | ⟨1, _⟩ => show win0_4.index t (1 : Fin 3) * 256 + 1 * r.val = n.val; omega
  | ⟨2, _⟩ => show win0_4.index t (2 : Fin 3) * 1280 + 1 * x.val = x.val; omega

theorem emb0_5 (t : Fin cfg0.N) (m : Fin 64) (b : Fin 8) (hb : b.val = t.val / 4) :
    ((cfg0.win 5).blk t).view.emb (ix3 (0 : Fin 1) (0 : Fin 1) m) = ix3 b (0 : Fin 1) m := by
  obtain ⟨-, ⟨e0, e1, e2⟩, -⟩ := idx_out0 t
  funext a; apply Fin.ext
  match a with
  | ⟨0, _⟩ => show win0_5.index t (0 : Fin 3) * 1 + 1 * 0 = b.val; omega
  | ⟨1, _⟩ => show win0_5.index t (1 : Fin 3) * 1 + 1 * 0 = 0; omega
  | ⟨2, _⟩ => show win0_5.index t (2 : Fin 3) * 64 + 1 * m.val = m.val; omega

theorem emb0_6 (t : Fin cfg0.N) (m : Fin 64) (b : Fin 8) (hb : b.val = t.val / 4) :
    ((cfg0.win 6).blk t).view.emb (ix3 (0 : Fin 1) (0 : Fin 1) m) = ix3 b (0 : Fin 1) m := by
  obtain ⟨-, -, e0, e1, e2⟩ := idx_out0 t
  funext a; apply Fin.ext
  match a with
  | ⟨0, _⟩ => show win0_6.index t (0 : Fin 3) * 1 + 1 * 0 = b.val; omega
  | ⟨1, _⟩ => show win0_6.index t (1 : Fin 3) * 1 + 1 * 0 = 0; omega
  | ⟨2, _⟩ => show win0_6.index t (2 : Fin 3) * 64 + 1 * m.val = m.val; omega

theorem flushed0_4_eq (c : Dev nD) (t : Fin cfg0.N) :
    (dat0 V c).flushed 4 t = ((cfg0.win 4).blk t).view.read (Elt Ideal) (arr0_edgeG V c) := by
  refine funext (forall_idx1 (n1 := 256) (n2 := 1280) fun r x => ?_)
  show (outsAt0 V c t.val t.isLt).1 (ix3 0 r x) = arr0_edgeG V c (((cfg0.win 4).blk t).view.emb (ix3 0 r x))
  rw [emb0_4 t r x (bOf t) (rowOf t r) rfl rfl]
  have hx := x.isLt
  exact (congrArg (fun x => (outsAt0 V c t.val t.isLt).1 (ix3 0 r x))
    (show x = Spec.col ⟨x.val / 64, by omega⟩ ⟨x.val % 64, Nat.mod_lt _ (by norm_num)⟩ from Fin.ext (by show x.val = 64 * (x.val / 64) + x.val % 64; omega))).trans
    (edge_pt V c t r _ _)

theorem edge_arr (c : Dev nD) (b : Fin 8) (n : Fin 1024) (k : Fin 20) (m : Fin 64) :
    (dat0 V c).arrAt 4 cfg0.N (ValueIdx.ix3 b n (Spec.col k m)) = hOf V c b n k m := by
  have hn := n.isLt
  have hm := m.isLt
  refine ((dat0 V c).arrAt_of_emb 4 (arr0_edgeG V c) (fun t _ => flushed0_4_eq V c t) (ptOf0 b (n.val / 256) (by omega)) (flush0_4 _)
    (ix3 0 ⟨n.val % 256, by omega⟩ (Spec.col k m)) (emb0_4 _ _ _ b n (by show b.val = (4 * b.val + n.val / 256) / 4; omega)
      (by show n.val = 256 * ((4 * b.val + n.val / 256) % 4) + n.val % 256; omega))).trans ?_
  show hOf V c b n ⟨(64 * k.val + m.val) / 64, _⟩ ⟨(64 * k.val + m.val) % 64, _⟩ = _
  congr 1 <;> exact Fin.ext (by dsimp only; omega)

-- After a batch's last point the two sums hold the batch's column sum and sum of squares, rows regrouped in tiles.
theorem sums0_last (c : Dev nD) (t : Fin cfg0.N) (h3 : t.val % 4 = 3) (m : Fin 64) :
    (outsAt0 V c t.val t.isLt).2.1 (ix3 0 0 m) = Spec.colsum1 (hOf V c) (bOf t) m
    ∧ (outsAt0 V c t.val t.isLt).2.2.1 (ix3 0 0 m) = Spec.colsumsq1 (hOf V c) (bOf t) m :=
  ⟨fold_tiles (fun n h m => (outsAt0 V c n h).2.1 (ix3 0 0 m)) (fun n h row m => ∑ k : Fin 20, hOf V c (bOf ⟨n, h⟩) row k m)
      (fun n n' h h' e => by rw [show bOf ⟨n, h⟩ = bOf ⟨n', h'⟩ from Fin.ext e])
      (fun n h hn m => (sum_pt_first V c ⟨n, h⟩ hn m).trans Finset.sum_comm)
      (fun n h hn m => (sum_pt_next V c ⟨n + 1, h⟩ hn m).trans (congrArg (_ + ·) Finset.sum_comm)) t.val t.isLt h3 m,
    fold_tiles (fun n h m => (outsAt0 V c n h).2.2.1 (ix3 0 0 m))
      (fun n h row m => ∑ k : Fin 20, hOf V c (bOf ⟨n, h⟩) row k m * hOf V c (bOf ⟨n, h⟩) row k m)
      (fun n n' h h' e => by rw [show bOf ⟨n, h⟩ = bOf ⟨n', h'⟩ from Fin.ext e])
      (fun n h hn m => (sumsq_pt_first V c ⟨n, h⟩ hn m).trans Finset.sum_comm)
      (fun n h hn m => (sumsq_pt_next V c ⟨n + 1, h⟩ hn m).trans (congrArg (_ + ·) Finset.sum_comm)) t.val t.isLt h3 m⟩

theorem flushed0_5_eq (c : Dev nD) (t : Fin cfg0.N) (hf : (cfg0.win 5).flush t = true) :
    (dat0 V c).flushed 5 t = ((cfg0.win 5).blk t).view.read (Elt Ideal) (arr0_sumG V c) := by
  refine funext (forall_idx1 (n1 := 1) (n2 := 64) fun p m => ?_)
  obtain rfl : p = 0 := Subsingleton.elim _ _
  show (outsAt0 V c t.val t.isLt).2.1 (ix3 0 0 m) = arr0_sumG V c (((cfg0.win 5).blk t).view.emb (ix3 0 0 m))
  rw [emb0_5 t m (bOf t) rfl]
  exact (sums0_last V c t ((flush0_5 t).mp hf) m).1

theorem flushed0_6_eq (c : Dev nD) (t : Fin cfg0.N) (hf : (cfg0.win 6).flush t = true) :
    (dat0 V c).flushed 6 t = ((cfg0.win 6).blk t).view.read (Elt Ideal) (arr0_sumsqG V c) := by
  refine funext (forall_idx1 (n1 := 1) (n2 := 64) fun p m => ?_)
  obtain rfl : p = 0 := Subsingleton.elim _ _
  show (outsAt0 V c t.val t.isLt).2.2.1 (ix3 0 0 m) = arr0_sumsqG V c (((cfg0.win 6).blk t).view.emb (ix3 0 0 m))
  rw [emb0_6 t m (bOf t) rfl]
  exact (sums0_last V c t ((flush0_6 t).mp hf) m).2

theorem sum1_arr (c : Dev nD) (b : Fin 8) (m : Fin 64) :
    (dat0 V c).arrAt 5 cfg0.N (ValueIdx.ix3 b 0 m) = Spec.colsum1 (hOf V c) b m :=
  (dat0 V c).arrAt_of_emb 5 (arr0_sumG V c) (flushed0_5_eq V c) (ptOf0 b 3 (by omega))
    ((flush0_5 _).mpr (by show (4 * b.val + 3) % 4 = 3; omega)) (ix3 0 0 m)
    (emb0_5 _ m b (by show b.val = (4 * b.val + 3) / 4; omega))

theorem sumsq1_arr (c : Dev nD) (b : Fin 8) (m : Fin 64) :
    (dat0 V c).arrAt 6 cfg0.N (ValueIdx.ix3 b 0 m) = Spec.colsumsq1 (hOf V c) b m :=
  (dat0 V c).arrAt_of_emb 6 (arr0_sumsqG V c) (flushed0_6_eq V c) (ptOf0 b 3 (by omega))
    ((flush0_6 _).mpr (by show (4 * b.val + 3) % 4 = 3; omega)) (ix3 0 0 m)
    (emb0_6 _ m b (by show b.val = (4 * b.val + 3) / 4; omega))

end Cert.KernelIdeal.HandV

end
-- ==== Proof.KV.R1Defs.lean ====
import proofs.«401853_j10514079941286_3_alg».proof.Proof.SpecK
import proofs.«401853_j10514079941286_3_alg».proof.Proof.KI.R1Runs

set_option maxRecDepth 16384

noncomputable section

namespace Cert.KernelIdeal.HandV

open Cert.KernelIdeal Cert.KernelIdeal.Gen Cert.KernelIdeal.Hand Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

def eOf (c : Dev nD) : Spec.ArrH := fun b n k m => (V c main_v3_0 : S8x1024x1280.Idx → EReal) (ix3 b n (Spec.col k m))

def v64 (a : S1x1x64.Idx → EReal) : Spec.ArrV64 := fun m => a (ix3 0 0 m)

def h2Of (c : Dev nD) : Spec.ArrH2 :=
  Spec.proj2 (Spec.act1w (eOf V c) (v64 (V c main_v16)) (v64 (V c main_v17)) (v64 (V c main_v18)) (v64 (V c main_v19)))
    (Spec.cur2 (V c main_arg5))

def blkH2 (x0 : S1x256x1280.Idx → EReal) (x1 x2 x3 x4 : S1x1x64.Idx → EReal) (x5 : S512x64.Idx → EReal)
    (p : Fin 256) (d : Fin 512) : EReal :=
  ∑ m : Fin 64, (Finset.univ.sup fun k : Fin 20 =>
      Spec.leaky (Spec.bn (x0 (ix3 0 p (Spec.col k m))) (x1 (ix3 0 0 m)) (x2 (ix3 0 0 m)) (x3 (ix3 0 0 m)) (x4 (ix3 0 0 m))))
    * x5 (ix2 d m)

end Cert.KernelIdeal.HandV

end
-- ==== Proof.KV.R1Tail.lean ====
import proofs.«401853_j10514079941286_3_alg».proof.Proof.Gen.KernelIdeal.Skeleton
import proofs.«401853_j10514079941286_3_alg».proof.Proof.LibAttnOps
import Idealize.ShloMosaic.PureOps.Ideal.Laws
import Idealize.ShloMosaic.Lib.ValueIdx
import Idealize.ShloMosaic.Lib.Pipeline.Value

set_option maxRecDepth 16384

noncomputable section

namespace Cert.KernelIdeal.HandV

open Cert.KernelIdeal Cert.KernelIdeal.Gen
open Idealize.ShloMosaic Idealize.ShloMosaic.ValueIdx

theorem r1_lift_col {a b : Nat} (h : (⟨2, ![a, b]⟩ : Shape).Reduces [0] ⟨1, ![b]⟩) (j : Fin b) (k : Fin a) :
    h.lift (ix1 j) k = ix2 k j :=
  funext fun c => Fin.ext (by
    match c with
    | ⟨0, _⟩ => rfl
    | ⟨1, _⟩ => rfl)

theorem r1_colsum_apply {a b : Nat} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (r1_lift_col h j k)

theorem r1_cast_row_apply (v : FVec Ideal S512 .f32) (h1 : S512.ShapeCasts S1x512) (h2 : S1x512.ShapeCasts S1x1x512)
    (d : Fin 512) : shapeCast S1x1x512 (shapeCast S1x512 v h1) h2 (ix3 0 0 d) = v (ix1 d) := by
  refine (shapeCast_addUnit_apply ![1, 512] (shapeCast S1x512 v h1) h2 (ix3 0 0 d)).trans ?_
  refine (shapeCast_addUnit_apply ![512] v h1 _).trans ?_
  exact congrArg v (funext fun a => by
    match a with
    | ⟨0, _⟩ => rfl)

theorem k1_pay1_apply (A : FVec Ideal S256x64 .f32) (W : Vec Ideal S512x64 .f32) (p : Fin 256) (d : Fin 512) :
    k1_pay1 A W (ix2 p d) = ∑ m : Fin 64, A (ix2 p m) * W (ix2 d m) := by
  unfold k1_pay1
  exact Cert.LibAttnOps.matmul_nt_apply dot_S256x64_S512x64_S256x512_1_1_0_0_n_n rfl rfl rfl rfl rfl rfl none
    (truncf .bf16 A bitsLt_bf16_f32) (truncf .bf16 W bitsLt_bf16_f32) p d

theorem k1_pay2_apply (A : FVec Ideal S256x64 .f32) (W : Vec Ideal S512x64 .f32) (p : Fin 256) (d : Fin 512) :
    k1_pay2 A W (ix3 0 p d) = k1_pay1 A W (ix2 p d) := by
  unfold k1_pay2
  refine (shapeCast_addUnit_apply ![256, 512] (k1_pay1 A W) shapeCasts_S256x512_S1x256x512 (ix3 0 p d)).trans ?_
  exact congrArg (k1_pay1 A W) (funext fun a => by
    match a with
    | ⟨0, _⟩ => rfl
    | ⟨1, _⟩ => rfl)

theorem k1_pay3_apply (A : FVec Ideal S256x64 .f32) (W : Vec Ideal S512x64 .f32) (z : Vec Ideal S1x1x512 .f32) (d : Fin 512) :
    k1_pay3 A W z (ix3 0 0 d) = z (ix3 0 0 d) + ∑ p : Fin 256, k1_pay1 A W (ix2 p d) := by
  unfold k1_pay3
  rw [addf_apply, shapeCast_self, r1_cast_row_apply]
  exact congrArg (z (ix3 0 0 d) + ·) (r1_colsum_apply (k1_pay1 A W) _ _ _ _ d)

theorem k1_pay4_apply (A : FVec Ideal S256x64 .f32) (W : Vec Ideal S512x64 .f32) (z : Vec Ideal S1x1x512 .f32) (d : Fin 512) :
    k1_pay4 A W z (ix3 0 0 d)
      = z (ix3 0 0 d) + ∑ p : Fin 256, k1_pay1 A W (ix2 p d) * k1_pay1 A W (ix2 p d) := by
  unfold k1_pay4
  rw [addf_apply, shapeCast_self, r1_cast_row_apply]
  exact congrArg (z (ix3 0 0 d) + ·) (r1_colsum_apply (mulf (k1_pay1 A W) (k1_pay1 A W)) _ _ _ _ d)

end Cert.KernelIdeal.HandV

end
-- ==== Proof.KV.R1Point.lean ====
import proofs.«401853_j10514079941286_3_alg».proof.Proof.SpecK
import proofs.«401853_j10514079941286_3_alg».proof.Proof.KI.R1
import proofs.«401853_j10514079941286_3_alg».proof.Proof.KV.R1Defs
import proofs.«401853_j10514079941286_3_alg».proof.Proof.KV.R1Tail
import Idealize.ShloMosaic.Lib.Pipeline.Value
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand Cert.Spec
open Idealize.ShloMosaic Idealize.ShloMosaic.TcCoe Idealize.ShloMosaic.ValueIdx Idealize.ShloMosaic.Tactic
open Idealize.ShloMosaic.Pipeline (Dat)

namespace R1P

def accT {F : FTy → Type} [FloatOps F] (v3 v6 v12 v15 : Vec F S1x1x64 .f32) (s : Fin 20 → Vec F S1x256x64 .bf16) : FVec F S256x64 .f32 :=
  k1_pay26 (k1_pay7 v3) (k1_pay8 v6) (k1_pay9 v12) (k1_pay10 v15)
    (k1_pay24 (k1_pay7 v3) (k1_pay8 v6) (k1_pay9 v12) (k1_pay10 v15)
      (k1_pay22 (k1_pay7 v3) (k1_pay8 v6) (k1_pay9 v12) (k1_pay10 v15)
        (k1_pay18 (k1_pay7 v3) (k1_pay8 v6) (k1_pay9 v12) (k1_pay10 v15)
          (k1_pay17 (k1_pay7 v3) (k1_pay8 v6) (k1_pay9 v12) (k1_pay10 v15)
            (k1_pay15 (k1_pay7 v3) (k1_pay8 v6) (k1_pay9 v12) (k1_pay10 v15)
              (k1_pay12 (k1_pay7 v3) (k1_pay8 v6) (k1_pay9 v12) (k1_pay10 v15)
                (k1_pay11 v3 v6 v12 v15 (s 0)) (s 1) (s 2))
              (k1_pay13 (k1_pay7 v3) (k1_pay8 v6) (k1_pay9 v12) (k1_pay10 v15) (s 3))
              k1_pay14 (s 4) (s 5))
            (k1_pay16 (k1_pay7 v3) (k1_pay8 v6) (s 6)) (s 7) (s 8))
          (s 9) (s 10))
        (k1_pay19 (k1_pay7 v3) (k1_pay8 v6) (k1_pay9 v12) (k1_pay10 v15) (s 11))
        (k1_pay20 (k1_pay7 v3) (k1_pay8 v6) (k1_pay9 v12) (k1_pay10 v15) (s 11))
        (k1_pay21 (k1_pay7 v3) (k1_pay8 v6) (k1_pay9 v12) (k1_pay10 v15) (s 11))
        (s 12) (s 13))
      (k1_pay23 (k1_pay7 v3) (k1_pay8 v6) (k1_pay9 v12) (k1_pay10 v15) (s 14))
      (s 15) (s 16))
    (k1_pay25 (k1_pay7 v3) (s 17)) (s 18) (s 19)

theorem rsqrt_at {s : Shape} {φ : FTy} (a : FVec Ideal s φ) (i : s.Idx) : rsqrt a i = Ideal.rsqrt (a i) := rfl

theorem leaky_sel (v : EReal) :
    Scalar.select (Ideal.cmp .oge v (Ideal.ofBits .f32 0x00000000#32)) v (Ideal.ofBits .f32 0x3E4CCCCD#32 * v) = Spec.leaky v := by
  rw [Ideal.ofBits_zero_f32]
  unfold Spec.leaky Spec.slope Ideal.cmp
  by_cases h : (0 : EReal) ≤ v
  · simp only [h, decide_true, if_true]; exact select_one _ _
  · simp only [h, decide_false, if_false]; exact select_zero _ _

theorem ofBits_ninf : Ideal.ofBits .f32 0xFF800000#32 = (⊥ : EReal) := by
  simp [Ideal.ofBits, Ideal.ieee]

theorem max20 (a : Fin 20 → EReal) :
    max (max (max (max (max (max (max (max (max (max (max (max (max (max (max (max (max (max (max (max ((⊥ : EReal)) (a 0)) (a 1)) (a 2)) (a 3)) (a 4)) (a 5)) (a 6)) (a 7)) (a 8)) (a 9)) (a 10)) (a 11)) (a 12)) (a 13)) (a 14)) (a 15)) (a 16)) (a 17)) (a 18)) (a 19) = Finset.univ.sup a := by
  apply le_antisymm
  · simp only [max_le_iff, bot_le, true_and]
    refine ⟨⟨⟨⟨⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩, ?_⟩, ?_⟩, ?_⟩, ?_⟩ <;>
      exact Finset.le_sup (f := a) (Finset.mem_univ _)
  · refine Finset.sup_le fun k _ => ?_
    fin_cases k <;> simp only [Fin.reduceFinMk, Fin.isValue, Fin.zero_eta, Fin.mk_one, le_max_iff, le_refl, true_or, or_true]

theorem accT_apply (v3 v6 v12 v15 : Vec Ideal S1x1x64 .f32) (s : Fin 20 → Vec Ideal S1x256x64 .bf16) (p : Fin 256) (m : Fin 64) :
    accT v3 v6 v12 v15 s (ix2 p m)
      = Finset.univ.sup fun k : Fin 20 =>
          Spec.leaky (Spec.bn (s k (ix3 0 p m)) (v3 (ix3 0 0 m)) (v6 (ix3 0 0 m)) (v12 (ix3 0 0 m)) (v15 (ix3 0 0 m))) := by
  unfold accT
  unfold k1_pay26 k1_pay25 k1_pay24 k1_pay23 k1_pay22 k1_pay21 k1_pay20 k1_pay19 k1_pay18 k1_pay17 k1_pay16 k1_pay15 k1_pay14 k1_pay13 k1_pay12 k1_pay11 k1_pay10 k1_pay9 k1_pay8 k1_pay7
  simp only [shapeCast_self, maximumf_apply, select_apply, cmpf_apply, mulf_apply, addf_apply, subf_apply, broadcast_apply,
    broadcastTo_1b_ab_apply, extf_apply, shapeCast_1ab_ab_apply, rsqrt_at, Ideal.cmpf_def, Ideal.ofBits_def, leaky_sel]
  rw [ofBits_ninf]
  exact max20 fun k : Fin 20 =>
    Spec.leaky (Spec.bn (s k (ix3 0 p m)) (v3 (ix3 0 0 m)) (v6 (ix3 0 0 m)) (v12 (ix3 0 0 m)) (v15 (ix3 0 0 m)))

def slc {F : FTy → Type} [FloatOps F] (x0 : Vec F S1x256x1280 .bf16) (k : Fin 20) : Vec F S1x256x64 .bf16 :=
  View.ld x0 (Rect.unit (s := S1x256x1280) ![0, 0, 64 * k.val] S1x256x64.size (fun a => by
    have hk := k.isLt
    match a with
    | ⟨0, _⟩ => exact Nat.le_refl _
    | ⟨1, _⟩ => exact Nat.le_refl _
    | ⟨2, _⟩ => show 64 * k.val + 64 ≤ 1280; omega))

theorem slc_apply (x0 : Vec Ideal S1x256x1280 .bf16) (k : Fin 20) (p : Fin 256) (m : Fin 64) :
    slc x0 k (ix3 0 p m) = x0 (ix3 0 p (Spec.col k m)) := by
  unfold slc
  show x0 ((Rect.unit (s := S1x256x1280) ![0, 0, 64 * k.val] S1x256x64.size _).emb (ix3 0 p m)) = _
  refine congrArg x0 (funext fun a => Fin.ext ?_)
  match a with
  | ⟨0, _⟩ => rfl
  | ⟨1, _⟩ => show 0 + 1 * p.val = p.val; omega
  | ⟨2, _⟩ => show 64 * k.val + 1 * m.val = 64 * k.val + m.val; omega

theorem zeros3 : (![0, 0, 0] : Fin 3 → Nat) = fun _ => 0 := funext fun a => by fin_cases a <;> rfl
theorem zeros2 : (![0, 0] : Fin 2 → Nat) = fun _ => 0 := funext fun a => by fin_cases a <;> rfl

section Pieces
variable {F : FTy → Type} [FloatOps F]

section Point

variable (c : Dev nD) (i : grid1.Coords)
  (arg2 : Memref sig .tc .vmem S1x256x1280 .bf16)
  (harg2 : arg2.IsWhole)
  (arg3 : Memref sig .tc .vmem S1x1x64 .f32)
  (harg3 : arg3.IsWhole)
  (arg4 : Memref sig .tc .vmem S1x1x64 .f32)
  (harg4 : arg4.IsWhole)
  (arg5 : Memref sig .tc .vmem S1x1x64 .f32)
  (harg5 : arg5.IsWhole)
  (arg6 : Memref sig .tc .vmem S1x1x64 .f32)
  (harg6 : arg6.IsWhole)
  (arg7 : Memref sig .tc .vmem S512x64 .f32)
  (harg7 : arg7.IsWhole)
  (arg8 : Memref sig .tc .vmem S1x256x512 .f32)
  (harg8 : arg8.IsWhole)
  (arg9 : Memref sig .tc .vmem S1x1x512 .f32)
  (harg9 : arg9.IsWhole)
  (arg10 : Memref sig .tc .vmem S1x1x512 .f32)
  (harg10 : arg10.IsWhole)

theorem piece6_A (hc0 : cond1_0 i) (x0 : Vec F S1x256x1280 .bf16) (x1 : Vec F S1x1x64 .f32) (x2 : Vec F S1x1x64 .f32) (x3 : Vec F S1x1x64 .f32) (x4 : Vec F S1x1x64 .f32) (x5 : Vec F S512x64 .f32) :
    (outsA1 c i arg2 harg2 arg3 harg3 arg4 harg4 arg5 harg5 arg6 harg6 arg7 harg7 arg8 harg8 arg9 harg9 arg10 harg10 hc0 x0 x1 x2 x3 x4 x5).1 = k1_pay2 (accT x1 x2 x3 x4 (slc x0)) x5 := by
  unfold outsA1 leaves; dsimp only
  rw [View.read_writes_eq_canon _ _ _ (coversA1 c i arg2 harg2 arg3 harg3 arg4 harg4 arg5 harg5 arg6 harg6 arg7 harg7 arg8 harg8 arg9 harg9 arg10 harg10 hc0 x0 x1 x2 x3 x4 x5).1]
  unfold kernelRun1_A; dsimp only; sl_unfold_words
  rw [View.canon_unit_zero zeros3]
  simp only [View.readAt_eq_ld, harg2.read_unread, harg3.read_unread, harg4.read_unread, harg5.read_unread, harg6.read_unread, harg7.read_unread, harg9.read_unread, harg10.read_unread,
    View.ld_unit_zero (S := S1x1x64) zeros3, View.ld_unit_zero (S := S512x64) zeros2, View.ld_unit_zero (S := S1x1x512) zeros3]
  rfl

theorem piece7_A (hc0 : cond1_0 i) (x0 : Vec F S1x256x1280 .bf16) (x1 : Vec F S1x1x64 .f32) (x2 : Vec F S1x1x64 .f32) (x3 : Vec F S1x1x64 .f32) (x4 : Vec F S1x1x64 .f32) (x5 : Vec F S512x64 .f32) :
    (outsA1 c i arg2 harg2 arg3 harg3 arg4 harg4 arg5 harg5 arg6 harg6 arg7 harg7 arg8 harg8 arg9 harg9 arg10 harg10 hc0 x0 x1 x2 x3 x4 x5).2.1 = k1_pay3 (accT x1 x2 x3 x4 (slc x0)) x5 (k1_pay5 (F := F)) := by
  unfold outsA1 leaves; dsimp only
  rw [View.read_writes_eq_canon _ _ _ (coversA1 c i arg2 harg2 arg3 harg3 arg4 harg4 arg5 harg5 arg6 harg6 arg7 harg7 arg8 harg8 arg9 harg9 arg10 harg10 hc0 x0 x1 x2 x3 x4 x5).2.1]
  unfold kernelRun1_A; dsimp only; sl_unfold_words
  rw [View.canon_cons_unit_zero (S := S1x1x512) zeros3, View.readCov_unit_zero (S := S1x1x512) _ zeros3]
  simp only [View.readAt_eq_ld, harg2.read_unread, harg3.read_unread, harg4.read_unread, harg5.read_unread, harg6.read_unread, harg7.read_unread, harg9.read_unread, harg10.read_unread,
    View.ld_unit_zero (S := S1x1x64) zeros3, View.ld_unit_zero (S := S512x64) zeros2, View.ld_unit_zero (S := S1x1x512) zeros3]
  rfl

theorem piece8_A (hc0 : cond1_0 i) (x0 : Vec F S1x256x1280 .bf16) (x1 : Vec F S1x1x64 .f32) (x2 : Vec F S1x1x64 .f32) (x3 : Vec F S1x1x64 .f32) (x4 : Vec F S1x1x64 .f32) (x5 : Vec F S512x64 .f32) :
    (outsA1 c i arg2 harg2 arg3 harg3 arg4 harg4 arg5 harg5 arg6 harg6 arg7 harg7 arg8 harg8 arg9 harg9 arg10 harg10 hc0 x0 x1 x2 x3 x4 x5).2.2 = k1_pay4 (accT x1 x2 x3 x4 (slc x0)) x5 (k1_pay6 (F := F)) := by
  unfold outsA1 leaves; dsimp only
  rw [View.read_writes_eq_canon _ _ _ (coversA1 c i arg2 harg2 arg3 harg3 arg4 harg4 arg5 harg5 arg6 harg6 arg7 harg7 arg8 harg8 arg9 harg9 arg10 harg10 hc0 x0 x1 x2 x3 x4 x5).2.2]
  unfold kernelRun1_A; dsimp only; sl_unfold_words
  rw [View.canon_cons_unit_zero (S := S1x1x512) zeros3, View.readCov_unit_zero (S := S1x1x512) _ zeros3]
  simp only [View.readAt_eq_ld, harg2.read_unread, harg3.read_unread, harg4.read_unread, harg5.read_unread, harg6.read_unread, harg7.read_unread, harg9.read_unread, harg10.read_unread,
    View.ld_unit_zero (S := S1x1x64) zeros3, View.ld_unit_zero (S := S512x64) zeros2, View.ld_unit_zero (S := S1x1x512) zeros3]
  rfl

theorem piece6_B (hc0 : ¬cond1_0 i) (x0 : Vec F S1x256x1280 .bf16) (x1 : Vec F S1x1x64 .f32) (x2 : Vec F S1x1x64 .f32) (x3 : Vec F S1x1x64 .f32) (x4 : Vec F S1x1x64 .f32) (x5 : Vec F S512x64 .f32) (xo7 xo8 : Vec F S1x1x512 .f32) :
    (outsB1 c i arg2 harg2 arg3 harg3 arg4 harg4 arg5 harg5 arg6 harg6 arg7 harg7 arg8 harg8 arg9 harg9 arg10 harg10 hc0 x0 x1 x2 x3 x4 x5 xo7 xo8).1 = k1_pay2 (accT x1 x2 x3 x4 (slc x0)) x5 := by
  unfold outsB1 leaves; dsimp only
  rw [View.read_writes_eq_canon _ _ _ (coversB1 c i arg2 harg2 arg3 harg3 arg4 harg4 arg5 harg5 arg6 harg6 arg7 harg7 arg8 harg8 arg9 harg9 arg10 harg10 hc0 x0 x1 x2 x3 x4 x5 xo7 xo8).1]
  unfold kernelRun1_B; dsimp only; sl_unfold_words
  rw [View.canon_unit_zero zeros3]
  simp only [View.readAt_eq_ld, harg2.read_unread, harg3.read_unread, harg4.read_unread, harg5.read_unread, harg6.read_unread, harg7.read_unread, harg9.read_unread, harg10.read_unread,
    View.ld_unit_zero (S := S1x1x64) zeros3, View.ld_unit_zero (S := S512x64) zeros2, View.ld_unit_zero (S := S1x1x512) zeros3]
  rfl

theorem piece7_B (hc0 : ¬cond1_0 i) (x0 : Vec F S1x256x1280 .bf16) (x1 : Vec F S1x1x64 .f32) (x2 : Vec F S1x1x64 .f32) (x3 : Vec F S1x1x64 .f32) (x4 : Vec F S1x1x64 .f32) (x5 : Vec F S512x64 .f32) (xo7 xo8 : Vec F S1x1x512 .f32) :
    (outsB1 c i arg2 harg2 arg3 harg3 arg4 harg4 arg5 harg5 arg6 harg6 arg7 harg7 arg8 harg8 arg9 harg9 arg10 harg10 hc0 x0 x1 x2 x3 x4 x5 xo7 xo8).2.1 = k1_pay3 (accT x1 x2 x3 x4 (slc x0)) x5 xo7 := by
  unfold outsB1 leaves; dsimp only
  rw [View.read_writes_eq_canon _ _ _ (coversB1 c i arg2 harg2 arg3 harg3 arg4 harg4 arg5 harg5 arg6 harg6 arg7 harg7 arg8 harg8 arg9 harg9 arg10 harg10 hc0 x0 x1 x2 x3 x4 x5 xo7 xo8).2.1]
  unfold kernelRun1_B; dsimp only; sl_unfold_words
  rw [View.canon_unit_zero zeros3]
  simp only [View.readAt_eq_ld, harg2.read_unread, harg3.read_unread, harg4.read_unread, harg5.read_unread, harg6.read_unread, harg7.read_unread, harg9.read_unread, harg10.read_unread,
    View.ld_unit_zero (S := S1x1x64) zeros3, View.ld_unit_zero (S := S512x64) zeros2, View.ld_unit_zero (S := S1x1x512) zeros3]
  rfl

theorem piece8_B (hc0 : ¬cond1_0 i) (x0 : Vec F S1x256x1280 .bf16) (x1 : Vec F S1x1x64 .f32) (x2 : Vec F S1x1x64 .f32) (x3 : Vec F S1x1x64 .f32) (x4 : Vec F S1x1x64 .f32) (x5 : Vec F S512x64 .f32) (xo7 xo8 : Vec F S1x1x512 .f32) :
    (outsB1 c i arg2 harg2 arg3 harg3 arg4 harg4 arg5 harg5 arg6 harg6 arg7 harg7 arg8 harg8 arg9 harg9 arg10 harg10 hc0 x0 x1 x2 x3 x4 x5 xo7 xo8).2.2 = k1_pay4 (accT x1 x2 x3 x4 (slc x0)) x5 xo8 := by
  unfold outsB1 leaves; dsimp only
  rw [View.read_writes_eq_canon _ _ _ (coversB1 c i arg2 harg2 arg3 harg3 arg4 harg4 arg5 harg5 arg6 harg6 arg7 harg7 arg8 harg8 arg9 harg9 arg10 harg10 hc0 x0 x1 x2 x3 x4 x5 xo7 xo8).2.2]
  unfold kernelRun1_B; dsimp only; sl_unfold_words
  rw [View.canon_unit_zero zeros3]
  simp only [View.readAt_eq_ld, harg2.read_unread, harg3.read_unread, harg4.read_unread, harg5.read_unread, harg6.read_unread, harg7.read_unread, harg9.read_unread, harg10.read_unread,
    View.ld_unit_zero (S := S1x1x64) zeros3, View.ld_unit_zero (S := S512x64) zeros2, View.ld_unit_zero (S := S1x1x512) zeros3]
  rfl

end Point
end Pieces

theorem pay5_zero (i : S1x1x512.Idx) : (k1_pay5 (F := Ideal)) i = 0 := by
  unfold k1_pay5
  simp only [broadcast_apply, Ideal.ofBits_def, Ideal.ofBits_zero_f32]
theorem pay6_zero (i : S1x1x512.Idx) : (k1_pay6 (F := Ideal)) i = 0 := by
  unfold k1_pay6
  simp only [broadcast_apply, Ideal.ofBits_def, Ideal.ofBits_zero_f32]

theorem pay1_val (x0 : Vec Ideal S1x256x1280 .bf16) (x1 : Vec Ideal S1x1x64 .f32) (x2 : Vec Ideal S1x1x64 .f32) (x3 : Vec Ideal S1x1x64 .f32) (x4 : Vec Ideal S1x1x64 .f32) (x5 : Vec Ideal S512x64 .f32) (p : Fin 256) (d : Fin 512) :
    k1_pay1 (accT x1 x2 x3 x4 (slc x0)) x5 (ix2 p d) = blkH2 x0 x1 x2 x3 x4 x5 p d := by
  refine (k1_pay1_apply _ _ p d).trans ?_
  unfold blkH2
  refine Finset.sum_congr rfl fun m _ => ?_
  rw [accT_apply]
  simp only [slc_apply]

end R1P

open R1P

section Point

variable (c : Dev nD) (i : grid1.Coords)
  (arg2 : Memref sig .tc .vmem S1x256x1280 .bf16)
  (harg2 : arg2.IsWhole)
  (arg3 : Memref sig .tc .vmem S1x1x64 .f32)
  (harg3 : arg3.IsWhole)
  (arg4 : Memref sig .tc .vmem S1x1x64 .f32)
  (harg4 : arg4.IsWhole)
  (arg5 : Memref sig .tc .vmem S1x1x64 .f32)
  (harg5 : arg5.IsWhole)
  (arg6 : Memref sig .tc .vmem S1x1x64 .f32)
  (harg6 : arg6.IsWhole)
  (arg7 : Memref sig .tc .vmem S512x64 .f32)
  (harg7 : arg7.IsWhole)
  (arg8 : Memref sig .tc .vmem S1x256x512 .f32)
  (harg8 : arg8.IsWhole)
  (arg9 : Memref sig .tc .vmem S1x1x512 .f32)
  (harg9 : arg9.IsWhole)
  (arg10 : Memref sig .tc .vmem S1x1x512 .f32)
  (harg10 : arg10.IsWhole)

theorem out6_A (hc0 : cond1_0 i) (x0 : Vec Ideal S1x256x1280 .bf16) (x1 : Vec Ideal S1x1x64 .f32) (x2 : Vec Ideal S1x1x64 .f32) (x3 : Vec Ideal S1x1x64 .f32) (x4 : Vec Ideal S1x1x64 .f32) (x5 : Vec Ideal S512x64 .f32) (p : Fin 256) (d : Fin 512) :
    (outsA1 c i arg2 harg2 arg3 harg3 arg4 harg4 arg5 harg5 arg6 harg6 arg7 harg7 arg8 harg8 arg9 harg9 arg10 harg10 hc0 x0 x1 x2 x3 x4 x5).1 (ix3 0 p d) = blkH2 x0 x1 x2 x3 x4 x5 p d := by
  refine (congrFun (piece6_A (F := Ideal) c i arg2 harg2 arg3 harg3 arg4 harg4 arg5 harg5 arg6 harg6 arg7 harg7 arg8 harg8 arg9 harg9 arg10 harg10 hc0 x0 x1 x2 x3 x4 x5) (ix3 0 p d)).trans ?_
  exact (k1_pay2_apply _ _ p d).trans (pay1_val x0 x1 x2 x3 x4 x5 p d)

theorem out7_A (hc0 : cond1_0 i) (x0 : Vec Ideal S1x256x1280 .bf16) (x1 : Vec Ideal S1x1x64 .f32) (x2 : Vec Ideal S1x1x64 .f32) (x3 : Vec Ideal S1x1x64 .f32) (x4 : Vec Ideal S1x1x64 .f32) (x5 : Vec Ideal S512x64 .f32) (d : Fin 512) :
    (outsA1 c i arg2 harg2 arg3 harg3 arg4 harg4 arg5 harg5 arg6 harg6 arg7 harg7 arg8 harg8 arg9 harg9 arg10 harg10 hc0 x0 x1 x2 x3 x4 x5).2.1 (ix3 0 0 d) = 0 + ∑ p : Fin 256, blkH2 x0 x1 x2 x3 x4 x5 p d := by
  refine (congrFun (piece7_A (F := Ideal) c i arg2 harg2 arg3 harg3 arg4 harg4 arg5 harg5 arg6 harg6 arg7 harg7 arg8 harg8 arg9 harg9 arg10 harg10 hc0 x0 x1 x2 x3 x4 x5) (ix3 0 0 d)).trans ?_
  refine (k1_pay3_apply _ _ _ d).trans ?_
  rw [pay5_zero]
  exact congrArg (0 + ·) (Finset.sum_congr rfl fun p _ => pay1_val x0 x1 x2 x3 x4 x5 p d)

theorem out8_A (hc0 : cond1_0 i) (x0 : Vec Ideal S1x256x1280 .bf16) (x1 : Vec Ideal S1x1x64 .f32) (x2 : Vec Ideal S1x1x64 .f32) (x3 : Vec Ideal S1x1x64 .f32) (x4 : Vec Ideal S1x1x64 .f32) (x5 : Vec Ideal S512x64 .f32) (d : Fin 512) :
    (outsA1 c i arg2 harg2 arg3 harg3 arg4 harg4 arg5 harg5 arg6 harg6 arg7 harg7 arg8 harg8 arg9 harg9 arg10 harg10 hc0 x0 x1 x2 x3 x4 x5).2.2 (ix3 0 0 d) = 0 + ∑ p : Fin 256, blkH2 x0 x1 x2 x3 x4 x5 p d * blkH2 x0 x1 x2 x3 x4 x5 p d := by
  refine (congrFun (piece8_A (F := Ideal) c i arg2 harg2 arg3 harg3 arg4 harg4 arg5 harg5 arg6 harg6 arg7 harg7 arg8 harg8 arg9 harg9 arg10 harg10 hc0 x0 x1 x2 x3 x4 x5) (ix3 0 0 d)).trans ?_
  refine (k1_pay4_apply _ _ _ d).trans ?_
  rw [pay6_zero]
  exact congrArg (0 + ·) (Finset.sum_congr rfl fun p _ => by rw [pay1_val x0 x1 x2 x3 x4 x5 p d])

theorem out6_B (hc0 : ¬cond1_0 i) (x0 : Vec Ideal S1x256x1280 .bf16) (x1 : Vec Ideal S1x1x64 .f32) (x2 : Vec Ideal S1x1x64 .f32) (x3 : Vec Ideal S1x1x64 .f32) (x4 : Vec Ideal S1x1x64 .f32) (x5 : Vec Ideal S512x64 .f32) (xo7 xo8 : Vec Ideal S1x1x512 .f32) (p : Fin 256) (d : Fin 512) :
    (outsB1 c i arg2 harg2 arg3 harg3 arg4 harg4 arg5 harg5 arg6 harg6 arg7 harg7 arg8 harg8 arg9 harg9 arg10 harg10 hc0 x0 x1 x2 x3 x4 x5 xo7 xo8).1 (ix3 0 p d) = blkH2 x0 x1 x2 x3 x4 x5 p d := by
  refine (congrFun (piece6_B (F := Ideal) c i arg2 harg2 arg3 harg3 arg4 harg4 arg5 harg5 arg6 harg6 arg7 harg7 arg8 harg8 arg9 harg9 arg10 harg10 hc0 x0 x1 x2 x3 x4 x5 xo7 xo8) (ix3 0 p d)).trans ?_
  exact (k1_pay2_apply _ _ p d).trans (pay1_val x0 x1 x2 x3 x4 x5 p d)

theorem out7_B (hc0 : ¬cond1_0 i) (x0 : Vec Ideal S1x256x1280 .bf16) (x1 : Vec Ideal S1x1x64 .f32) (x2 : Vec Ideal S1x1x64 .f32) (x3 : Vec Ideal S1x1x64 .f32) (x4 : Vec Ideal S1x1x64 .f32) (x5 : Vec Ideal S512x64 .f32) (xo7 xo8 : Vec Ideal S1x1x512 .f32) (d : Fin 512) :
    (outsB1 c i arg2 harg2 arg3 harg3 arg4 harg4 arg5 harg5 arg6 harg6 arg7 harg7 arg8 harg8 arg9 harg9 arg10 harg10 hc0 x0 x1 x2 x3 x4 x5 xo7 xo8).2.1 (ix3 0 0 d) = xo7 (ix3 0 0 d) + ∑ p : Fin 256, blkH2 x0 x1 x2 x3 x4 x5 p d := by
  refine (congrFun (piece7_B (F := Ideal) c i arg2 harg2 arg3 harg3 arg4 harg4 arg5 harg5 arg6 harg6 arg7 harg7 arg8 harg8 arg9 harg9 arg10 harg10 hc0 x0 x1 x2 x3 x4 x5 xo7 xo8) (ix3 0 0 d)).trans ?_
  refine (k1_pay3_apply _ _ _ d).trans ?_
  exact congrArg (xo7 (ix3 0 0 d) + ·) (Finset.sum_congr rfl fun p _ => pay1_val x0 x1 x2 x3 x4 x5 p d)

theorem out8_B (hc0 : ¬cond1_0 i) (x0 : Vec Ideal S1x256x1280 .bf16) (x1 : Vec Ideal S1x1x64 .f32) (x2 : Vec Ideal S1x1x64 .f32) (x3 : Vec Ideal S1x1x64 .f32) (x4 : Vec Ideal S1x1x64 .f32) (x5 : Vec Ideal S512x64 .f32) (xo7 xo8 : Vec Ideal S1x1x512 .f32) (d : Fin 512) :
    (outsB1 c i arg2 harg2 arg3 harg3 arg4 harg4 arg5 harg5 arg6 harg6 arg7 harg7 arg8 harg8 arg9 harg9 arg10 harg10 hc0 x0 x1 x2 x3 x4 x5 xo7 xo8).2.2 (ix3 0 0 d) = xo8 (ix3 0 0 d) + ∑ p : Fin 256, blkH2 x0 x1 x2 x3 x4 x5 p d * blkH2 x0 x1 x2 x3 x4 x5 p d := by
  refine (congrFun (piece8_B (F := Ideal) c i arg2 harg2 arg3 harg3 arg4 harg4 arg5 harg5 arg6 harg6 arg7 harg7 arg8 harg8 arg9 harg9 arg10 harg10 hc0 x0 x1 x2 x3 x4 x5 xo7 xo8) (ix3 0 0 d)).trans ?_
  refine (k1_pay4_apply _ _ _ d).trans ?_
  exact congrArg (xo8 (ix3 0 0 d) + ·) (Finset.sum_congr rfl fun p _ => by rw [pay1_val x0 x1 x2 x3 x4 x5 p d])

end Point

end Cert.KernelIdeal.HandV

end
-- ==== Proof.KV.R1.lean ====
import proofs.«401853_j10514079941286_3_alg».proof.Proof.KV.R1Defs
import proofs.«401853_j10514079941286_3_alg».proof.Proof.KV.R1Point
import proofs.«401853_j10514079941286_3_alg».proof.Proof.KI.R1
import proofs.«401853_j10514079941286_3_alg».proof.Proof.KV.Acc
import Idealize.ShloMosaic.Lib.Pipeline.Value

set_option maxRecDepth 16384

noncomputable section

namespace Cert.KernelIdeal.HandV

open Cert.KernelIdeal Cert.KernelIdeal.Gen Cert.KernelIdeal.Hand Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem idx_facts1 : ∀ t : Fin cfg1.N,
    ((∀ a, win1_1.index t a = 0) ∧ (∀ a, win1_2.index t a = 0) ∧ (∀ a, win1_3.index t a = 0) ∧ (∀ a, win1_4.index t a = 0)
      ∧ (∀ a, win1_5.index t a = 0))
    ∧ (win1_0.index t (0 : Fin 3) = t.val / 4 ∧ win1_0.index t (1 : Fin 3) = t.val % 4 ∧ win1_0.index t (2 : Fin 3) = 0)
    ∧ (win1_6.index t (0 : Fin 3) = t.val / 4 ∧ win1_6.index t (1 : Fin 3) = t.val % 4 ∧ win1_6.index t (2 : Fin 3) = 0)
    ∧ (win1_7.index t (0 : Fin 3) = t.val / 4 ∧ win1_7.index t (1 : Fin 3) = 0 ∧ win1_7.index t (2 : Fin 3) = 0)
    ∧ (win1_8.index t (0 : Fin 3) = t.val / 4 ∧ win1_8.index t (1 : Fin 3) = 0 ∧ win1_8.index t (2 : Fin 3) = 0) :=
  (by decide +kernel : ∀ t : Fin grid1.N, _)

def batchOf1 (n : ℕ) (hn : n < cfg1.N) : Fin 8 := ⟨n / 4, by have := lt_of_lt_of_eq hn N_1; omega⟩
def rowOf1 (n : ℕ) (p : Fin 256) : Fin 1024 := ⟨256 * (n % 4) + p.val, by have := p.isLt; omega⟩

-- The block of the edge features at point t is rows 256·(t % 4) … of batch t / 4.
theorem eblk1_apply (c : Dev nD) (t : Fin cfg1.N) (p : Fin 256) (j : Fin 1280) :
    (iblk1 V c 0 t : S1x256x1280.Idx → EReal) (ix3 0 p j)
      = (V c main_v3_0 : S8x1024x1280.Idx → EReal) (ix3 (batchOf1 t.val t.isLt) (rowOf1 t.val p) j) := by
  obtain ⟨-, ⟨e0, e1, e2⟩, -⟩ := idx_facts1 t
  unfold iblk1
  rw [View.read_apply]
  refine congrArg (V c main_v3_0 : S8x1024x1280.Idx → EReal) (funext fun a => Fin.ext ?_)
  match a with
  | ⟨0, _⟩ => show win1_0.index t (0 : Fin 3) * 1 + 1 * 0 = t.val / 4; omega
  | ⟨1, _⟩ => show win1_0.index t (1 : Fin 3) * 256 + 1 * p.val = 256 * (t.val % 4) + p.val; omega
  | ⟨2, _⟩ => show win1_0.index t (2 : Fin 3) * 1280 + 1 * j.val = j.val; omega

-- The other five blocks are their whole arrays.
theorem wblk1 (c : Dev nD) (t : Fin cfg1.N) :
    (iblk1 V c 1 t : S1x1x64.Idx → EReal) = V c main_v16 ∧ (iblk1 V c 2 t : S1x1x64.Idx → EReal) = V c main_v17
    ∧ (iblk1 V c 3 t : S1x1x64.Idx → EReal) = V c main_v18 ∧ (iblk1 V c 4 t : S1x1x64.Idx → EReal) = V c main_v19
    ∧ (iblk1 V c 5 t : S512x64.Idx → EReal) = V c main_arg5 := by
  obtain ⟨⟨h1, h2, h3, h4, h5⟩, -⟩ := idx_facts1 t
  unfold iblk1
  exact ⟨funext fun y => (View.read_apply _ y).trans (congrArg (V c main_v16 : S1x1x64.Idx → EReal) (funext fun a => Fin.ext (win1_1.rect_emb_val_of_index_zero t a (h1 a) y))),
    funext fun y => (View.read_apply _ y).trans (congrArg (V c main_v17 : S1x1x64.Idx → EReal) (funext fun a => Fin.ext (win1_2.rect_emb_val_of_index_zero t a (h2 a) y))),
    funext fun y => (View.read_apply _ y).trans (congrArg (V c main_v18 : S1x1x64.Idx → EReal) (funext fun a => Fin.ext (win1_3.rect_emb_val_of_index_zero t a (h3 a) y))),
    funext fun y => (View.read_apply _ y).trans (congrArg (V c main_v19 : S1x1x64.Idx → EReal) (funext fun a => Fin.ext (win1_4.rect_emb_val_of_index_zero t a (h4 a) y))),
    funext fun y => (View.read_apply _ y).trans (congrArg (V c main_arg5 : S512x64.Idx → EReal) (funext fun a => Fin.ext (win1_5.rect_emb_val_of_index_zero t a (h5 a) y)))⟩

def h2Pt (c : Dev nD) (t : Fin cfg1.N) (p : Fin 256) (d : Fin 512) : EReal :=
  h2Of V c (batchOf1 t.val t.isLt) (rowOf1 t.val p) d

theorem blk_h2 (c : Dev nD) (t : Fin cfg1.N) (p : Fin 256) (d : Fin 512) :
    blkH2 (iblk1 V c 0 t) (iblk1 V c 1 t) (iblk1 V c 2 t) (iblk1 V c 3 t) (iblk1 V c 4 t) (iblk1 V c 5 t) p d = h2Pt V c t p d := by
  obtain ⟨h1, h2, h3, h4, h5⟩ := wblk1 V c t
  rw [h1, h2, h3, h4, h5]
  unfold blkH2 h2Pt h2Of Spec.proj2 Spec.hmax Spec.act1w eOf v64 Spec.cur2
  simp only [eblk1_apply V c t]

-- What a first point of a batch leaves: its tile's rows, and their sums started from zero.
theorem outs1_A (c : Dev nD) (t : Fin cfg1.N) (h0 : t.val % 4 = 0) (d : Fin 512) :
    (∀ p, (outsAt1 V c t.val t.isLt).1 (ix3 0 p d) = h2Pt V c t p d)
    ∧ (outsAt1 V c t.val t.isLt).2.1 (ix3 0 0 d) = ∑ p, h2Pt V c t p d
    ∧ (outsAt1 V c t.val t.isLt).2.2 (ix3 0 0 d) = ∑ p, h2Pt V c t p d * h2Pt V c t p d := by
  rw [outsAt1_A V c t h0]
  simp only [out6_A, out7_A, out8_A, blk_h2 V c t, zero_add, implies_true, and_self]

-- What a later point leaves: its tile's rows, and their sums added to what the point before left.
theorem outs1_B (c : Dev nD) (t : Fin cfg1.N) (h0 : ¬t.val % 4 = 0) (d : Fin 512) :
    (∀ p, (outsAt1 V c t.val t.isLt).1 (ix3 0 p d) = h2Pt V c t p d)
    ∧ (outsAt1 V c t.val t.isLt).2.1 (ix3 0 0 d)
        = (outsAt1 V c (t.val - 1) (Nat.lt_of_le_of_lt (Nat.sub_le _ _) t.isLt)).2.1 (ix3 0 0 d) + ∑ p, h2Pt V c t p d
    ∧ (outsAt1 V c t.val t.isLt).2.2 (ix3 0 0 d)
        = (outsAt1 V c (t.val - 1) (Nat.lt_of_le_of_lt (Nat.sub_le _ _) t.isLt)).2.2 (ix3 0 0 d) + ∑ p, h2Pt V c t p d * h2Pt V c t p d := by
  rw [outsAt1_B V c t h0]
  simp only [out6_B, out7_B, out8_B, blk_h2 V c t, implies_true, and_self]

theorem batchOf1_congr {n n' : ℕ} (h : n < cfg1.N) (h' : n' < cfg1.N) (e : n / 4 = n' / 4) : batchOf1 n h = batchOf1 n' h' := Fin.ext e

-- After a batch's last point the two sums hold the batch's column sum and sum of squares.
theorem sums2_last (c : Dev nD) (t : Fin cfg1.N) (h3 : t.val % 4 = 3) (d : Fin 512) :
    (outsAt1 V c t.val t.isLt).2.1 (ix3 0 0 d) = Spec.colsum2 (h2Of V c) (batchOf1 t.val t.isLt) d
    ∧ (outsAt1 V c t.val t.isLt).2.2 (ix3 0 0 d) = Spec.colsumsq2 (h2Of V c) (batchOf1 t.val t.isLt) d :=
  ⟨fold_tiles (fun n h d => (outsAt1 V c n h).2.1 (ix3 0 0 d)) (fun n h row d => h2Of V c (batchOf1 n h) row d)
      (fun n n' h h' e => by rw [batchOf1_congr h h' e]) (fun n h hn d => (outs1_A V c ⟨n, h⟩ hn d).2.1)
      (fun n h hn d => (outs1_B V c ⟨n + 1, h⟩ hn d).2.1) t.val t.isLt h3 d,
    fold_tiles (fun n h d => (outsAt1 V c n h).2.2 (ix3 0 0 d))
      (fun n h row d => h2Of V c (batchOf1 n h) row d * h2Of V c (batchOf1 n h) row d)
      (fun n n' h h' e => by rw [batchOf1_congr h h' e]) (fun n h hn d => (outs1_A V c ⟨n, h⟩ hn d).2.2)
      (fun n h hn d => (outs1_B V c ⟨n + 1, h⟩ hn d).2.2) t.val t.isLt h3 d⟩

def ptOf1 (b : Fin 8) (j : ℕ) (hj : j < 4) : Fin cfg1.N := ⟨4 * b.val + j, by have := b.isLt; have : cfg1.N = 32 := N_1; omega⟩

def H2Arr (c : Dev nD) : S8x1024x512.Idx → EReal := fun i => h2Of V c (i 0) (i 1) (i 2)
def Sum2Arr (c : Dev nD) : S8x1x512.Idx → EReal := fun i => Spec.colsum2 (h2Of V c) (i 0) (i 2)
def Sumsq2Arr (c : Dev nD) : S8x1x512.Idx → EReal := fun i => Spec.colsumsq2 (h2Of V c) (i 0) (i 2)

theorem emb1_6 (t : Fin cfg1.N) (p : Fin 256) (d : Fin 512) (b : Fin 8) (n : Fin 1024) (hb : b.val = t.val / 4)
    (hn : n.val = 256 * (t.val % 4) + p.val) : ((cfg1.win 6).blk t).view.emb (ix3 (0 : Fin 1) p d) = ix3 b n d := by
  obtain ⟨-, -, ⟨e0, e1, e2⟩, -⟩ := idx_facts1 t
  funext a; apply Fin.ext
  match a with
  | ⟨0, _⟩ => show win1_6.index t (0 : Fin 3) * 1 + 1 * 0 = b.val; omega
  | ⟨1, _⟩ => show win1_6.index t (1 : Fin 3) * 256 + 1 * p.val = n.val; omega
  | ⟨2, _⟩ => show win1_6.index t (2 : Fin 3) * 512 + 1 * d.val = d.val; omega

theorem emb1_7 (t : Fin cfg1.N) (d : Fin 512) (b : Fin 8) (hb : b.val = t.val / 4) :
    ((cfg1.win 7).blk t).view.emb (ix3 (0 : Fin 1) (0 : Fin 1) d) = ix3 b (0 : Fin 1) d := by
  obtain ⟨-, -, -, ⟨e0, e1, e2⟩, -⟩ := idx_facts1 t
  funext a; apply Fin.ext
  match a with
  | ⟨0, _⟩ => show win1_7.index t (0 : Fin 3) * 1 + 1 * 0 = b.val; omega
  | ⟨1, _⟩ => show win1_7.index t (1 : Fin 3) * 1 + 1 * 0 = 0; omega
  | ⟨2, _⟩ => show win1_7.index t (2 : Fin 3) * 512 + 1 * d.val = d.val; omega

theorem emb1_8 (t : Fin cfg1.N) (d : Fin 512) (b : Fin 8) (hb : b.val = t.val / 4) :
    ((cfg1.win 8).blk t).view.emb (ix3 (0 : Fin 1) (0 : Fin 1) d) = ix3 b (0 : Fin 1) d := by
  obtain ⟨-, -, -, -, e0, e1, e2⟩ := idx_facts1 t
  funext a; apply Fin.ext
  match a with
  | ⟨0, _⟩ => show win1_8.index t (0 : Fin 3) * 1 + 1 * 0 = b.val; omega
  | ⟨1, _⟩ => show win1_8.index t (1 : Fin 3) * 1 + 1 * 0 = 0; omega
  | ⟨2, _⟩ => show win1_8.index t (2 : Fin 3) * 512 + 1 * d.val = d.val; omega

theorem flushed1_6_eq (c : Dev nD) (t : Fin cfg1.N) :
    (dat1 V c).flushed 6 t = ((cfg1.win 6).blk t).view.read (Elt Ideal) (H2Arr V c) := by
  refine funext (forall_idx1 (n1 := 256) (n2 := 512) fun p d => ?_)
  show (outsAt1 V c t.val t.isLt).1 (ix3 0 p d) = H2Arr V c (((cfg1.win 6).blk t).view.emb (ix3 0 p d))
  rw [emb1_6 t p d (batchOf1 t.val t.isLt) (rowOf1 t.val p) rfl rfl]
  by_cases h0 : t.val % 4 = 0
  · exact (outs1_A V c t h0 d).1 p
  · exact (outs1_B V c t h0 d).1 p

theorem flushed1_7_eq (c : Dev nD) (t : Fin cfg1.N) (hf : (cfg1.win 7).flush t = true) :
    (dat1 V c).flushed 7 t = ((cfg1.win 7).blk t).view.read (Elt Ideal) (Sum2Arr V c) := by
  refine funext (forall_idx1 (n1 := 1) (n2 := 512) fun p d => ?_)
  obtain rfl : p = 0 := Subsingleton.elim _ _
  show (outsAt1 V c t.val t.isLt).2.1 (ix3 0 0 d) = Sum2Arr V c (((cfg1.win 7).blk t).view.emb (ix3 0 0 d))
  rw [emb1_7 t d (batchOf1 t.val t.isLt) rfl]
  exact (sums2_last V c t ((flush1_7 t).mp hf) d).1

theorem flushed1_8_eq (c : Dev nD) (t : Fin cfg1.N) (hf : (cfg1.win 8).flush t = true) :
    (dat1 V c).flushed 8 t = ((cfg1.win 8).blk t).view.read (Elt Ideal) (Sumsq2Arr V c) := by
  refine funext (forall_idx1 (n1 := 1) (n2 := 512) fun p d => ?_)
  obtain rfl : p = 0 := Subsingleton.elim _ _
  show (outsAt1 V c t.val t.isLt).2.2 (ix3 0 0 d) = Sumsq2Arr V c (((cfg1.win 8).blk t).view.emb (ix3 0 0 d))
  rw [emb1_8 t d (batchOf1 t.val t.isLt) rfl]
  exact (sums2_last V c t ((flush1_8 t).mp hf) d).2

theorem h2_arr (c : Dev nD) (b : Fin 8) (n : Fin 1024) (d : Fin 512) :
    (dat1 V c).arrAt 6 cfg1.N (ix3 b n d) = h2Of V c b n d :=
  have hn := n.isLt
  (dat1 V c).arrAt_of_emb 6 (H2Arr V c) (fun t _ => flushed1_6_eq V c t) (ptOf1 b (n.val / 256) (by omega)) (flush1_6 _)
    (ix3 0 ⟨n.val % 256, by omega⟩ d) (emb1_6 _ _ d b n (by show b.val = (4 * b.val + n.val / 256) / 4; omega)
      (by show n.val = 256 * ((4 * b.val + n.val / 256) % 4) + n.val % 256; omega))

theorem sum2_arr (c : Dev nD) (b : Fin 8) (d : Fin 512) :
    (dat1 V c).arrAt 7 cfg1.N (ix3 b 0 d) = Spec.colsum2 (h2Of V c) b d :=
  (dat1 V c).arrAt_of_emb 7 (Sum2Arr V c) (flushed1_7_eq V c) (ptOf1 b 3 (by omega))
    ((flush1_7 _).mpr (by show (4 * b.val + 3) % 4 = 3; omega)) (ix3 0 0 d)
    (emb1_7 _ d b (by show b.val = (4 * b.val + 3) / 4; omega))

theorem sumsq2_arr (c : Dev nD) (b : Fin 8) (d : Fin 512) :
    (dat1 V c).arrAt 8 cfg1.N (ix3 b 0 d) = Spec.colsumsq2 (h2Of V c) b d :=
  (dat1 V c).arrAt_of_emb 8 (Sumsq2Arr V c) (flushed1_8_eq V c) (ptOf1 b 3 (by omega))
    ((flush1_8 _).mpr (by show (4 * b.val + 3) % 4 = 3; omega)) (ix3 0 0 d)
    (emb1_8 _ d b (by show b.val = (4 * b.val + 3) / 4; omega))

end Cert.KernelIdeal.HandV

end
-- ==== Proof.KV.R2.lean ====
import proofs.«401853_j10514079941286_3_alg».proof.Proof.SpecK
import proofs.«401853_j10514079941286_3_alg».proof.Proof.KI.R2
import Idealize.ShloMosaic.Lib.Pipeline.Value
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem r2_leaky_scalar (v : EReal) :
    Scalar.select (Ideal.cmp .oge v (Ideal.ofBits .f32 0x00000000#32)) v (Ideal.ofBits .f32 0x3E4CCCCD#32 * v) = Spec.leaky v := by
  rw [Ideal.ofBits_zero_f32]
  unfold Spec.leaky Spec.slope Ideal.cmp
  by_cases h : (0 : EReal) ≤ v
  · simp only [h, decide_true, if_true]; exact select_one _ _
  · simp only [h, decide_false, if_false]; exact select_zero _ _

theorem r2_pay_apply (x0 : Vec Ideal S1024x512 .f32) (x1 x2 x3 x4 : Vec Ideal S1x512 .f32) (p : Fin 1024) (q : Fin 512) :
    (k2_pay1 x0 x1 x2 x3 x4 : FVec Ideal S1024x512 .f32) (ix2 p q)
      = Spec.leaky (Spec.bn (x0 (ix2 p q)) (x1 (ix2 0 q)) (x2 (ix2 0 q)) (x3 (ix2 0 q)) (x4 (ix2 0 q))) := by
  unfold k2_pay1
  simp only [shapeCast_self]
  simp only [select_apply, cmpf_apply, mulf_apply, addf_apply, subf_apply, broadcast_apply, broadcastTo_1b_ab_apply,
    Ideal.cmpf_def, Ideal.ofBits_def]
  exact r2_leaky_scalar _

theorem r2_pay_apply' (x0 : Vec Ideal S1024x512 .f32) (x1 x2 x3 x4 : Vec Ideal S1x512 .f32) (j : S1024x512.Idx) :
    (k2_pay1 x0 x1 x2 x3 x4 : FVec Ideal S1024x512 .f32) j
      = Spec.leaky (Spec.bn (x0 j) (x1 (ix2 (0 : Fin 1) (j 1 : Fin 512))) (x2 (ix2 (0 : Fin 1) (j 1 : Fin 512)))
          (x3 (ix2 (0 : Fin 1) (j 1 : Fin 512))) (x4 (ix2 (0 : Fin 1) (j 1 : Fin 512)))) := by
  obtain ⟨p, q, rfl⟩ : ∃ (p : Fin 1024) (q : Fin 512), j = ix2 p q := ⟨j 0, j 1, eq_ix2 j⟩
  exact r2_pay_apply x0 x1 x2 x3 x4 p q

theorem r2_hz2 : (![0, 0] : Fin 2 → Nat) = fun _ => 0 := funext fun a => by fin_cases a <;> rfl

def r2_G5 (c : Dev nD) : S8192x512.Idx → EReal := fun i =>
  Spec.leaky (Spec.bn ((V c main_v37 : S8192x512.Idx → EReal) i)
    ((V c main_v33 : S1x512.Idx → EReal) (ix2 (0 : Fin 1) (i 1 : Fin 512)))
    ((V c main_v34 : S1x512.Idx → EReal) (ix2 (0 : Fin 1) (i 1 : Fin 512)))
    ((V c main_v35 : S1x512.Idx → EReal) (ix2 (0 : Fin 1) (i 1 : Fin 512)))
    ((V c main_v36 : S1x512.Idx → EReal) (ix2 (0 : Fin 1) (i 1 : Fin 512))))

theorem r2_idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem r2_flushed5_eq (c : Dev nD) (t : Fin cfg2.N) :
    (dat2 V c).flushed 5 t = ((cfg2.win 5).blk t).view.read (Elt Ideal) (r2_G5 V c) := by
  show (cfg2.win 5).cut (grid2.coords t) ((dat2 V c).after 5 t) = _
  rw [after2_5]
  unfold out2_5
  rw [View.canon_unit_zero r2_hz2]
  simp only [View.ld_unit_zero (S := S1024x512) r2_hz2, View.ld_unit_zero (S := S1x512) r2_hz2]
  obtain ⟨e00, e01, e10, e11, e20, e21, e30, e31, e40, e41, e50, e51⟩ := r2_idx_facts2 t
  funext j
  refine (r2_pay_apply' (iblk2 V c 0 t) (iblk2 V c 1 t) (iblk2 V c 2 t) (iblk2 V c 3 t) (iblk2 V c 4 t) j).trans ?_
  show Spec.leaky (Spec.bn (V c main_v37 (((cfg2.win 0).blk t).view.emb j))
        (V c main_v33 (((cfg2.win 1).blk t).view.emb (ix2 (0 : Fin 1) (j 1 : Fin 512))))
        (V c main_v34 (((cfg2.win 2).blk t).view.emb (ix2 (0 : Fin 1) (j 1 : Fin 512))))
        (V c main_v35 (((cfg2.win 3).blk t).view.emb (ix2 (0 : Fin 1) (j 1 : Fin 512))))
        (V c main_v36 (((cfg2.win 4).blk t).view.emb (ix2 (0 : Fin 1) (j 1 : Fin 512)))))
      = r2_G5 V c (((cfg2.win 5).blk t).view.emb j)
  have h0 : ((cfg2.win 0).blk t).view.emb j = ((cfg2.win 5).blk t).view.emb j := by
    funext a; apply Fin.ext
    match a with
    | ⟨0, _⟩ => show win2_0.index t (0 : Fin 2) * 1024 + 1 * (j 0).val = win2_5.index t (0 : Fin 2) * 1024 + 1 * (j 0).val; rw [e00, e50]
    | ⟨1, _⟩ => show win2_0.index t (1 : Fin 2) * 512 + 1 * (j 1).val = win2_5.index t (1 : Fin 2) * 512 + 1 * (j 1).val; rw [e01, e51]
  have h1 : ((cfg2.win 1).blk t).view.emb (ix2 (0 : Fin 1) (j 1 : Fin 512))
      = (ix2 (0 : Fin 1) ((((cfg2.win 5).blk t).view.emb j) 1 : Fin 512) : S1x512.Idx) := by
    funext a; apply Fin.ext
    match a with
    | ⟨0, _⟩ => show win2_1.index t (0 : Fin 2) * 1 + 1 * 0 = 0; rw [e10]
    | ⟨1, _⟩ => show win2_1.index t (1 : Fin 2) * 512 + 1 * (j 1).val = win2_5.index t (1 : Fin 2) * 512 + 1 * (j 1).val; rw [e11, e51]
  have h2 : ((cfg2.win 2).blk t).view.emb (ix2 (0 : Fin 1) (j 1 : Fin 512))
      = (ix2 (0 : Fin 1) ((((cfg2.win 5).blk t).view.emb j) 1 : Fin 512) : S1x512.Idx) := by
    funext a; apply Fin.ext
    match a with
    | ⟨0, _⟩ => show win2_2.index t (0 : Fin 2) * 1 + 1 * 0 = 0; rw [e20]
    | ⟨1, _⟩ => show win2_2.index t (1 : Fin 2) * 512 + 1 * (j 1).val = win2_5.index t (1 : Fin 2) * 512 + 1 * (j 1).val; rw [e21, e51]
  have h3 : ((cfg2.win 3).blk t).view.emb (ix2 (0 : Fin 1) (j 1 : Fin 512))
      = (ix2 (0 : Fin 1) ((((cfg2.win 5).blk t).view.emb j) 1 : Fin 512) : S1x512.Idx) := by
    funext a; apply Fin.ext
    match a with
    | ⟨0, _⟩ => show win2_3.index t (0 : Fin 2) * 1 + 1 * 0 = 0; rw [e30]
    | ⟨1, _⟩ => show win2_3.index t (1 : Fin 2) * 512 + 1 * (j 1).val = win2_5.index t (1 : Fin 2) * 512 + 1 * (j 1).val; rw [e31, e51]
  have h4 : ((cfg2.win 4).blk t).view.emb (ix2 (0 : Fin 1) (j 1 : Fin 512))
      = (ix2 (0 : Fin 1) ((((cfg2.win 5).blk t).view.emb j) 1 : Fin 512) : S1x512.Idx) := by
    funext a; apply Fin.ext
    match a with
    | ⟨0, _⟩ => show win2_4.index t (0 : Fin 2) * 1 + 1 * 0 = 0; rw [e40]
    | ⟨1, _⟩ => show win2_4.index t (1 : Fin 2) * 512 + 1 * (j 1).val = win2_5.index t (1 : Fin 2) * 512 + 1 * (j 1).val; rw [e41, e51]
  rw [h0, h1, h2, h3, h4]
  rfl

theorem r2_mem_blk5 (t : Fin cfg2.N) (i : S8192x512.Idx) :
    i ∈ ((cfg2.win 5).blk t).view.set ↔ ∀ a : Fin 2, win2_5.index t a * S1024x512.size a ≤ (i a).val ∧ (i a).val < win2_5.index t a * S1024x512.size a + S1024x512.size a := by
  show i ∈ ((View.whole main_v38).slice (win2_5.rect t)).set ↔ _
  rw [View.set_slice_whole, Rect.mem_set_unit]
  exact Iff.rfl

theorem r2_cover5 (i : S8192x512.Idx) :
    ∃ t : Fin cfg2.N, (cfg2.win 5).flush t = true ∧ i ∈ ((cfg2.win 5).blk t).view.set := by
  have hi0 : (i 0).val < 8192 := (i 0).isLt
  have hi1 : (i 1).val < 512 := (i 1).isLt
  have hN : cfg2.N = 8 := N_2
  have hlt : (i 0).val / 1024 < cfg2.N := by rw [hN]; omega
  obtain ⟨-, -, -, -, -, -, -, -, -, -, e50, e51⟩ := r2_idx_facts2 ⟨(i 0).val / 1024, hlt⟩
  have e50' : win2_5.index ⟨(i 0).val / 1024, hlt⟩ (0 : Fin 2) = (i 0).val / 1024 := e50
  refine ⟨⟨(i 0).val / 1024, hlt⟩, flush2_5 _, ?_⟩
  rw [r2_mem_blk5]
  intro a
  match a with
  | ⟨0, _⟩ =>
    show win2_5.index ⟨(i 0).val / 1024, hlt⟩ (0 : Fin 2) * 1024 ≤ (i 0).val ∧ (i 0).val < win2_5.index ⟨(i 0).val / 1024, hlt⟩ (0 : Fin 2) * 1024 + 1024
    rw [e50']; omega
  | ⟨1, _⟩ =>
    show win2_5.index ⟨(i 0).val / 1024, hlt⟩ (1 : Fin 2) * 512 ≤ (i 1).val ∧ (i 1).val < win2_5.index ⟨(i 0).val / 1024, hlt⟩ (1 : Fin 2) * 512 + 512
    rw [e51]; omega

theorem r2_final5 (c : Dev nD) : (dat2 V c).arrAt 5 cfg2.N = r2_G5 V c :=
  (dat2 V c).arrAt_eq_of_cover 5 (r2_G5 V c) (fun t _ => r2_flushed5_eq V c t) r2_cover5

theorem out_arr (c : Dev nD) (r : Fin 8192) (d : Fin 512) : (dat2 V c).arrAt 5 cfg2.N (ValueIdx.ix2 r d)
    = Spec.leaky (Spec.bn (V c main_v37 (ValueIdx.ix2 r d)) (V c main_v33 (ValueIdx.ix2 0 d)) (V c main_v34 (ValueIdx.ix2 0 d))
        (V c main_v35 (ValueIdx.ix2 0 d)) (V c main_v36 (ValueIdx.ix2 0 d))) := by
  rw [r2_final5]
  rfl

end Cert.KernelIdeal.HandV

end
-- ==== Proof.KV.Host.lean ====
import proofs.«401853_j10514079941286_3_alg».proof.Proof.SpecK
import proofs.«401853_j10514079941286_3_alg».proof.Proof.Gen.KernelIdeal.Launch
import Idealize.ShloMosaic.Lib.StableHlo.Run
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

namespace Cert.KernelIdeal.HandV

open Cert.KernelIdeal Cert.KernelIdeal.Gen Cert.Spec
open Idealize.ShloMosaic Idealize.ShloMosaic.TcCoe Idealize.ShloMosaic.ValueIdx
open Idealize.ShloMosaic.StableHlo (after)

variable (W : Valuation τ sig (Elt Ideal))

theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

theorem shapeCast_b_11b_apply {α : Type} {b : ℕ} (x : (⟨1, ![b]⟩ : Shape).Idx → α)
    (h : (⟨1, ![b]⟩ : Shape).ShapeCasts ⟨3, ![1, 1, b]⟩) (j : Fin b) :
    shapeCast ⟨3, ![1, 1, b]⟩ x h (ix3 (0 : Fin 1) (0 : Fin 1) j) = x (ix1 j) :=
  shapeCast_apply x h _ _ (by
    rw [Shape.rowMajor_val_three, Shape.rowMajor_val_one]
    show j.val = (0 * 1 + 0) * b + j.val
    omega)

theorem shapeCast_b_1b_apply {α : Type} {b : ℕ} (x : (⟨1, ![b]⟩ : Shape).Idx → α)
    (h : (⟨1, ![b]⟩ : Shape).ShapeCasts ⟨2, ![1, b]⟩) (j : Fin b) :
    shapeCast ⟨2, ![1, b]⟩ x h (ix2 (0 : Fin 1) j) = x (ix1 j) :=
  shapeCast_apply x h _ _ (by
    rw [Shape.rowMajor_val_two, Shape.rowMajor_val_one]
    show j.val = 0 * b + j.val
    omega)

theorem hostReduce0_64 (x : FVec Ideal S8x64 .f32) (init : EReal) (m : Fin 64) :
    Ideal.hostReduceAdd reducesTo_S8x64_S64_d0 x init (ix1 m) = init + ∑ b : Fin 8, x (ix2 b m) := by
  have h : S8x64.Reduces [0] S64 := by decide
  rw [Ideal.hostReduceAdd_single reducesTo_S8x64_S64_d0 h]
  refine congrArg (init + ·) (Finset.sum_congr rfl fun b _ => congrArg x ?_)
  funext c; apply Fin.ext
  match c with
  | ⟨0, _⟩ => rfl
  | ⟨1, _⟩ => rfl

theorem hostReduce0_512 (x : FVec Ideal S8x512 .f32) (init : EReal) (d : Fin 512) :
    Ideal.hostReduceAdd reducesTo_S8x512_S512_d0 x init (ix1 d) = init + ∑ b : Fin 8, x (ix2 b d) := by
  have h : S8x512.Reduces [0] S512 := by decide
  rw [Ideal.hostReduceAdd_single reducesTo_S8x512_S512_d0 h]
  refine congrArg (init + ·) (Finset.sum_congr rfl fun b _ => congrArg x ?_)
  funext c; apply Fin.ext
  match c with
  | ⟨0, _⟩ => rfl
  | ⟨1, _⟩ => rfl

def sumB64 (a : S8x1x64.Idx → EReal) : S64.Idx → EReal :=
  Host.reduceAdd (F := Ideal) (shapeCast S8x64 a shapeCasts_S8x1x64_S8x64) (constant (F := Ideal) S_ .f32 0x00000000#32)
    reducesTo_S8x64_S64_d0 h_S_

theorem sumB64_apply (a : S8x1x64.Idx → EReal) (m : Fin 64) : sumB64 a (ix1 m) = ∑ b : Fin 8, a (ix3 b (0 : Fin 1) m) := by
  unfold sumB64
  rw [hostReduceAdd_apply, hostReduce0_64, constant_apply, Ideal.ofBits_zero_f32, zero_add]
  simp only [shapeCast_a1b_ab_apply]

def sumB512 (a : S8x1x512.Idx → EReal) : S512.Idx → EReal :=
  Host.reduceAdd (F := Ideal) (shapeCast S8x512 a shapeCasts_S8x1x512_S8x512) (constant (F := Ideal) S_ .f32 0x00000000#32)
    reducesTo_S8x512_S512_d0 h_S_

theorem sumB512_apply (a : S8x1x512.Idx → EReal) (d : Fin 512) : sumB512 a (ix1 d) = ∑ b : Fin 8, a (ix3 b (0 : Fin 1) d) := by
  unfold sumB512
  rw [hostReduceAdd_apply, hostReduce0_512, constant_apply, Ideal.ofBits_zero_f32, zero_add]
  simp only [shapeCast_a1b_ab_apply]

theorem host0_v0 (b : Fin 8) (n : Fin 1024) (k : Fin 20) :
    (StableHlo.after hostOps0_2 (StableHlo.after hostOps0_1 (StableHlo.after hostOps0 W)) (Proc.devRef .tc main_v0) : S8x1024x20.Idx → BitVec 32) (ix3 b n k)
      = IntOp.minsi 1023#32 (IntOp.maxsi 0#32 ((W (Proc.devRef .tc main_arg1) : S8x1024x20.Idx → BitVec 32) (ix3 b n k))) := by
  after_results
  show IntOp.minsi (broadcastInDim S8x1024x20 ![] bcast_S_S8x1024x20 (constantI S_ 32 1023#32) (ix3 b n k))
      (IntOp.maxsi (broadcastInDim S8x1024x20 ![] bcast_S_S8x1024x20 (constantI S_ 32 0#32) (ix3 b n k))
        ((W (Proc.devRef .tc main_arg1) : S8x1024x20.Idx → BitVec 32) (ix3 b n k))) = _
  rw [broadcastInDim_scalar_apply, broadcastInDim_scalar_apply]
  rfl

theorem clip_inrange (w : BitVec 32) (h0 : 0 ≤ w.toInt) (h1 : w.toInt < 1024) :
    IntOp.minsi 1023#32 (IntOp.maxsi 0#32 w) = w := by
  unfold IntOp.minsi IntOp.maxsi
  have e0 : (0#32 : BitVec 32).toInt = 0 := by decide
  have e1 : (1023#32 : BitVec 32).toInt = 1023 := by decide
  have hA : ¬ (w.slt 0#32 = true) := by
    rw [BitVec.slt, decide_eq_true_eq, e0]; omega
  rw [if_neg hA]
  have hB : ¬ ((1023#32 : BitVec 32).slt w = true) := by
    rw [BitVec.slt, decide_eq_true_eq, e1]; omega
  rw [if_neg hB]

theorem host0_v1 (m : Fin 64) (c : Fin 512) :
    (StableHlo.after hostOps0_2 (StableHlo.after hostOps0_1 (StableHlo.after hostOps0 W)) (Proc.devRef .tc main_v1) : S64x512.Idx → EReal) (ix2 m c)
      = (W (Proc.devRef .tc main_arg2) : S64x1024.Idx → EReal) (ix2 m (⟨c.val, by omega⟩ : Fin 1024)) := by
  after_results
  show extractStridedSlice S64x512 ![0, 0] (W (Proc.devRef .tc main_arg2) : S64x1024.Idx → EReal) slices_S64x1024_S64x512_0_0 (ix2 m c) = _
  refine extractStridedSlice_apply _ _ _ _ _ fun a => ?_
  match a with
  | ⟨0, _⟩ => show m.val = 0 + m.val; omega
  | ⟨1, _⟩ => show c.val = 0 + c.val; omega

theorem host0_v2 (m : Fin 64) (c : Fin 512) :
    (StableHlo.after hostOps0_2 (StableHlo.after hostOps0_1 (StableHlo.after hostOps0 W)) (Proc.devRef .tc main_v2) : S64x512.Idx → EReal) (ix2 m c)
      = (W (Proc.devRef .tc main_arg2) : S64x1024.Idx → EReal) (ix2 m (⟨512 + c.val, by omega⟩ : Fin 1024)) := by
  after_results
  show extractStridedSlice S64x512 ![0, 512] (W (Proc.devRef .tc main_arg2) : S64x1024.Idx → EReal) slices_S64x1024_S64x512_0_512 (ix2 m c) = _
  refine extractStridedSlice_apply _ _ _ _ _ fun a => ?_
  match a with
  | ⟨0, _⟩ => show m.val = 0 + m.val; omega
  | ⟨1, _⟩ => show 512 + c.val = 512 + c.val; rfl

theorem host1_v16 (m : Fin 64) :
    (StableHlo.after hostOps1 W (Proc.devRef .tc main_v16) : S1x1x64.Idx → EReal) (ix3 0 0 m)
      = Spec.meanOf1 (fun b m => (W (Proc.devRef .tc main_v3_1) : S8x1x64.Idx → EReal) (ix3 b 0 m)) m := by
  after_results
  show shapeCast S1x1x64 (Host.divf (F := Ideal) (sumB64 (W (Proc.devRef .tc main_v3_1)))
      (broadcastInDim S64 ![] bcast_S_S64 (constant (F := Ideal) S_ .f32 0x48200000#32))) shapeCasts_S64_S1x1x64 (ix3 0 0 m) = _
  simp only [shapeCast_b_11b_apply, hostDivf_apply, sumB64_apply, broadcastInDim_scalar_apply, constant_apply]
  rfl

theorem host1_v17 (m : Fin 64) :
    (StableHlo.after hostOps1 W (Proc.devRef .tc main_v17) : S1x1x64.Idx → EReal) (ix3 0 0 m)
      = Spec.varOf1 (fun b m => (W (Proc.devRef .tc main_v3_1) : S8x1x64.Idx → EReal) (ix3 b 0 m))
          (fun b m => (W (Proc.devRef .tc main_v3_2) : S8x1x64.Idx → EReal) (ix3 b 0 m)) m := by
  after_results
  show shapeCast S1x1x64 (maximumf (subf
        (Host.divf (F := Ideal) (sumB64 (W (Proc.devRef .tc main_v3_2))) (broadcastInDim S64 ![] bcast_S_S64 (constant (F := Ideal) S_ .f32 0x48200000#32)))
        (mulf (Host.divf (F := Ideal) (sumB64 (W (Proc.devRef .tc main_v3_1))) (broadcastInDim S64 ![] bcast_S_S64 (constant (F := Ideal) S_ .f32 0x48200000#32)))
          (Host.divf (F := Ideal) (sumB64 (W (Proc.devRef .tc main_v3_1))) (broadcastInDim S64 ![] bcast_S_S64 (constant (F := Ideal) S_ .f32 0x48200000#32)))))
      (broadcastInDim S64 ![] bcast_S_S64 (constant (F := Ideal) S_ .f32 0x00000000#32))) shapeCasts_S64_S1x1x64 (ix3 0 0 m) = _
  have hb (w : BitVec 32) : broadcastInDim S64 ![] bcast_S_S64 (constant (F := Ideal) S_ .f32 w) (ix1 m) = Ideal.ofBits .f32 w :=
    broadcastInDim_scalar_apply _ _ _
  simp only [shapeCast_b_11b_apply, maximumf_apply, subf_apply, mulf_apply, hostDivf_apply, sumB64_apply, hb,
    Ideal.ofBits_zero_f32]
  rfl

theorem host1_v18 (m : Fin 64) :
    (StableHlo.after hostOps1 W (Proc.devRef .tc main_v18) : S1x1x64.Idx → EReal) (ix3 0 0 m)
      = (W (Proc.devRef .tc main_arg3) : S64.Idx → EReal) (ix1 m) := by
  after_results
  show shapeCast S1x1x64 (W (Proc.devRef .tc main_arg3) : S64.Idx → EReal) shapeCasts_S64_S1x1x64 (ix3 0 0 m) = _
  exact shapeCast_b_11b_apply _ _ m

theorem host1_v19 (m : Fin 64) :
    (StableHlo.after hostOps1 W (Proc.devRef .tc main_v19) : S1x1x64.Idx → EReal) (ix3 0 0 m)
      = (W (Proc.devRef .tc main_arg4) : S64.Idx → EReal) (ix1 m) := by
  after_results
  show shapeCast S1x1x64 (W (Proc.devRef .tc main_arg4) : S64.Idx → EReal) shapeCasts_S64_S1x1x64 (ix3 0 0 m) = _
  exact shapeCast_b_11b_apply _ _ m

theorem host2_v33 (d : Fin 512) :
    (StableHlo.after hostOps2 W (Proc.devRef .tc main_v33) : S1x512.Idx → EReal) (ix2 0 d)
      = Spec.meanOf2 (fun b d => (W (Proc.devRef .tc main_v20_1) : S8x1x512.Idx → EReal) (ix3 b 0 d)) d := by
  after_results
  show shapeCast S1x512 (Host.divf (F := Ideal) (sumB512 (W (Proc.devRef .tc main_v20_1)))
      (broadcastInDim S512 ![] bcast_S_S512 (constant (F := Ideal) S_ .f32 0x46000000#32))) shapeCasts_S512_S1x512 (ix2 0 d) = _
  have hb (w : BitVec 32) : broadcastInDim S512 ![] bcast_S_S512 (constant (F := Ideal) S_ .f32 w) (ix1 d) = Ideal.ofBits .f32 w :=
    broadcastInDim_scalar_apply _ _ _
  simp only [shapeCast_b_1b_apply, hostDivf_apply, sumB512_apply, hb]
  rfl

theorem host2_v34 (d : Fin 512) :
    (StableHlo.after hostOps2 W (Proc.devRef .tc main_v34) : S1x512.Idx → EReal) (ix2 0 d)
      = Spec.varOf2 (fun b d => (W (Proc.devRef .tc main_v20_1) : S8x1x512.Idx → EReal) (ix3 b 0 d))
          (fun b d => (W (Proc.devRef .tc main_v20_2) : S8x1x512.Idx → EReal) (ix3 b 0 d)) d := by
  after_results
  show shapeCast S1x512 (maximumf (subf
        (Host.divf (F := Ideal) (sumB512 (W (Proc.devRef .tc main_v20_2))) (broadcastInDim S512 ![] bcast_S_S512 (constant (F := Ideal) S_ .f32 0x46000000#32)))
        (mulf (Host.divf (F := Ideal) (sumB512 (W (Proc.devRef .tc main_v20_1))) (broadcastInDim S512 ![] bcast_S_S512 (constant (F := Ideal) S_ .f32 0x46000000#32)))
          (Host.divf (F := Ideal) (sumB512 (W (Proc.devRef .tc main_v20_1))) (broadcastInDim S512 ![] bcast_S_S512 (constant (F := Ideal) S_ .f32 0x46000000#32)))))
      (broadcastInDim S512 ![] bcast_S_S512 (constant (F := Ideal) S_ .f32 0x00000000#32))) shapeCasts_S512_S1x512 (ix2 0 d) = _
  have hb (w : BitVec 32) : broadcastInDim S512 ![] bcast_S_S512 (constant (F := Ideal) S_ .f32 w) (ix1 d) = Ideal.ofBits .f32 w :=
    broadcastInDim_scalar_apply _ _ _
  simp only [shapeCast_b_1b_apply, maximumf_apply, subf_apply, mulf_apply, hostDivf_apply, sumB512_apply, hb,
    Ideal.ofBits_zero_f32]
  rfl

theorem host2_v35 (d : Fin 512) :
    (StableHlo.after hostOps2 W (Proc.devRef .tc main_v35) : S1x512.Idx → EReal) (ix2 0 d)
      = (W (Proc.devRef .tc main_arg6) : S512.Idx → EReal) (ix1 d) := by
  after_results
  show shapeCast S1x512 (W (Proc.devRef .tc main_arg6) : S512.Idx → EReal) shapeCasts_S512_S1x512 (ix2 0 d) = _
  exact shapeCast_b_1b_apply _ _ d

theorem host2_v36 (d : Fin 512) :
    (StableHlo.after hostOps2 W (Proc.devRef .tc main_v36) : S1x512.Idx → EReal) (ix2 0 d)
      = (W (Proc.devRef .tc main_arg7) : S512.Idx → EReal) (ix1 d) := by
  after_results
  show shapeCast S1x512 (W (Proc.devRef .tc main_arg7) : S512.Idx → EReal) shapeCasts_S512_S1x512 (ix2 0 d) = _
  exact shapeCast_b_1b_apply _ _ d

theorem host2_v37 (b : Fin 8) (n : Fin 1024) (d : Fin 512) :
    (StableHlo.after hostOps2 W (Proc.devRef .tc main_v37) : S8192x512.Idx → EReal) (ix2 (⟨1024 * b.val + n.val, by omega⟩ : Fin 8192) d)
      = (W (Proc.devRef .tc main_v20_0) : S8x1024x512.Idx → EReal) (ix3 b n d) := by
  after_results
  show shapeCast S8192x512 (W (Proc.devRef .tc main_v20_0) : S8x1024x512.Idx → EReal) shapeCasts_S8x1024x512_S8192x512
      (ix2 (⟨1024 * b.val + n.val, by omega⟩ : Fin 8192) d) = _
  refine shapeCast_apply _ _ _ _ ?_
  show (S8x1024x512.rowMajor (ix3 b n d)).val = (S8192x512.rowMajor (ix2 (⟨1024 * b.val + n.val, by omega⟩ : Fin 8192) d)).val
  rw [Shape.rowMajor_val_three, Shape.rowMajor_val_two]
  show (b.val * 1024 + n.val) * 512 + d.val = (1024 * b.val + n.val) * 512 + d.val
  omega

theorem host3_v39 (b : Fin 8) (n : Fin 1024) (d : Fin 512) :
    (StableHlo.after hostOps3 W (Proc.devRef .tc main_v39) : S8x1024x512.Idx → EReal) (ix3 b n d)
      = (W (Proc.devRef .tc main_v38) : S8192x512.Idx → EReal) (ix2 (⟨1024 * b.val + n.val, by omega⟩ : Fin 8192) d) := by
  have e : (StableHlo.after hostOps3 W (Proc.devRef .tc main_v39) : S8x1024x512.Idx → EReal)
      = shapeCast S8x1024x512 (W (Proc.devRef .tc main_v38) : S8192x512.Idx → EReal) shapeCasts_S8192x512_S8x1024x512 := by
    after_results; rfl
  rw [e]
  refine shapeCast_apply _ _ _ _ ?_
  show (S8192x512.rowMajor (ix2 (⟨1024 * b.val + n.val, by omega⟩ : Fin 8192) d)).val = (S8x1024x512.rowMajor (ix3 b n d)).val
  rw [Shape.rowMajor_val_three, Shape.rowMajor_val_two]
  show (1024 * b.val + n.val) * 512 + d.val = (b.val * 1024 + n.val) * 512 + d.val
  omega

end Cert.KernelIdeal.HandV

end
-- ==== Proof.KV.Glue.lean ====
import proofs.«401853_j10514079941286_3_alg».proof.Proof.SpecK
import proofs.«401853_j10514079941286_3_alg».proof.Proof.KI.Run
import proofs.«401853_j10514079941286_3_alg».proof.Proof.KV.R0Arr
import proofs.«401853_j10514079941286_3_alg».proof.Proof.KV.R1
import proofs.«401853_j10514079941286_3_alg».proof.Proof.KV.R2
import proofs.«401853_j10514079941286_3_alg».proof.Proof.KV.Host
import Idealize.ShloMosaic.PureOps.Ideal
import Idealize.ShloMosaic.Lib.ValueIdx

set_option maxRecDepth 16384

noncomputable section

namespace Cert.KernelIdeal.HandV

open Cert.KernelIdeal Cert.KernelIdeal.Gen Cert.KernelIdeal.Hand Cert.Spec
open Idealize.ShloMosaic Idealize.ShloMosaic.TcCoe
open Idealize.SL Idealize.SL.Sem

section Glue
variable (m : (ℓ : Loc nD τ sig) → Buf (Elt Ideal) ℓ) (ρ : Dev nD → PrngReg) (c : Dev nD)

abbrev aX : Spec.ArrX := Spec.cur3 (m ((c.tc : Thread nD τ).loc main_arg0))
abbrev aIdx : Spec.ArrIdx := Spec.cur3 (m ((c.tc : Thread nD τ).loc main_arg1))
abbrev aW1 : Spec.ArrW1 := Spec.cur2 (m ((c.tc : Thread nD τ).loc main_arg2))
abbrev aG1 : Spec.ArrV64 := Spec.cur1 (m ((c.tc : Thread nD τ).loc main_arg3))
abbrev aB1 : Spec.ArrV64 := Spec.cur1 (m ((c.tc : Thread nD τ).loc main_arg4))
abbrev aW2 : Spec.ArrW2 := Spec.cur2 (m ((c.tc : Thread nD τ).loc main_arg5))
abbrev aG2 : Spec.ArrV512 := Spec.cur1 (m ((c.tc : Thread nD τ).loc main_arg6))
abbrev aB2 : Spec.ArrV512 := Spec.cur1 (m ((c.tc : Thread nD τ).loc main_arg7))

theorem word_lt (w : BitVec 32) (h : 0 ≤ w.toInt ∧ w.toInt < 1024) : w.toNat < 1024 := by
  have e := BitVec.toInt_eq_toNat_cond w
  have hl := w.isLt
  split at e <;> omega

theorem word_eq_iff (w : BitVec 32) (h : 0 ≤ w.toInt ∧ w.toInt < 1024) (j : Fin 1024) :
    w = BitVec.ofNat 32 j.val ↔ (⟨w.toNat % 1024, Nat.mod_lt _ (by norm_num)⟩ : Fin 1024) = j := by
  have hw := word_lt w h
  have hj := j.isLt
  constructor
  · intro e
    apply Fin.ext
    show w.toNat % 1024 = j.val
    rw [e, BitVec.toNat_ofNat]
    omega
  · intro e
    have e' : w.toNat % 1024 = j.val := congrArg Fin.val e
    apply BitVec.eq_of_toNat_eq
    rw [BitVec.toNat_ofNat]
    omega

theorem W3_arg0 : W3 m ρ c (Proc.devRef .tc main_arg0) = m ((c.tc : Thread nD τ).loc main_arg0) :=
  (W3_of m ρ c main_arg0 (by decide)).trans ((W2_of m ρ c main_arg0 (by decide)).trans ((W1_of m ρ c main_arg0 (by decide)).trans rfl))

theorem W4_arg3 : W4 m ρ c (Proc.devRef .tc main_arg3) = m ((c.tc : Thread nD τ).loc main_arg3) :=
  (W4_of_ne m ρ c main_arg3 (by decide)).trans ((W3_of m ρ c main_arg3 (by decide)).trans ((W2_of m ρ c main_arg3 (by decide)).trans ((W1_of m ρ c main_arg3 (by decide)).trans rfl)))

theorem W4_arg4 : W4 m ρ c (Proc.devRef .tc main_arg4) = m ((c.tc : Thread nD τ).loc main_arg4) :=
  (W4_of_ne m ρ c main_arg4 (by decide)).trans ((W3_of m ρ c main_arg4 (by decide)).trans ((W2_of m ρ c main_arg4 (by decide)).trans ((W1_of m ρ c main_arg4 (by decide)).trans rfl)))

theorem W5_arg5 : W5 m ρ c (Proc.devRef .tc main_arg5) = m ((c.tc : Thread nD τ).loc main_arg5) :=
  (W5_of m ρ c main_arg5 (by decide)).trans ((W4_of_ne m ρ c main_arg5 (by decide)).trans ((W3_of m ρ c main_arg5 (by decide)).trans ((W2_of m ρ c main_arg5 (by decide)).trans ((W1_of m ρ c main_arg5 (by decide)).trans rfl))))

theorem W6_arg6 : W6 m ρ c (Proc.devRef .tc main_arg6) = m ((c.tc : Thread nD τ).loc main_arg6) :=
  (W6_of_ne m ρ c main_arg6 (by decide)).trans ((W5_of m ρ c main_arg6 (by decide)).trans ((W4_of_ne m ρ c main_arg6 (by decide)).trans ((W3_of m ρ c main_arg6 (by decide)).trans ((W2_of m ρ c main_arg6 (by decide)).trans ((W1_of m ρ c main_arg6 (by decide)).trans rfl)))))

theorem W6_arg7 : W6 m ρ c (Proc.devRef .tc main_arg7) = m ((c.tc : Thread nD τ).loc main_arg7) :=
  (W6_of_ne m ρ c main_arg7 (by decide)).trans ((W5_of m ρ c main_arg7 (by decide)).trans ((W4_of_ne m ρ c main_arg7 (by decide)).trans ((W3_of m ρ c main_arg7 (by decide)).trans ((W2_of m ρ c main_arg7 (by decide)).trans ((W1_of m ρ c main_arg7 (by decide)).trans rfl)))))

theorem hOf_eq (hidx : Spec.InRange (aIdx m c)) :
    hOf (V3 m ρ) c = Spec.hK (aX m c) (aIdx m c) (aW1 m c) := by
  have e0 : Spec.cur3 (V3 m ρ c main_arg0) = aX m c :=
    funext fun b => funext fun n => funext fun k => congrFun (W3_arg0 m ρ c) (ValueIdx.ix3 b n k)
  have e1 : Spec.cur3 (V3 m ρ c main_v0) = aIdx m c :=
    funext fun b => funext fun n => funext fun k =>
      (host0_v0 (W0 m ρ c) b n k).trans (clip_inrange _ (hidx b n k).1 (hidx b n k).2)
  have e2 : Spec.cur2 (V3 m ρ c main_v1) = Spec.w1lo (aW1 m c) :=
    funext fun mm => funext fun cc => host0_v1 (W0 m ρ c) mm cc
  have e3 : Spec.cur2 (V3 m ρ c main_v2) = Spec.w1hi (aW1 m c) :=
    funext fun mm => funext fun cc => host0_v2 (W0 m ρ c) mm cc
  show Spec.hKw (Spec.cur3 (V3 m ρ c main_arg0)) (Spec.cur3 (V3 m ρ c main_v0)) (Spec.cur2 (V3 m ρ c main_v1)) (Spec.cur2 (V3 m ρ c main_v2)) = _
  rw [e0, e1, e2, e3]
  exact Spec.hKw_eq_hK _ _ _ _ fun b n k j => word_eq_iff _ (hidx b n k) j

theorem W4_edge (b : Fin 8) (n : Fin 1024) (k : Fin 20) (mm : Fin 64) :
    W4 m ρ c (Proc.devRef .tc main_v3_0) (ValueIdx.ix3 b n (Spec.col k mm)) = hOf (V3 m ρ) c b n k mm :=
  (congrFun (W4_arr m ρ c 4) _).trans (edge_arr (V3 m ρ) c b n k mm)
theorem W4_sum1 (b : Fin 8) (mm : Fin 64) :
    W4 m ρ c (Proc.devRef .tc main_v3_1) (ValueIdx.ix3 b 0 mm) = Spec.colsum1 (hOf (V3 m ρ) c) b mm :=
  (congrFun (W4_arr m ρ c 5) _).trans (sum1_arr (V3 m ρ) c b mm)
theorem W4_sumsq1 (b : Fin 8) (mm : Fin 64) :
    W4 m ρ c (Proc.devRef .tc main_v3_2) (ValueIdx.ix3 b 0 mm) = Spec.colsumsq1 (hOf (V3 m ρ) c) b mm :=
  (congrFun (W4_arr m ρ c 6) _).trans (sumsq1_arr (V3 m ρ) c b mm)

theorem eOf_eq : eOf (V5 m ρ) c = hOf (V3 m ρ) c :=
  funext fun b => funext fun n => funext fun k => funext fun mm =>
    (congrFun (W5_of m ρ c main_v3_0 (by decide)) _).trans (W4_edge m ρ c b n k mm)

theorem mean1_eq : v64 (V5 m ρ c main_v16) = Spec.meanOf1 (Spec.colsum1 (hOf (V3 m ρ) c)) := by
  funext mm
  have s1 : (fun b mm => W4 m ρ c (Proc.devRef .tc main_v3_1) (ValueIdx.ix3 b 0 mm)) = Spec.colsum1 (hOf (V3 m ρ) c) :=
    funext fun b => funext fun mm => W4_sum1 m ρ c b mm
  exact (host1_v16 (W4 m ρ c) mm).trans (by rw [s1])
theorem var1_eq : v64 (V5 m ρ c main_v17)
    = Spec.varOf1 (Spec.colsum1 (hOf (V3 m ρ) c)) (Spec.colsumsq1 (hOf (V3 m ρ) c)) := by
  funext mm
  have s1 : (fun b mm => W4 m ρ c (Proc.devRef .tc main_v3_1) (ValueIdx.ix3 b 0 mm)) = Spec.colsum1 (hOf (V3 m ρ) c) :=
    funext fun b => funext fun mm => W4_sum1 m ρ c b mm
  have s2 : (fun b mm => W4 m ρ c (Proc.devRef .tc main_v3_2) (ValueIdx.ix3 b 0 mm)) = Spec.colsumsq1 (hOf (V3 m ρ) c) :=
    funext fun b => funext fun mm => W4_sumsq1 m ρ c b mm
  exact (host1_v17 (W4 m ρ c) mm).trans (by rw [s1, s2])
theorem g1_eq : v64 (V5 m ρ c main_v18) = aG1 m c :=
  funext fun mm => (host1_v18 (W4 m ρ c) mm).trans (congrFun (W4_arg3 m ρ c) (ValueIdx.ix1 mm))
theorem b1_eq : v64 (V5 m ρ c main_v19) = aB1 m c :=
  funext fun mm => (host1_v19 (W4 m ρ c) mm).trans (congrFun (W4_arg4 m ρ c) (ValueIdx.ix1 mm))
theorem w2_eq : Spec.cur2 (V5 m ρ c main_arg5) = aW2 m c :=
  funext fun d => funext fun mm => congrFun (W5_arg5 m ρ c) (ValueIdx.ix2 d mm)

abbrev vOf : Spec.ArrH2 :=
  Spec.proj2 (Spec.act1w (hOf (V3 m ρ) c) (Spec.meanOf1 (Spec.colsum1 (hOf (V3 m ρ) c)))
    (Spec.varOf1 (Spec.colsum1 (hOf (V3 m ρ) c)) (Spec.colsumsq1 (hOf (V3 m ρ) c))) (aG1 m c) (aB1 m c)) (aW2 m c)

theorem h2Of_eq : h2Of (V5 m ρ) c = vOf m ρ c := by
  unfold h2Of
  rw [eOf_eq, mean1_eq, var1_eq, g1_eq, b1_eq, w2_eq]

theorem W6_h2 (b : Fin 8) (n : Fin 1024) (d : Fin 512) :
    W6 m ρ c (Proc.devRef .tc main_v20_0) (ValueIdx.ix3 b n d) = vOf m ρ c b n d :=
  (congrFun (W6_arr m ρ c 6) _).trans ((h2_arr (V5 m ρ) c b n d).trans (congrFun (congrFun (congrFun (h2Of_eq m ρ c) b) n) d))
theorem W6_sum2 (b : Fin 8) (d : Fin 512) :
    W6 m ρ c (Proc.devRef .tc main_v20_1) (ValueIdx.ix3 b 0 d) = Spec.colsum2 (vOf m ρ c) b d :=
  (congrFun (W6_arr m ρ c 7) _).trans ((sum2_arr (V5 m ρ) c b d).trans (by rw [h2Of_eq]))
theorem W6_sumsq2 (b : Fin 8) (d : Fin 512) :
    W6 m ρ c (Proc.devRef .tc main_v20_2) (ValueIdx.ix3 b 0 d) = Spec.colsumsq2 (vOf m ρ c) b d :=
  (congrFun (W6_arr m ρ c 8) _).trans ((sumsq2_arr (V5 m ρ) c b d).trans (by rw [h2Of_eq]))

theorem V7_mean2 (d : Fin 512) : V7 m ρ c main_v33 (ValueIdx.ix2 0 d) = Spec.meanOf2 (Spec.colsum2 (vOf m ρ c)) d := by
  have s1 : (fun b d => W6 m ρ c (Proc.devRef .tc main_v20_1) (ValueIdx.ix3 b 0 d)) = Spec.colsum2 (vOf m ρ c) :=
    funext fun b => funext fun d => W6_sum2 m ρ c b d
  exact (host2_v33 (W6 m ρ c) d).trans (by rw [s1])
theorem V7_var2 (d : Fin 512) : V7 m ρ c main_v34 (ValueIdx.ix2 0 d)
    = Spec.varOf2 (Spec.colsum2 (vOf m ρ c)) (Spec.colsumsq2 (vOf m ρ c)) d := by
  have s1 : (fun b d => W6 m ρ c (Proc.devRef .tc main_v20_1) (ValueIdx.ix3 b 0 d)) = Spec.colsum2 (vOf m ρ c) :=
    funext fun b => funext fun d => W6_sum2 m ρ c b d
  have s2 : (fun b d => W6 m ρ c (Proc.devRef .tc main_v20_2) (ValueIdx.ix3 b 0 d)) = Spec.colsumsq2 (vOf m ρ c) :=
    funext fun b => funext fun d => W6_sumsq2 m ρ c b d
  exact (host2_v34 (W6 m ρ c) d).trans (by rw [s1, s2])
theorem V7_g2 (d : Fin 512) : V7 m ρ c main_v35 (ValueIdx.ix2 0 d) = aG2 m c d :=
  (host2_v35 (W6 m ρ c) d).trans (congrFun (W6_arg6 m ρ c) (ValueIdx.ix1 d))
theorem V7_b2 (d : Fin 512) : V7 m ρ c main_v36 (ValueIdx.ix2 0 d) = aB2 m c d :=
  (host2_v36 (W6 m ρ c) d).trans (congrFun (W6_arg7 m ρ c) (ValueIdx.ix1 d))
theorem V7_rows (b : Fin 8) (n : Fin 1024) (d : Fin 512) :
    V7 m ρ c main_v37 (ValueIdx.ix2 (⟨1024 * b.val + n.val, by omega⟩ : Fin 8192) d) = vOf m ρ c b n d :=
  (host2_v37 (W6 m ρ c) b n d).trans (W6_h2 m ρ c b n d)

theorem W8_out (r : Fin 8192) (d : Fin 512) : W8 m ρ c (Proc.devRef .tc main_v38) (ValueIdx.ix2 r d)
    = Spec.leaky (Spec.bn (V7 m ρ c main_v37 (ValueIdx.ix2 r d)) (V7 m ρ c main_v33 (ValueIdx.ix2 0 d)) (V7 m ρ c main_v34 (ValueIdx.ix2 0 d))
        (V7 m ρ c main_v35 (ValueIdx.ix2 0 d)) (V7 m ρ c main_v36 (ValueIdx.ix2 0 d))) :=
  (congrFun (W8_arr m ρ c 5) _).trans (out_arr (V7 m ρ) c r d)

theorem kernel_value (hidx : Spec.InRange (Spec.cur3 (m ((c.tc : Thread nD τ).loc main_arg1))))
    (b : Fin 8) (n : Fin 1024) (d : Fin 512) :
    W9 m ρ c (Proc.devRef .tc main_v39) (ValueIdx.ix3 b n d)
      = Spec.outK (Spec.cur3 (m ((c.tc : Thread nD τ).loc main_arg0))) (Spec.cur3 (m ((c.tc : Thread nD τ).loc main_arg1)))
          (Spec.cur2 (m ((c.tc : Thread nD τ).loc main_arg2))) (Spec.cur1 (m ((c.tc : Thread nD τ).loc main_arg3)))
          (Spec.cur1 (m ((c.tc : Thread nD τ).loc main_arg4))) (Spec.cur2 (m ((c.tc : Thread nD τ).loc main_arg5)))
          (Spec.cur1 (m ((c.tc : Thread nD τ).loc main_arg6))) (Spec.cur1 (m ((c.tc : Thread nD τ).loc main_arg7))) b n d := by
  have hv : vOf m ρ c = Spec.proj2 (Spec.act1w (Spec.hK (aX m c) (aIdx m c) (aW1 m c))
      (Spec.meanOf1 (Spec.colsum1 (Spec.hK (aX m c) (aIdx m c) (aW1 m c))))
      (Spec.varOf1 (Spec.colsum1 (Spec.hK (aX m c) (aIdx m c) (aW1 m c))) (Spec.colsumsq1 (Spec.hK (aX m c) (aIdx m c) (aW1 m c))))
      (aG1 m c) (aB1 m c)) (aW2 m c) := by
    show Spec.proj2 _ _ = _
    rw [hOf_eq m ρ c hidx]
  calc W9 m ρ c (Proc.devRef .tc main_v39) (ValueIdx.ix3 b n d)
    _ = W8 m ρ c (Proc.devRef .tc main_v38) (ValueIdx.ix2 (⟨1024 * b.val + n.val, by omega⟩ : Fin 8192) d) :=
        host3_v39 (W8 m ρ c) b n d
    _ = Spec.act2w (vOf m ρ c) (Spec.meanOf2 (Spec.colsum2 (vOf m ρ c)))
          (Spec.varOf2 (Spec.colsum2 (vOf m ρ c)) (Spec.colsumsq2 (vOf m ρ c))) (aG2 m c) (aB2 m c) b n d := by
        rw [W8_out, V7_rows, V7_mean2, V7_var2, V7_g2, V7_b2]
        rfl
    _ = _ := by
        rw [hv]
        exact congrFun (congrFun (congrFun (Spec.outK_stages (aX m c) (aIdx m c) (aW1 m c) (aG1 m c) (aB1 m c) (aW2 m c) (aG2 m c) (aB2 m c)) b) n) d

end Glue

end Cert.KernelIdeal.HandV

end
-- ==== Proof.Ref.Term.lean ====
import proofs.«401853_j10514079941286_3_alg».proof.ReferenceIdeal

noncomputable section

namespace Cert.ReferenceIdeal.Hand

open Cert.ReferenceIdeal Idealize.ShloMosaic Idealize.SL.Sem

variable [Cert.ReferenceIdeal.Facts]
open Cert.ReferenceIdeal.Facts₀ Cert.ReferenceIdeal.Facts

variable {F : FTy → Type} [FloatOps F]

variable (a0 : (⟨S8x1024x512, .f32⟩ : BufTy).Contents (Elt F))
  (a1 : (⟨S8x1024x20, .i32⟩ : BufTy).Contents (Elt F))
  (a2 : (⟨S64x1024, .f32⟩ : BufTy).Contents (Elt F))
  (a3 : (⟨S64, .f32⟩ : BufTy).Contents (Elt F))
  (a4 : (⟨S64, .f32⟩ : BufTy).Contents (Elt F))
  (a5 : (⟨S512x64, .f32⟩ : BufTy).Contents (Elt F))
  (a6 : (⟨S512, .f32⟩ : BufTy).Contents (Elt F))
  (a7 : (⟨S512, .f32⟩ : BufTy).Contents (Elt F))

def val_main_c :
    (⟨S_, .i32⟩ : BufTy).Contents (Elt F) :=
  constantI S_ 32 0#32

def val_main_v0 :
    (⟨S8x1024x20, .i32⟩ : BufTy).Contents (Elt F) :=
  broadcastInDim S8x1024x20 ![] bcast_S_S8x1024x20 (val_main_c (F := F))

def val_main_v1 :
    (⟨S8x1024x20, .i1⟩ : BufTy).Contents (Elt F) :=
  cmpi .slt a1 (val_main_v0 (F := F))

def val_main_c_0 :
    (⟨S_, .i32⟩ : BufTy).Contents (Elt F) :=
  constantI S_ 32 1024#32

def val_main_v2 :
    (⟨S8x1024x20, .i32⟩ : BufTy).Contents (Elt F) :=
  broadcastInDim S8x1024x20 ![] bcast_S_S8x1024x20 (val_main_c_0 (F := F))

def val_main_v3 :
    (⟨S8x1024x20, .i32⟩ : BufTy).Contents (Elt F) :=
  addi a1 (val_main_v2 (F := F))

def val_main_v4 :
    (⟨S8x1024x20, .i32⟩ : BufTy).Contents (Elt F) :=
  select (val_main_v1 a1) (val_main_v3 a1) a1

def val_main_v5 :
    (⟨S8x1024x20x1, .i32⟩ : BufTy).Contents (Elt F) :=
  broadcastInDim S8x1024x20x1 ![0, 1, 2] bcast_S8x1024x20_S8x1024x20x1_0_1_2 (val_main_v4 a1)

def val_main_v6 :
    (⟨S8x1024x20x512, .f32⟩ : BufTy).Contents (Elt F) :=
  Host.gather gather_S8x1024x512_S8x1024x20x1_S8x1024x20x512_3_1_0_0_1_3_11512 a0 (val_main_v5 a1)

def val_main_v7 :
    (⟨S8x1024x1x512, .f32⟩ : BufTy).Contents (Elt F) :=
  broadcastInDim S8x1024x1x512 ![0, 1, 3] bcast_S8x1024x512_S8x1024x1x512_0_1_3 a0

def val_main_v8 :
    (⟨S8x1024x20x512, .f32⟩ : BufTy).Contents (Elt F) :=
  broadcastInDim S8x1024x20x512 ![0, 1, 2, 3] bcast_S8x1024x1x512_S8x1024x20x512_0_1_2_3 (val_main_v7 a0)

def val_main_v9 :
    (⟨S8x1024x20x512, .f32⟩ : BufTy).Contents (Elt F) :=
  subf (val_main_v6 a0 a1) (val_main_v8 a0)

def val_main_v10 :
    (⟨S8x1024x20x512, .f32⟩ : BufTy).Contents (Elt F) :=
  broadcastInDim S8x1024x20x512 ![0, 1, 2, 3] bcast_S8x1024x1x512_S8x1024x20x512_0_1_2_3 (val_main_v7 a0)

def val_main_v11 :
    (⟨S8x1024x20x1024, .f32⟩ : BufTy).Contents (Elt F) :=
  concatenate S8x1024x20x1024 3 [⟨S8x1024x20x512, (val_main_v9 a0 a1)⟩, ⟨S8x1024x20x512, (val_main_v10 a0)⟩] concatenates_S8x1024x20x512_S8x1024x20x512_S8x1024x20x1024_d3

def val_main_v12 :
    (⟨S8x1024x20x64, .f32⟩ : BufTy).Contents (Elt F) :=
  Host.dotGeneral dot_S8x1024x20x1024_S64x1024_S8x1024x20x64_3_1_012_0_n_n none (val_main_v11 a0 a1) a2

def val_main_cst :
    (⟨S_, .f32⟩ : BufTy).Contents (Elt F) :=
  constant S_ .f32 0x00000000#32

def val_main_v13 :
    (⟨S64, .f32⟩ : BufTy).Contents (Elt F) :=
  Host.reduceAdd (val_main_v12 a0 a1 a2) (val_main_cst (F := F)) reducesTo_S8x1024x20x64_S64_d0_1_2 h_S_

def val_main_v14 :
    (⟨S1x1x1x64, .f32⟩ : BufTy).Contents (Elt F) :=
  broadcastInDim S1x1x1x64 ![3] bcast_S64_S1x1x1x64_3 (val_main_v13 a0 a1 a2)

def val_main_cst_1 :
    (⟨S_, .f32⟩ : BufTy).Contents (Elt F) :=
  constant S_ .f32 0x48200000#32

def val_main_v15 :
    (⟨S1x1x1x64, .f32⟩ : BufTy).Contents (Elt F) :=
  broadcastInDim S1x1x1x64 ![] bcast_S_S1x1x1x64 (val_main_cst_1 (F := F))

def val_main_v16 :
    (⟨S1x1x1x64, .f32⟩ : BufTy).Contents (Elt F) :=
  Host.divf (val_main_v14 a0 a1 a2) (val_main_v15 (F := F))

def val_main_c_2 :
    (⟨S_, .i32⟩ : BufTy).Contents (Elt F) :=
  constantI S_ 32 0#32

def val_main_call0_cst :
    (⟨S_, .f32⟩ : BufTy).Contents (Elt F) :=
  constant S_ .f32 0x00000000#32

def val_main_call0_v0 :
    (⟨S64, .f32⟩ : BufTy).Contents (Elt F) :=
  Host.reduceAdd (val_main_v12 a0 a1 a2) (val_main_call0_cst (F := F)) reducesTo_S8x1024x20x64_S64_d0_1_2 h_S_

def val_main_call0_v1 :
    (⟨S1x1x1x64, .f32⟩ : BufTy).Contents (Elt F) :=
  broadcastInDim S1x1x1x64 ![3] bcast_S64_S1x1x1x64_3 (val_main_call0_v0 a0 a1 a2)

def val_main_call0_cst_0 :
    (⟨S_, .f32⟩ : BufTy).Contents (Elt F) :=
  constant S_ .f32 0x48200000#32

def val_main_call0_v2 :
    (⟨S1x1x1x64, .f32⟩ : BufTy).Contents (Elt F) :=
  broadcastInDim S1x1x1x64 ![] bcast_S_S1x1x1x64 (val_main_call0_cst_0 (F := F))

def val_main_call0_v3 :
    (⟨S1x1x1x64, .f32⟩ : BufTy).Contents (Elt F) :=
  Host.divf (val_main_call0_v1 a0 a1 a2) (val_main_call0_v2 (F := F))

def val_main_call0_v4 :
    (⟨S8x1024x20x64, .f32⟩ : BufTy).Contents (Elt F) :=
  broadcastInDim S8x1024x20x64 ![0, 1, 2, 3] bcast_S1x1x1x64_S8x1024x20x64_0_1_2_3 (val_main_call0_v3 a0 a1 a2)

def val_main_call0_v5 :
    (⟨S8x1024x20x64, .f32⟩ : BufTy).Contents (Elt F) :=
  subf (val_main_v12 a0 a1 a2) (val_main_call0_v4 a0 a1 a2)

def val_main_call0_v6 :
    (⟨S8x1024x20x64, .f32⟩ : BufTy).Contents (Elt F) :=
  mulf (val_main_call0_v5 a0 a1 a2) (val_main_call0_v5 a0 a1 a2)

def val_main_call0_v7 :
    (⟨S_, .f32⟩ : BufTy).Contents (Elt F) :=
  sitofp .f32 (val_main_c_2 (F := F))

def val_main_call0_cst_1 :
    (⟨S_, .f32⟩ : BufTy).Contents (Elt F) :=
  constant S_ .f32 0x48200000#32

def val_main_call0_v8 :
    (⟨S_, .f32⟩ : BufTy).Contents (Elt F) :=
  subf (val_main_call0_cst_1 (F := F)) (val_main_call0_v7 (F := F))

def val_main_call0_cst_2 :
    (⟨S_, .f32⟩ : BufTy).Contents (Elt F) :=
  constant S_ .f32 0x00000000#32

def val_main_call0_v9 :
    (⟨S64, .f32⟩ : BufTy).Contents (Elt F) :=
  Host.reduceAdd (val_main_call0_v6 a0 a1 a2) (val_main_call0_cst_2 (F := F)) reducesTo_S8x1024x20x64_S64_d0_1_2 h_S_

def val_main_call0_v10 :
    (⟨S1x1x1x64, .f32⟩ : BufTy).Contents (Elt F) :=
  broadcastInDim S1x1x1x64 ![3] bcast_S64_S1x1x1x64_3 (val_main_call0_v9 a0 a1 a2)

def val_main_call0_v11 :
    (⟨S1x1x1x64, .f32⟩ : BufTy).Contents (Elt F) :=
  broadcastInDim S1x1x1x64 ![] bcast_S_S1x1x1x64 (val_main_call0_v8 (F := F))

def val_main_call0_v12 :
    (⟨S1x1x1x64, .f32⟩ : BufTy).Contents (Elt F) :=
  Host.divf (val_main_call0_v10 a0 a1 a2) (val_main_call0_v11 (F := F))

def val_main_call0_cst_3 :
    (⟨S_, .f32⟩ : BufTy).Contents (Elt F) :=
  constant S_ .f32 0x00000000#32

def val_main_call0_v13 :
    (⟨S_, .i1⟩ : BufTy).Contents (Elt F) :=
  cmpf .ogt (val_main_call0_v8 (F := F)) (val_main_call0_cst_3 (F := F))

def val_main_call0_cst_4 :
    (⟨S_, .f32⟩ : BufTy).Contents (Elt F) :=
  constant S_ .f32 0x7FC00000#32

def val_main_call0_call0_v0 :
    (⟨S_, .f32⟩ : BufTy).Contents (Elt F) :=
  id (val_main_call0_cst_4 (F := F))

def val_main_call0_call0_v1 :
    (⟨S1x1x1x64, .f32⟩ : BufTy).Contents (Elt F) :=
  broadcastInDim S1x1x1x64 ![] bcast_S_S1x1x1x64 (val_main_call0_call0_v0 (F := F))

def val_main_v17 :
    (⟨S1x1x1x64, .f32⟩ : BufTy).Contents (Elt F) :=
  select (broadcastInDim S1x1x1x64 ![] bcast_S_S1x1x1x64 (val_main_call0_v13 (F := F))) (val_main_call0_v12 a0 a1 a2) (val_main_call0_call0_v1 (F := F))

def val_main_v18 :
    (⟨S8x1024x20x64, .f32⟩ : BufTy).Contents (Elt F) :=
  broadcastInDim S8x1024x20x64 ![0, 1, 2, 3] bcast_S1x1x1x64_S8x1024x20x64_0_1_2_3 (val_main_v16 a0 a1 a2)

def val_main_v19 :
    (⟨S8x1024x20x64, .f32⟩ : BufTy).Contents (Elt F) :=
  subf (val_main_v12 a0 a1 a2) (val_main_v18 a0 a1 a2)

def val_main_cst_3 :
    (⟨S_, .f32⟩ : BufTy).Contents (Elt F) :=
  constant S_ .f32 0x3727C5AC#32

def val_main_v20 :
    (⟨S1x1x1x64, .f32⟩ : BufTy).Contents (Elt F) :=
  broadcastInDim S1x1x1x64 ![] bcast_S_S1x1x1x64 (val_main_cst_3 (F := F))

def val_main_v21 :
    (⟨S1x1x1x64, .f32⟩ : BufTy).Contents (Elt F) :=
  addf (val_main_v17 a0 a1 a2) (val_main_v20 (F := F))

def val_main_v22 :
    (⟨S1x1x1x64, .f32⟩ : BufTy).Contents (Elt F) :=
  Host.rsqrt (val_main_v21 a0 a1 a2)

def val_main_v23 :
    (⟨S8x1024x20x64, .f32⟩ : BufTy).Contents (Elt F) :=
  broadcastInDim S8x1024x20x64 ![0, 1, 2, 3] bcast_S1x1x1x64_S8x1024x20x64_0_1_2_3 (val_main_v22 a0 a1 a2)

def val_main_v24 :
    (⟨S8x1024x20x64, .f32⟩ : BufTy).Contents (Elt F) :=
  mulf (val_main_v19 a0 a1 a2) (val_main_v23 a0 a1 a2)

def val_main_v25 :
    (⟨S1x1x1x64, .f32⟩ : BufTy).Contents (Elt F) :=
  broadcastInDim S1x1x1x64 ![3] bcast_S64_S1x1x1x64_3 a3

def val_main_v26 :
    (⟨S8x1024x20x64, .f32⟩ : BufTy).Contents (Elt F) :=
  broadcastInDim S8x1024x20x64 ![0, 1, 2, 3] bcast_S1x1x1x64_S8x1024x20x64_0_1_2_3 (val_main_v25 a3)

def val_main_v27 :
    (⟨S8x1024x20x64, .f32⟩ : BufTy).Contents (Elt F) :=
  mulf (val_main_v24 a0 a1 a2) (val_main_v26 a3)

def val_main_v28 :
    (⟨S1x1x1x64, .f32⟩ : BufTy).Contents (Elt F) :=
  broadcastInDim S1x1x1x64 ![3] bcast_S64_S1x1x1x64_3 a4

def val_main_v29 :
    (⟨S8x1024x20x64, .f32⟩ : BufTy).Contents (Elt F) :=
  broadcastInDim S8x1024x20x64 ![0, 1, 2, 3] bcast_S1x1x1x64_S8x1024x20x64_0_1_2_3 (val_main_v28 a4)

def val_main_v30 :
    (⟨S8x1024x20x64, .f32⟩ : BufTy).Contents (Elt F) :=
  addf (val_main_v27 a0 a1 a2 a3) (val_main_v29 a4)

def val_main_cst_4 :
    (⟨S_, .f32⟩ : BufTy).Contents (Elt F) :=
  constant S_ .f32 0x00000000#32

def val_main_v31 :
    (⟨S8x1024x20x64, .f32⟩ : BufTy).Contents (Elt F) :=
  broadcastInDim S8x1024x20x64 ![] bcast_S_S8x1024x20x64 (val_main_cst_4 (F := F))

def val_main_v32 :
    (⟨S8x1024x20x64, .i1⟩ : BufTy).Contents (Elt F) :=
  cmpf .oge (val_main_v30 a0 a1 a2 a3 a4) (val_main_v31 (F := F))

def val_main_cst_5 :
    (⟨S_, .f32⟩ : BufTy).Contents (Elt F) :=
  constant S_ .f32 0x3E4CCCCD#32

def val_main_v33 :
    (⟨S8x1024x20x64, .f32⟩ : BufTy).Contents (Elt F) :=
  broadcastInDim S8x1024x20x64 ![] bcast_S_S8x1024x20x64 (val_main_cst_5 (F := F))

def val_main_v34 :
    (⟨S8x1024x20x64, .f32⟩ : BufTy).Contents (Elt F) :=
  mulf (val_main_v33 (F := F)) (val_main_v30 a0 a1 a2 a3 a4)

def val_main_v35 :
    (⟨S8x1024x20x64, .f32⟩ : BufTy).Contents (Elt F) :=
  select (val_main_v32 a0 a1 a2 a3 a4) (val_main_v30 a0 a1 a2 a3 a4) (val_main_v34 a0 a1 a2 a3 a4)

def val_main_cst_6 :
    (⟨S_, .f32⟩ : BufTy).Contents (Elt F) :=
  constant S_ .f32 0xFF800000#32

def val_main_v36 :
    (⟨S8x1024x64, .f32⟩ : BufTy).Contents (Elt F) :=
  Host.reduce FloatOps.maximumf (val_main_v35 a0 a1 a2 a3 a4) (val_main_cst_6 (F := F)) reducesTo_S8x1024x20x64_S8x1024x64_d2 h_S_

def val_main_v37 :
    (⟨S8x1024x512, .f32⟩ : BufTy).Contents (Elt F) :=
  Host.dotGeneral dot_S8x1024x64_S512x64_S8x1024x512_2_1_01_0_n_n none (val_main_v36 a0 a1 a2 a3 a4) a5

def val_main_cst_7 :
    (⟨S_, .f32⟩ : BufTy).Contents (Elt F) :=
  constant S_ .f32 0x00000000#32

def val_main_v38 :
    (⟨S512, .f32⟩ : BufTy).Contents (Elt F) :=
  Host.reduceAdd (val_main_v37 a0 a1 a2 a3 a4 a5) (val_main_cst_7 (F := F)) reducesTo_S8x1024x512_S512_d0_1 h_S_

def val_main_v39 :
    (⟨S1x1x512, .f32⟩ : BufTy).Contents (Elt F) :=
  broadcastInDim S1x1x512 ![2] bcast_S512_S1x1x512_2 (val_main_v38 a0 a1 a2 a3 a4 a5)

def val_main_cst_8 :
    (⟨S_, .f32⟩ : BufTy).Contents (Elt F) :=
  constant S_ .f32 0x46000000#32

def val_main_v40 :
    (⟨S1x1x512, .f32⟩ : BufTy).Contents (Elt F) :=
  broadcastInDim S1x1x512 ![] bcast_S_S1x1x512 (val_main_cst_8 (F := F))

def val_main_v41 :
    (⟨S1x1x512, .f32⟩ : BufTy).Contents (Elt F) :=
  Host.divf (val_main_v39 a0 a1 a2 a3 a4 a5) (val_main_v40 (F := F))

def val_main_c_9 :
    (⟨S_, .i32⟩ : BufTy).Contents (Elt F) :=
  constantI S_ 32 0#32

def val_main_call2_cst :
    (⟨S_, .f32⟩ : BufTy).Contents (Elt F) :=
  constant S_ .f32 0x00000000#32

def val_main_call2_v0 :
    (⟨S512, .f32⟩ : BufTy).Contents (Elt F) :=
  Host.reduceAdd (val_main_v37 a0 a1 a2 a3 a4 a5) (val_main_call2_cst (F := F)) reducesTo_S8x1024x512_S512_d0_1 h_S_

def val_main_call2_v1 :
    (⟨S1x1x512, .f32⟩ : BufTy).Contents (Elt F) :=
  broadcastInDim S1x1x512 ![2] bcast_S512_S1x1x512_2 (val_main_call2_v0 a0 a1 a2 a3 a4 a5)

def val_main_call2_cst_0 :
    (⟨S_, .f32⟩ : BufTy).Contents (Elt F) :=
  constant S_ .f32 0x46000000#32

def val_main_call2_v2 :
    (⟨S1x1x512, .f32⟩ : BufTy).Contents (Elt F) :=
  broadcastInDim S1x1x512 ![] bcast_S_S1x1x512 (val_main_call2_cst_0 (F := F))

def val_main_call2_v3 :
    (⟨S1x1x512, .f32⟩ : BufTy).Contents (Elt F) :=
  Host.divf (val_main_call2_v1 a0 a1 a2 a3 a4 a5) (val_main_call2_v2 (F := F))

def val_main_call2_v4 :
    (⟨S8x1024x512, .f32⟩ : BufTy).Contents (Elt F) :=
  broadcastInDim S8x1024x512 ![0, 1, 2] bcast_S1x1x512_S8x1024x512_0_1_2 (val_main_call2_v3 a0 a1 a2 a3 a4 a5)

def val_main_call2_v5 :
    (⟨S8x1024x512, .f32⟩ : BufTy).Contents (Elt F) :=
  subf (val_main_v37 a0 a1 a2 a3 a4 a5) (val_main_call2_v4 a0 a1 a2 a3 a4 a5)

def val_main_call2_v6 :
    (⟨S8x1024x512, .f32⟩ : BufTy).Contents (Elt F) :=
  mulf (val_main_call2_v5 a0 a1 a2 a3 a4 a5) (val_main_call2_v5 a0 a1 a2 a3 a4 a5)

def val_main_call2_v7 :
    (⟨S_, .f32⟩ : BufTy).Contents (Elt F) :=
  sitofp .f32 (val_main_c_9 (F := F))

def val_main_call2_cst_1 :
    (⟨S_, .f32⟩ : BufTy).Contents (Elt F) :=
  constant S_ .f32 0x46000000#32

def val_main_call2_v8 :
    (⟨S_, .f32⟩ : BufTy).Contents (Elt F) :=
  subf (val_main_call2_cst_1 (F := F)) (val_main_call2_v7 (F := F))

def val_main_call2_cst_2 :
    (⟨S_, .f32⟩ : BufTy).Contents (Elt F) :=
  constant S_ .f32 0x00000000#32

def val_main_call2_v9 :
    (⟨S512, .f32⟩ : BufTy).Contents (Elt F) :=
  Host.reduceAdd (val_main_call2_v6 a0 a1 a2 a3 a4 a5) (val_main_call2_cst_2 (F := F)) reducesTo_S8x1024x512_S512_d0_1 h_S_

def val_main_call2_v10 :
    (⟨S1x1x512, .f32⟩ : BufTy).Contents (Elt F) :=
  broadcastInDim S1x1x512 ![2] bcast_S512_S1x1x512_2 (val_main_call2_v9 a0 a1 a2 a3 a4 a5)

def val_main_call2_v11 :
    (⟨S1x1x512, .f32⟩ : BufTy).Contents (Elt F) :=
  broadcastInDim S1x1x512 ![] bcast_S_S1x1x512 (val_main_call2_v8 (F := F))

def val_main_call2_v12 :
    (⟨S1x1x512, .f32⟩ : BufTy).Contents (Elt F) :=
  Host.divf (val_main_call2_v10 a0 a1 a2 a3 a4 a5) (val_main_call2_v11 (F := F))

def val_main_call2_cst_3 :
    (⟨S_, .f32⟩ : BufTy).Contents (Elt F) :=
  constant S_ .f32 0x00000000#32

def val_main_call2_v13 :
    (⟨S_, .i1⟩ : BufTy).Contents (Elt F) :=
  cmpf .ogt (val_main_call2_v8 (F := F)) (val_main_call2_cst_3 (F := F))

def val_main_call2_cst_4 :
    (⟨S_, .f32⟩ : BufTy).Contents (Elt F) :=
  constant S_ .f32 0x7FC00000#32

def val_main_call2_call0_v0 :
    (⟨S_, .f32⟩ : BufTy).Contents (Elt F) :=
  id (val_main_call2_cst_4 (F := F))

def val_main_call2_call0_v1 :
    (⟨S1x1x512, .f32⟩ : BufTy).Contents (Elt F) :=
  broadcastInDim S1x1x512 ![] bcast_S_S1x1x512 (val_main_call2_call0_v0 (F := F))

def val_main_v42 :
    (⟨S1x1x512, .f32⟩ : BufTy).Contents (Elt F) :=
  select (broadcastInDim S1x1x512 ![] bcast_S_S1x1x512 (val_main_call2_v13 (F := F))) (val_main_call2_v12 a0 a1 a2 a3 a4 a5) (val_main_call2_call0_v1 (F := F))

def val_main_v43 :
    (⟨S8x1024x512, .f32⟩ : BufTy).Contents (Elt F) :=
  broadcastInDim S8x1024x512 ![0, 1, 2] bcast_S1x1x512_S8x1024x512_0_1_2 (val_main_v41 a0 a1 a2 a3 a4 a5)

def val_main_v44 :
    (⟨S8x1024x512, .f32⟩ : BufTy).Contents (Elt F) :=
  subf (val_main_v37 a0 a1 a2 a3 a4 a5) (val_main_v43 a0 a1 a2 a3 a4 a5)

def val_main_cst_10 :
    (⟨S_, .f32⟩ : BufTy).Contents (Elt F) :=
  constant S_ .f32 0x3727C5AC#32

def val_main_v45 :
    (⟨S1x1x512, .f32⟩ : BufTy).Contents (Elt F) :=
  broadcastInDim S1x1x512 ![] bcast_S_S1x1x512 (val_main_cst_10 (F := F))

def val_main_v46 :
    (⟨S1x1x512, .f32⟩ : BufTy).Contents (Elt F) :=
  addf (val_main_v42 a0 a1 a2 a3 a4 a5) (val_main_v45 (F := F))

def val_main_v47 :
    (⟨S1x1x512, .f32⟩ : BufTy).Contents (Elt F) :=
  Host.rsqrt (val_main_v46 a0 a1 a2 a3 a4 a5)

def val_main_v48 :
    (⟨S8x1024x512, .f32⟩ : BufTy).Contents (Elt F) :=
  broadcastInDim S8x1024x512 ![0, 1, 2] bcast_S1x1x512_S8x1024x512_0_1_2 (val_main_v47 a0 a1 a2 a3 a4 a5)

def val_main_v49 :
    (⟨S8x1024x512, .f32⟩ : BufTy).Contents (Elt F) :=
  mulf (val_main_v44 a0 a1 a2 a3 a4 a5) (val_main_v48 a0 a1 a2 a3 a4 a5)

def val_main_v50 :
    (⟨S1x1x512, .f32⟩ : BufTy).Contents (Elt F) :=
  broadcastInDim S1x1x512 ![2] bcast_S512_S1x1x512_2 a6

def val_main_v51 :
    (⟨S8x1024x512, .f32⟩ : BufTy).Contents (Elt F) :=
  broadcastInDim S8x1024x512 ![0, 1, 2] bcast_S1x1x512_S8x1024x512_0_1_2 (val_main_v50 a6)

def val_main_v52 :
    (⟨S8x1024x512, .f32⟩ : BufTy).Contents (Elt F) :=
  mulf (val_main_v49 a0 a1 a2 a3 a4 a5) (val_main_v51 a6)

def val_main_v53 :
    (⟨S1x1x512, .f32⟩ : BufTy).Contents (Elt F) :=
  broadcastInDim S1x1x512 ![2] bcast_S512_S1x1x512_2 a7

def val_main_v54 :
    (⟨S8x1024x512, .f32⟩ : BufTy).Contents (Elt F) :=
  broadcastInDim S8x1024x512 ![0, 1, 2] bcast_S1x1x512_S8x1024x512_0_1_2 (val_main_v53 a7)

def val_main_v55 :
    (⟨S8x1024x512, .f32⟩ : BufTy).Contents (Elt F) :=
  addf (val_main_v52 a0 a1 a2 a3 a4 a5 a6) (val_main_v54 a7)

def val_main_cst_11 :
    (⟨S_, .f32⟩ : BufTy).Contents (Elt F) :=
  constant S_ .f32 0x00000000#32

def val_main_v56 :
    (⟨S8x1024x512, .f32⟩ : BufTy).Contents (Elt F) :=
  broadcastInDim S8x1024x512 ![] bcast_S_S8x1024x512 (val_main_cst_11 (F := F))

def val_main_v57 :
    (⟨S8x1024x512, .i1⟩ : BufTy).Contents (Elt F) :=
  cmpf .oge (val_main_v55 a0 a1 a2 a3 a4 a5 a6 a7) (val_main_v56 (F := F))

def val_main_cst_12 :
    (⟨S_, .f32⟩ : BufTy).Contents (Elt F) :=
  constant S_ .f32 0x3E4CCCCD#32

def val_main_v58 :
    (⟨S8x1024x512, .f32⟩ : BufTy).Contents (Elt F) :=
  broadcastInDim S8x1024x512 ![] bcast_S_S8x1024x512 (val_main_cst_12 (F := F))

def val_main_v59 :
    (⟨S8x1024x512, .f32⟩ : BufTy).Contents (Elt F) :=
  mulf (val_main_v58 (F := F)) (val_main_v55 a0 a1 a2 a3 a4 a5 a6 a7)

def val_main_v60 :
    (⟨S8x1024x512, .f32⟩ : BufTy).Contents (Elt F) :=
  select (val_main_v57 a0 a1 a2 a3 a4 a5 a6 a7) (val_main_v55 a0 a1 a2 a3 a4 a5 a6 a7) (val_main_v59 a0 a1 a2 a3 a4 a5 a6 a7)

/-- The reference's result as a function of its eight argument arrays. -/
def refOut :
    (⟨S8x1024x512, .f32⟩ : BufTy).Contents (Elt F) :=
  val_main_v60 a0 a1 a2 a3 a4 a5 a6 a7

end Cert.ReferenceIdeal.Hand

end
-- ==== Proof.Ref.Run.lean ====
import proofs.«401853_j10514079941286_3_alg».proof.Proof.Ref.Term
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

abbrev ops1 : List (HloOp τ sig (Elt F)) :=
  [ nullary main_c (constantI S_ 32 0#32),
    unary main_c main_v0 (broadcastInDim S8x1024x20 ![] bcast_S_S8x1024x20),
    binary main_arg1 main_v0 main_v1 (cmpi .slt),
    nullary main_c_0 (constantI S_ 32 1024#32),
    unary main_c_0 main_v2 (broadcastInDim S8x1024x20 ![] bcast_S_S8x1024x20),
    binary main_arg1 main_v2 main_v3 addi,
    ternary main_v1 main_v3 main_arg1 main_v4 select,
    unary main_v4 main_v5 (broadcastInDim S8x1024x20x1 ![0, 1, 2] bcast_S8x1024x20_S8x1024x20x1_0_1_2),
    binary main_arg0 main_v5 main_v6 (fun x i => Host.gather gather_S8x1024x512_S8x1024x20x1_S8x1024x20x512_3_1_0_0_1_3_11512 x i) ]

abbrev ops2 : List (HloOp τ sig (Elt F)) :=
  [ unary main_arg0 main_v7 (broadcastInDim S8x1024x1x512 ![0, 1, 3] bcast_S8x1024x512_S8x1024x1x512_0_1_3),
    unary main_v7 main_v8 (broadcastInDim S8x1024x20x512 ![0, 1, 2, 3] bcast_S8x1024x1x512_S8x1024x20x512_0_1_2_3),
    binary main_v6 main_v8 main_v9 subf,
    unary main_v7 main_v10 (broadcastInDim S8x1024x20x512 ![0, 1, 2, 3] bcast_S8x1024x1x512_S8x1024x20x512_0_1_2_3) ]

abbrev ops3 : List (HloOp τ sig (Elt F)) :=
  [ binary main_v9 main_v10 main_v11 (fun a b => concatenate S8x1024x20x1024 3 [⟨S8x1024x20x512, a⟩, ⟨S8x1024x20x512, b⟩] concatenates_S8x1024x20x512_S8x1024x20x512_S8x1024x20x1024_d3),
    binary main_v11 main_arg2 main_v12 (fun l r => Host.dotGeneral dot_S8x1024x20x1024_S64x1024_S8x1024x20x64_3_1_012_0_n_n none l r),
    nullary main_cst (constant S_ .f32 0x00000000#32),
    binary main_v12 main_cst main_v13 (fun x v => Host.reduceAdd x v reducesTo_S8x1024x20x64_S64_d0_1_2 h_S_),
    unary main_v13 main_v14 (broadcastInDim S1x1x1x64 ![3] bcast_S64_S1x1x1x64_3),
    nullary main_cst_1 (constant S_ .f32 0x48200000#32),
    unary main_cst_1 main_v15 (broadcastInDim S1x1x1x64 ![] bcast_S_S1x1x1x64),
    binary main_v14 main_v15 main_v16 Host.divf ]

abbrev ops4 : List (HloOp τ sig (Elt F)) :=
  [ nullary main_c_2 (constantI S_ 32 0#32),
    TRef.nullary main_call0.cst (constant S_ .f32 0x00000000#32),
    TRef.binary (.of main_v12) main_call0.cst main_call0.v0 (fun x v => Host.reduceAdd x v reducesTo_S8x1024x20x64_S64_d0_1_2 h_S_),
    TRef.unary main_call0.v0 main_call0.v1 (broadcastInDim S1x1x1x64 ![3] bcast_S64_S1x1x1x64_3),
    TRef.nullary main_call0.cst_0 (constant S_ .f32 0x48200000#32),
    TRef.unary main_call0.cst_0 main_call0.v2 (broadcastInDim S1x1x1x64 ![] bcast_S_S1x1x1x64),
    TRef.binary main_call0.v1 main_call0.v2 main_call0.v3 Host.divf,
    TRef.unary main_call0.v3 main_call0.v4 (broadcastInDim S8x1024x20x64 ![0, 1, 2, 3] bcast_S1x1x1x64_S8x1024x20x64_0_1_2_3),
    TRef.binary (.of main_v12) main_call0.v4 main_call0.v5 subf,
    TRef.binary main_call0.v5 main_call0.v5 main_call0.v6 mulf,
    TRef.unary (.of main_c_2) main_call0.v7 (sitofp .f32),
    TRef.nullary main_call0.cst_1 (constant S_ .f32 0x48200000#32),
    TRef.binary main_call0.cst_1 main_call0.v7 main_call0.v8 subf ]

abbrev ops5 : List (HloOp τ sig (Elt F)) :=
  [ TRef.nullary main_call0.cst_2 (constant S_ .f32 0x00000000#32),
    TRef.binary main_call0.v6 main_call0.cst_2 main_call0.v9 (fun x v => Host.reduceAdd x v reducesTo_S8x1024x20x64_S64_d0_1_2 h_S_),
    TRef.unary main_call0.v9 main_call0.v10 (broadcastInDim S1x1x1x64 ![3] bcast_S64_S1x1x1x64_3),
    TRef.unary main_call0.v8 main_call0.v11 (broadcastInDim S1x1x1x64 ![] bcast_S_S1x1x1x64),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x1x1x64 ![] bcast_S_S1x1x1x64),
    TRef.ternary main_call0.v13 main_call0.v12 main_call0.call0.v1 main_call0.call0.v2 (fun p a b => select (broadcastInDim S1x1x1x64 ![] bcast_S_S1x1x1x64 p) a b),
    unary main_v16 main_v18 (broadcastInDim S8x1024x20x64 ![0, 1, 2, 3] bcast_S1x1x1x64_S8x1024x20x64_0_1_2_3),
    binary main_v12 main_v18 main_v19 subf ]

abbrev ops6 : List (HloOp τ sig (Elt F)) :=
  [ nullary main_cst_3 (constant S_ .f32 0x3727C5AC#32),
    unary main_cst_3 main_v20 (broadcastInDim S1x1x1x64 ![] bcast_S_S1x1x1x64),
    binary main_v17 main_v20 main_v21 addf,
    unary main_v21 main_v22 Host.rsqrt,
    unary main_v22 main_v23 (broadcastInDim S8x1024x20x64 ![0, 1, 2, 3] bcast_S1x1x1x64_S8x1024x20x64_0_1_2_3),
    binary main_v19 main_v23 main_v24 mulf,
    unary main_arg3 main_v25 (broadcastInDim S1x1x1x64 ![3] bcast_S64_S1x1x1x64_3),
    unary main_v25 main_v26 (broadcastInDim S8x1024x20x64 ![0, 1, 2, 3] bcast_S1x1x1x64_S8x1024x20x64_0_1_2_3),
    binary main_v24 main_v26 main_v27 mulf,
    unary main_arg4 main_v28 (broadcastInDim S1x1x1x64 ![3] bcast_S64_S1x1x1x64_3),
    unary main_v28 main_v29 (broadcastInDim S8x1024x20x64 ![0, 1, 2, 3] bcast_S1x1x1x64_S8x1024x20x64_0_1_2_3),
    binary main_v27 main_v29 main_v30 addf ]

abbrev ops7 : List (HloOp τ sig (Elt F)) :=
  [ nullary main_cst_4 (constant S_ .f32 0x00000000#32),
    unary main_cst_4 main_v31 (broadcastInDim S8x1024x20x64 ![] bcast_S_S8x1024x20x64),
    binary main_v30 main_v31 main_v32 (cmpf .oge),
    nullary main_cst_5 (constant S_ .f32 0x3E4CCCCD#32),
    unary main_cst_5 main_v33 (broadcastInDim S8x1024x20x64 ![] bcast_S_S8x1024x20x64),
    binary main_v33 main_v30 main_v34 mulf,
    TRef.ternary (.of main_v32) (.of main_v30) (.of main_v34) main_call1.v0 select,
    nullary main_cst_6 (constant S_ .f32 0xFF800000#32),
    binary main_v35 main_cst_6 main_v36 (fun x v => Host.reduce FloatOps.maximumf x v reducesTo_S8x1024x20x64_S8x1024x64_d2 h_S_),
    binary main_v36 main_arg5 main_v37 (fun l r => Host.dotGeneral dot_S8x1024x64_S512x64_S8x1024x512_2_1_01_0_n_n none l r) ]

abbrev ops8 : List (HloOp τ sig (Elt F)) :=
  [ nullary main_cst_7 (constant S_ .f32 0x00000000#32),
    binary main_v37 main_cst_7 main_v38 (fun x v => Host.reduceAdd x v reducesTo_S8x1024x512_S512_d0_1 h_S_),
    unary main_v38 main_v39 (broadcastInDim S1x1x512 ![2] bcast_S512_S1x1x512_2),
    nullary main_cst_8 (constant S_ .f32 0x46000000#32),
    unary main_cst_8 main_v40 (broadcastInDim S1x1x512 ![] bcast_S_S1x1x512),
    binary main_v39 main_v40 main_v41 Host.divf ]

abbrev ops9 : List (HloOp τ sig (Elt F)) :=
  [ nullary main_c_9 (constantI S_ 32 0#32),
    TRef.nullary main_call2.cst (constant S_ .f32 0x00000000#32),
    TRef.binary (.of main_v37) main_call2.cst main_call2.v0 (fun x v => Host.reduceAdd x v reducesTo_S8x1024x512_S512_d0_1 h_S_),
    TRef.unary main_call2.v0 main_call2.v1 (broadcastInDim S1x1x512 ![2] bcast_S512_S1x1x512_2),
    TRef.nullary main_call2.cst_0 (constant S_ .f32 0x46000000#32),
    TRef.unary main_call2.cst_0 main_call2.v2 (broadcastInDim S1x1x512 ![] bcast_S_S1x1x512),
    TRef.binary main_call2.v1 main_call2.v2 main_call2.v3 Host.divf,
    TRef.unary main_call2.v3 main_call2.v4 (broadcastInDim S8x1024x512 ![0, 1, 2] bcast_S1x1x512_S8x1024x512_0_1_2),
    TRef.binary (.of main_v37) main_call2.v4 main_call2.v5 subf,
    TRef.binary main_call2.v5 main_call2.v5 main_call2.v6 mulf,
    TRef.unary (.of main_c_9) main_call2.v7 (sitofp .f32),
    TRef.nullary main_call2.cst_1 (constant S_ .f32 0x46000000#32),
    TRef.binary main_call2.cst_1 main_call2.v7 main_call2.v8 subf ]

abbrev ops10 : List (HloOp τ sig (Elt F)) :=
  [ TRef.nullary main_call2.cst_2 (constant S_ .f32 0x00000000#32),
    TRef.binary main_call2.v6 main_call2.cst_2 main_call2.v9 (fun x v => Host.reduceAdd x v reducesTo_S8x1024x512_S512_d0_1 h_S_),
    TRef.unary main_call2.v9 main_call2.v10 (broadcastInDim S1x1x512 ![2] bcast_S512_S1x1x512_2),
    TRef.unary main_call2.v8 main_call2.v11 (broadcastInDim S1x1x512 ![] bcast_S_S1x1x512),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1x1x512 ![] bcast_S_S1x1x512),
    TRef.ternary main_call2.v13 main_call2.v12 main_call2.call0.v1 main_call2.call0.v2 (fun p a b => select (broadcastInDim S1x1x512 ![] bcast_S_S1x1x512 p) a b),
    unary main_v41 main_v43 (broadcastInDim S8x1024x512 ![0, 1, 2] bcast_S1x1x512_S8x1024x512_0_1_2),
    binary main_v37 main_v43 main_v44 subf ]

abbrev ops11 : List (HloOp τ sig (Elt F)) :=
  [ nullary main_cst_10 (constant S_ .f32 0x3727C5AC#32),
    unary main_cst_10 main_v45 (broadcastInDim S1x1x512 ![] bcast_S_S1x1x512),
    binary main_v42 main_v45 main_v46 addf,
    unary main_v46 main_v47 Host.rsqrt,
    unary main_v47 main_v48 (broadcastInDim S8x1024x512 ![0, 1, 2] bcast_S1x1x512_S8x1024x512_0_1_2),
    binary main_v44 main_v48 main_v49 mulf,
    unary main_arg6 main_v50 (broadcastInDim S1x1x512 ![2] bcast_S512_S1x1x512_2),
    unary main_v50 main_v51 (broadcastInDim S8x1024x512 ![0, 1, 2] bcast_S1x1x512_S8x1024x512_0_1_2),
    binary main_v49 main_v51 main_v52 mulf,
    unary main_arg7 main_v53 (broadcastInDim S1x1x512 ![2] bcast_S512_S1x1x512_2),
    unary main_v53 main_v54 (broadcastInDim S8x1024x512 ![0, 1, 2] bcast_S1x1x512_S8x1024x512_0_1_2),
    binary main_v52 main_v54 main_v55 addf ]

abbrev ops12 : List (HloOp τ sig (Elt F)) :=
  [ nullary main_cst_11 (constant S_ .f32 0x00000000#32),
    unary main_cst_11 main_v56 (broadcastInDim S8x1024x512 ![] bcast_S_S8x1024x512),
    binary main_v55 main_v56 main_v57 (cmpf .oge),
    nullary main_cst_12 (constant S_ .f32 0x3E4CCCCD#32),
    unary main_cst_12 main_v58 (broadcastInDim S8x1024x512 ![] bcast_S_S8x1024x512),
    binary main_v58 main_v55 main_v59 mulf,
    TRef.ternary (.of main_v57) (.of main_v55) (.of main_v59) main_call3.v0 select ]

abbrev ops : List (HloOp τ sig (Elt F)) :=
  ops1 ++ (ops2 ++ (ops3 ++ (ops4 ++ (ops5 ++ (ops6 ++ (ops7 ++ (ops8 ++ (ops9 ++ (ops10 ++ (ops11 ++ ops12))))))))))

set_option maxHeartbeats 4000000 in
theorem main_eq (c : Dev nD) : main (F := F) c = seq ops := by
  simp only [main, main_part0, main_part1, fn_var.body, fn_where.body, fn_where_0.body, fn_var_1.body, fn_where_2.body,
    fn_where_3.body, bind_assoc, pure_bind]
  rfl

/-- `op` is one of the four builders, with result buffer `y`. -/
inductive Built : HloOp τ sig (Elt F) → Ref sig .tc → Prop
  | n {y v hy} : Built (nullary y v hy) y
  | u {x y f hx hy} : Built (unary x y f hx hy) y
  | b {a b y f ha hb hy} : Built (binary a b y f ha hb hy) y
  | t {c a b y f hc ha hb hy} : Built (ternary c a b y f hc ha hb hy) y

theorem sub_of {l : List (HloOp τ sig (Elt F))} {W : List (Ref sig .tc)} (h : List.Forall₂ Built l W) :
    l.Forall fun op => op.bufs ⊆ tcRefs τ sig := by
  induction h with
  | nil => trivial
  | cons hb _ ih =>
    refine (List.forall_cons _ _ _).mpr ⟨?_, ih⟩
    cases hb
    exacts [nullary_bufs_sub .., unary_bufs_sub .., binary_bufs_sub .., ternary_bufs_sub ..]

/-- A line of builders whose result buffers are `W` leaves every buffer outside `W` as it was. -/
theorem keep {l : List (HloOp τ sig (Elt F))} {W : List (Ref sig .tc)} (h : List.Forall₂ Built l W) (V : Valuation τ sig (Elt F))
    {r : Ref sig .tc} (hr : r ∉ W) : after l V (no_index (Proc.devRef .tc r)) = V (Proc.devRef .tc r) := by
  induction h generalizing V with
  | nil => rfl
  | cons hb _ ih =>
    rw [after_cons, ih _ (List.not_mem_of_not_mem_cons hr), HloOp.result_of_not_mem]
    cases hb <;> exact fun e => List.ne_of_not_mem_cons hr (Proc.devRef_injective _ (Finset.mem_singleton.mp e))

abbrev args : List (Ref sig .tc) := [main_arg0, main_arg1, main_arg2, main_arg3, main_arg4, main_arg5, main_arg6, main_arg7]

/-- `V` has the contents `V0` on the eight argument buffers. -/
def Keeps (V V0 : Valuation τ sig (Elt F)) : Prop := ∀ r ∈ args, V (no_index (Proc.devRef .tc r)) = V0 (Proc.devRef .tc r)

theorem Keeps.step {V V0 : Valuation τ sig (Elt F)} (hV : Keeps V V0) {l : List (HloOp τ sig (Elt F))} {W : List (Ref sig .tc)}
    (h : List.Forall₂ Built l W) (hW : ∀ r ∈ args, r ∉ W) : Keeps (after l V) V0 :=
  fun r hr => (keep h V (hW r hr)).trans (hV r hr)

variable (V0 : Valuation τ sig (Elt F))

def val1 : Valuation τ sig (Elt F) := after ops1 V0
abbrev ops1_W : List (Ref sig .tc) := [main_c, main_v0, main_v1, main_c_0, main_v2, main_v3, main_v4, main_v5, main_v6]
theorem ops1_built : List.Forall₂ Built (ops1 : List (HloOp τ sig (Elt F))) ops1_W := by repeat constructor
theorem arg1 : Keeps (val1 V0) V0 := Keeps.step (fun _ _ => rfl) ops1_built (by decide)
theorem val1_main_v6 : val1 V0 (no_index (Proc.devRef .tc main_v6)) = val_main_v6 (V0 (Proc.devRef .tc main_arg0)) (V0 (Proc.devRef .tc main_arg1)) := by
  unfold val1
  simp only [ops1]
  after_results_simp
  rfl

def val2 : Valuation τ sig (Elt F) := after ops2 (val1 V0)
abbrev ops2_W : List (Ref sig .tc) := [main_v7, main_v8, main_v9, main_v10]
theorem ops2_built : List.Forall₂ Built (ops2 : List (HloOp τ sig (Elt F))) ops2_W := by repeat constructor
theorem arg2 : Keeps (val2 V0) V0 := Keeps.step (arg1 V0) ops2_built (by decide)
theorem val2_main_v9 : val2 V0 (no_index (Proc.devRef .tc main_v9)) = val_main_v9 (V0 (Proc.devRef .tc main_arg0)) (V0 (Proc.devRef .tc main_arg1)) := by
  unfold val2
  simp only [ops2]
  after_results_simp
  simp only [arg1 V0 main_arg0 (by decide), val1_main_v6]
  rfl
theorem val2_main_v10 : val2 V0 (no_index (Proc.devRef .tc main_v10)) = val_main_v10 (V0 (Proc.devRef .tc main_arg0)) := by
  unfold val2
  simp only [ops2]
  after_results_simp
  simp only [arg1 V0 main_arg0 (by decide)]
  rfl

def val3 : Valuation τ sig (Elt F) := after ops3 (val2 V0)
abbrev ops3_W : List (Ref sig .tc) := [main_v11, main_v12, main_cst, main_v13, main_v14, main_cst_1, main_v15, main_v16]
theorem ops3_built : List.Forall₂ Built (ops3 : List (HloOp τ sig (Elt F))) ops3_W := by repeat constructor
theorem arg3 : Keeps (val3 V0) V0 := Keeps.step (arg2 V0) ops3_built (by decide)
theorem val3_main_v12 : val3 V0 (no_index (Proc.devRef .tc main_v12)) = val_main_v12 (V0 (Proc.devRef .tc main_arg0)) (V0 (Proc.devRef .tc main_arg1)) (V0 (Proc.devRef .tc main_arg2)) := by
  unfold val3
  simp only [ops3]
  after_results_simp
  repeat (first | rw [arg2 V0 main_arg2 (by decide)] | rw [val2_main_v10] | rw [val2_main_v9])
  rfl
theorem val3_main_v16 : val3 V0 (no_index (Proc.devRef .tc main_v16)) = val_main_v16 (V0 (Proc.devRef .tc main_arg0)) (V0 (Proc.devRef .tc main_arg1)) (V0 (Proc.devRef .tc main_arg2)) := by
  unfold val3
  simp only [ops3]
  after_results_simp
  repeat (first | rw [arg2 V0 main_arg2 (by decide)] | rw [val2_main_v10] | rw [val2_main_v9])
  rfl

def val4 : Valuation τ sig (Elt F) := after ops4 (val3 V0)
abbrev ops4_W : List (Ref sig .tc) := [main_c_2, main_call0_cst, main_call0_v0, main_call0_v1, main_call0_cst_0, main_call0_v2, main_call0_v3, main_call0_v4, main_call0_v5, main_call0_v6, main_call0_v7, main_call0_cst_1, main_call0_v8]
theorem ops4_built : List.Forall₂ Built (ops4 : List (HloOp τ sig (Elt F))) ops4_W := by repeat constructor
theorem arg4 : Keeps (val4 V0) V0 := Keeps.step (arg3 V0) ops4_built (by decide)
theorem val4_main_v12 : val4 V0 (no_index (Proc.devRef .tc main_v12)) = val_main_v12 (V0 (Proc.devRef .tc main_arg0)) (V0 (Proc.devRef .tc main_arg1)) (V0 (Proc.devRef .tc main_arg2)) :=
  (keep ops4_built _ (by decide : main_v12 ∉ ops4_W)).trans (val3_main_v12 V0)
theorem val4_main_v16 : val4 V0 (no_index (Proc.devRef .tc main_v16)) = val_main_v16 (V0 (Proc.devRef .tc main_arg0)) (V0 (Proc.devRef .tc main_arg1)) (V0 (Proc.devRef .tc main_arg2)) :=
  (keep ops4_built _ (by decide : main_v16 ∉ ops4_W)).trans (val3_main_v16 V0)
theorem val4_main_call0_v6 : val4 V0 (no_index (Proc.devRef .tc main_call0_v6)) = val_main_call0_v6 (V0 (Proc.devRef .tc main_arg0)) (V0 (Proc.devRef .tc main_arg1)) (V0 (Proc.devRef .tc main_arg2)) := by
  unfold val4
  simp only [ops4]
  after_results_simp
  simp only [val3_main_v12]
  rfl
theorem val4_main_call0_v8 : val4 V0 (no_index (Proc.devRef .tc main_call0_v8)) = val_main_call0_v8 (F := F) := by
  unfold val4
  simp only [ops4]
  after_results_simp
  rfl

def val5 : Valuation τ sig (Elt F) := after ops5 (val4 V0)
abbrev ops5_W : List (Ref sig .tc) := [main_call0_cst_2, main_call0_v9, main_call0_v10, main_call0_v11, main_call0_v12, main_call0_cst_3, main_call0_v13, main_call0_cst_4, main_call0_call0_v0, main_call0_call0_v1, main_v17, main_v18, main_v19]
theorem ops5_built : List.Forall₂ Built (ops5 : List (HloOp τ sig (Elt F))) ops5_W := by repeat constructor
theorem arg5 : Keeps (val5 V0) V0 := Keeps.step (arg4 V0) ops5_built (by decide)
theorem val5_main_v17 : val5 V0 (no_index (Proc.devRef .tc main_v17)) = val_main_v17 (V0 (Proc.devRef .tc main_arg0)) (V0 (Proc.devRef .tc main_arg1)) (V0 (Proc.devRef .tc main_arg2)) := by
  unfold val5
  simp only [ops5]
  after_results_simp
  simp only [val4_main_call0_v8, val4_main_call0_v6]
  rfl
theorem val5_main_v19 : val5 V0 (no_index (Proc.devRef .tc main_v19)) = val_main_v19 (V0 (Proc.devRef .tc main_arg0)) (V0 (Proc.devRef .tc main_arg1)) (V0 (Proc.devRef .tc main_arg2)) := by
  unfold val5
  simp only [ops5]
  after_results_simp
  simp only [val4_main_v16, val4_main_v12]
  rfl

def val6 : Valuation τ sig (Elt F) := after ops6 (val5 V0)
abbrev ops6_W : List (Ref sig .tc) := [main_cst_3, main_v20, main_v21, main_v22, main_v23, main_v24, main_v25, main_v26, main_v27, main_v28, main_v29, main_v30]
theorem ops6_built : List.Forall₂ Built (ops6 : List (HloOp τ sig (Elt F))) ops6_W := by repeat constructor
theorem arg6 : Keeps (val6 V0) V0 := Keeps.step (arg5 V0) ops6_built (by decide)
theorem val6_main_v30 : val6 V0 (no_index (Proc.devRef .tc main_v30)) = val_main_v30 (V0 (Proc.devRef .tc main_arg0)) (V0 (Proc.devRef .tc main_arg1)) (V0 (Proc.devRef .tc main_arg2)) (V0 (Proc.devRef .tc main_arg3)) (V0 (Proc.devRef .tc main_arg4)) := by
  unfold val6
  simp only [ops6]
  after_results_simp
  simp only [arg5 V0 main_arg4 (by decide), arg5 V0 main_arg3 (by decide), val5_main_v17, val5_main_v19]
  rfl

def val7 : Valuation τ sig (Elt F) := after ops7 (val6 V0)
abbrev ops7_W : List (Ref sig .tc) := [main_cst_4, main_v31, main_v32, main_cst_5, main_v33, main_v34, main_v35, main_cst_6, main_v36, main_v37]
theorem ops7_built : List.Forall₂ Built (ops7 : List (HloOp τ sig (Elt F))) ops7_W := by repeat constructor
theorem arg7 : Keeps (val7 V0) V0 := Keeps.step (arg6 V0) ops7_built (by decide)
theorem val7_main_v37 : val7 V0 (no_index (Proc.devRef .tc main_v37)) = val_main_v37 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val7
  simp only [ops7]
  after_results_simp
  simp only [arg6 V0 main_arg5 (by decide), val6_main_v30]
  rfl

def val8 : Valuation τ sig (Elt F) := after ops8 (val7 V0)
abbrev ops8_W : List (Ref sig .tc) := [main_cst_7, main_v38, main_v39, main_cst_8, main_v40, main_v41]
theorem ops8_built : List.Forall₂ Built (ops8 : List (HloOp τ sig (Elt F))) ops8_W := by repeat constructor
theorem arg8 : Keeps (val8 V0) V0 := Keeps.step (arg7 V0) ops8_built (by decide)
theorem val8_main_v37 : val8 V0 (no_index (Proc.devRef .tc main_v37)) = val_main_v37 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (keep ops8_built _ (by decide : main_v37 ∉ ops8_W)).trans (val7_main_v37 V0)
theorem val8_main_v41 : val8 V0 (no_index (Proc.devRef .tc main_v41)) = val_main_v41 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val8
  simp only [ops8]
  after_results_simp
  simp only [val7_main_v37]
  rfl

def val9 : Valuation τ sig (Elt F) := after ops9 (val8 V0)
abbrev ops9_W : List (Ref sig .tc) := [main_c_9, main_call2_cst, main_call2_v0, main_call2_v1, main_call2_cst_0, main_call2_v2, main_call2_v3, main_call2_v4, main_call2_v5, main_call2_v6, main_call2_v7, main_call2_cst_1, main_call2_v8]
theorem ops9_built : List.Forall₂ Built (ops9 : List (HloOp τ sig (Elt F))) ops9_W := by repeat constructor
theorem arg9 : Keeps (val9 V0) V0 := Keeps.step (arg8 V0) ops9_built (by decide)
theorem val9_main_v37 : val9 V0 (no_index (Proc.devRef .tc main_v37)) = val_main_v37 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (keep ops9_built _ (by decide : main_v37 ∉ ops9_W)).trans (val8_main_v37 V0)
theorem val9_main_v41 : val9 V0 (no_index (Proc.devRef .tc main_v41)) = val_main_v41 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (keep ops9_built _ (by decide : main_v41 ∉ ops9_W)).trans (val8_main_v41 V0)
theorem val9_main_call2_v6 : val9 V0 (no_index (Proc.devRef .tc main_call2_v6)) = val_main_call2_v6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val9
  simp only [ops9]
  after_results_simp
  simp only [val8_main_v37]
  rfl
theorem val9_main_call2_v8 : val9 V0 (no_index (Proc.devRef .tc main_call2_v8)) = val_main_call2_v8 (F := F) := by
  unfold val9
  simp only [ops9]
  after_results_simp
  rfl

def val10 : Valuation τ sig (Elt F) := after ops10 (val9 V0)
abbrev ops10_W : List (Ref sig .tc) := [main_call2_cst_2, main_call2_v9, main_call2_v10, main_call2_v11, main_call2_v12, main_call2_cst_3, main_call2_v13, main_call2_cst_4, main_call2_call0_v0, main_call2_call0_v1, main_v42, main_v43, main_v44]
theorem ops10_built : List.Forall₂ Built (ops10 : List (HloOp τ sig (Elt F))) ops10_W := by repeat constructor
theorem arg10 : Keeps (val10 V0) V0 := Keeps.step (arg9 V0) ops10_built (by decide)
theorem val10_main_v42 : val10 V0 (no_index (Proc.devRef .tc main_v42)) = val_main_v42 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val10
  simp only [ops10]
  after_results_simp
  simp only [val9_main_call2_v8, val9_main_call2_v6]
  rfl
theorem val10_main_v44 : val10 V0 (no_index (Proc.devRef .tc main_v44)) = val_main_v44 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val10
  simp only [ops10]
  after_results_simp
  simp only [val9_main_v41, val9_main_v37]
  rfl

def val11 : Valuation τ sig (Elt F) := after ops11 (val10 V0)
abbrev ops11_W : List (Ref sig .tc) := [main_cst_10, main_v45, main_v46, main_v47, main_v48, main_v49, main_v50, main_v51, main_v52, main_v53, main_v54, main_v55]
theorem ops11_built : List.Forall₂ Built (ops11 : List (HloOp τ sig (Elt F))) ops11_W := by repeat constructor
theorem arg11 : Keeps (val11 V0) V0 := Keeps.step (arg10 V0) ops11_built (by decide)
theorem val11_main_v55 : val11 V0 (no_index (Proc.devRef .tc main_v55)) = val_main_v55 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val11
  simp only [ops11]
  after_results_simp
  simp only [arg10 V0 main_arg7 (by decide), arg10 V0 main_arg6 (by decide), val10_main_v42, val10_main_v44]
  rfl

def val12 : Valuation τ sig (Elt F) := after ops12 (val11 V0)
abbrev ops12_W : List (Ref sig .tc) := [main_cst_11, main_v56, main_v57, main_cst_12, main_v58, main_v59, main_v60]
theorem ops12_built : List.Forall₂ Built (ops12 : List (HloOp τ sig (Elt F))) ops12_W := by repeat constructor
theorem arg12 : Keeps (val12 V0) V0 := Keeps.step (arg11 V0) ops12_built (by decide)
theorem val12_main_v60 : val12 V0 (no_index (Proc.devRef .tc main_v60)) = val_main_v60 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val12
  simp only [ops12]
  after_results_simp
  simp only [val11_main_v55]
  rfl

theorem after_ops : after ops V0 = val12 V0 := by
  simp only [ops, after_append]
  rfl

theorem ops_sub : (ops : List (HloOp τ sig (Elt F))).Forall fun op => op.bufs ⊆ tcRefs τ sig :=
  sub_of (List.rel_append ops1_built <| List.rel_append ops2_built <| List.rel_append ops3_built <| List.rel_append ops4_built <| List.rel_append ops5_built <| List.rel_append ops6_built <| List.rel_append ops7_built <| List.rel_append ops8_built <| List.rel_append ops9_built <| List.rel_append ops10_built <| List.rel_append ops11_built <| ops12_built)

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v60) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
    have a : ∀ r ∈ args, s.2.mem ((c.tc : Thread nD τ).loc r) = m ((c.tc : Thread nD τ).loc r) :=
      fun r hr => (h c r).trans ((congrFun (after_ops _) _).trans (arg12 _ r hr))
    ⟨(h c main_v60).trans ((congrFun (after_ops _) _).trans (val12_main_v60 _)), a _ (by decide), a _ (by decide),
      a _ (by decide), a _ (by decide), a _ (by decide), a _ (by decide), a _ (by decide), a _ (by decide)⟩)
    (run_seq (by decide) (by decide) defs main (fun _ => ops) main_eq (fun _ => ops_sub) m ρ)

theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run m ρ)

end Cert.ReferenceIdeal.Hand

end
-- ==== Proof.Ref.Value.lean ====
import proofs.«401853_j10514079941286_3_alg».proof.Proof.Ref.Term
import proofs.«401853_j10514079941286_3_alg».proof.Proof.Spec
import proofs.«401853_j10514079941286_3_alg».proof.Proof.Gen.ReferenceIdeal
import Idealize.ShloMosaic.PureOps.Ideal.Laws
import Idealize.ShloMosaic.Lib.IdealHost
import Idealize.ShloMosaic.Lib.Pipeline.Value
import Idealize.ShloMosaic.Lib.ValueIdx

noncomputable section

namespace Cert.ReferenceIdeal.Hand

open Cert.ReferenceIdeal Idealize.ShloMosaic Idealize.SL.Sem Idealize.ShloMosaic.ValueIdx
open scoped BigOperators

open Cert.ReferenceIdeal.Facts₀ Cert.ReferenceIdeal.Facts

/-- A sum over a rank-3 or rank-4 index set is the iterated sum over its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A statement about every axis of a rank-2, rank-3 or rank-4 shape, axis by axis. -/
theorem fin2 {P : Fin 2 → Prop} (h0 : P 0) (h1 : P 1) : ∀ a, P a := fun a => by
  match a with | ⟨0, _⟩ => exact h0 | ⟨1, _⟩ => exact h1
theorem fin3 {P : Fin 3 → Prop} (h0 : P 0) (h1 : P 1) (h2 : P 2) : ∀ a, P a := fun a => by
  match a with | ⟨0, _⟩ => exact h0 | ⟨1, _⟩ => exact h1 | ⟨2, _⟩ => exact h2
theorem fin4 {P : Fin 4 → Prop} (h0 : P 0) (h1 : P 1) (h2 : P 2) (h3 : P 3) : ∀ a, P a := fun a => by
  match a with | ⟨0, _⟩ => exact h0 | ⟨1, _⟩ => exact h1 | ⟨2, _⟩ => exact h2 | ⟨3, _⟩ => exact h3

/-- A float sum from 0.0 over some axes is the sum of the entries whose kept coordinates are the result index. -/
theorem reduceAdd0 {s t : Shape} {axes : List (Fin s.rank)} (h : s.ReducesTo axes t) (x : FVec Ideal s .f32) (j : t.Idx) :
    Host.reduceAdd x (constant (F := Ideal) S_ .f32 0x00000000#32) h h_S_ j = ∑ i, if h.drop i = j then x i else 0 := by
  rw [hostReduceAdd_apply]
  unfold Ideal.hostReduceAdd
  rw [constant_apply, Ideal.ofBits_zero_f32, zero_add, Finset.sum_filter]

/-- Along the one kept axis, only the entry at channel m drops to m. -/
theorem sum_pick {s : Shape} {axes : List (Fin s.rank)} {N : Nat} (h : s.ReducesTo axes ⟨1, ![N]⟩) (x : s.Idx → EReal) (m : Fin N)
    (I : Fin N → s.Idx) (hI : ∀ m', (h.drop (I m') 0 : Nat) = m') :
    ∑ m', (if h.drop (I m') = ix1 m then x (I m') else 0) = x (I m) := by
  have key : ∀ m', h.drop (I m') = ix1 m ↔ m' = m := fun m' => by
    simp [funext_iff, Fin.ext_iff, Fin.forall_fin_one, hI]
  simp only [key]
  rw [Finset.sum_ite_eq' Finset.univ m]
  simp

/-- A product with one contracted axis, read at an index, is the sum over that axis of the operands at the named indices. -/
theorem dot_apply {sl sr so : Shape} (D : DotDims sl sr so) (N : Nat) (hr : D.contr.rank = 1) (hs : D.contr.size ⟨0, by omega⟩ = N)
    (l : FVec Ideal sl .f32) (r : FVec Ideal sr .f32) (j : so.Idx) (L : Fin N → sl.Idx) (R : Fin N → sr.Idx)
    (hl : ∀ q, D.lhsIdx j q = L (contrEquiv1 D N hr hs q)) (hR : ∀ q, D.rhsIdx j q = R (contrEquiv1 D N hr hs q)) :
    Host.dotGeneral D none l r j = ∑ c, l (L c) * r (R c) := by
  simp only [Host.dotGeneral]
  rw [Ideal.dotGeneral_apply, ← Equiv.sum_comp (contrEquiv1 D N hr hs)]
  exact Finset.sum_congr rfl fun q _ => by rw [hl, hR]

/-- Subtracting a zero correction from the count leaves the count. -/
theorem cnt_apply (w : BitVec 32) (i : S_.Idx) :
    subf (constant (F := Ideal) S_ .f32 w) (sitofp .f32 (constantI S_ 32 0#32)) i = Ideal.ofBits .f32 w := by
  rw [subf_apply, constant_apply, sitofp_apply]
  show Ideal.ofBits .f32 w - (((0#32 : BitVec 32).toInt : ℝ) : EReal) = _
  rw [BitVec.toInt_zero, Int.cast_zero, EReal.coe_zero, sub_zero]

/-- A positive count is greater than 0.0, so the comparison bit is set. -/
theorem guard_apply (w : BitVec 32) (hw : (0 : EReal) < Ideal.ofBits .f32 w) (i : S_.Idx) :
    cmpf .ogt (subf (constant (F := Ideal) S_ .f32 w) (sitofp .f32 (constantI S_ 32 0#32))) (constant (F := Ideal) S_ .f32 0x00000000#32) i = 1#1 := by
  rw [cmpf_apply, cnt_apply, constant_apply, Ideal.ofBits_zero_f32]
  show BitVec.ofBool (decide ((0 : EReal) < Ideal.ofBits .f32 w)) = 1#1
  rw [decide_eq_true hw]
  rfl

theorem cnt1_pos : (0 : EReal) < Ideal.ofBits .f32 0x48200000#32 := by
  have : Ideal.ofBits .f32 0x48200000#32 = ((163840 : ℝ) : EReal) := by
    simp [Ideal.ofBits, Ideal.ieee, -EReal.coe_mul]; norm_num
  rw [this]; exact_mod_cast (by norm_num : (0 : ℝ) < 163840)

theorem cnt2_pos : (0 : EReal) < Ideal.ofBits .f32 0x46000000#32 := by
  have : Ideal.ofBits .f32 0x46000000#32 = ((8192 : ℝ) : EReal) := by
    simp [Ideal.ofBits, Ideal.ieee, -EReal.coe_mul]; norm_num
  rw [this]; exact_mod_cast (by norm_num : (0 : ℝ) < 8192)

theorem ofBits_neg_inf : Ideal.ofBits .f32 0xFF800000#32 = ⊥ := by
  simp [Ideal.ofBits, Ideal.ieee]

/-- Choosing v where 0 ≤ v and slope · v elsewhere is the leaky ReLU. -/
theorem leaky_form (v : EReal) :
    Scalar.select (Ideal.cmp .oge v 0) v (Cert.Spec.slope * v) = Cert.Spec.leaky v := by
  unfold Cert.Spec.leaky
  show Scalar.select (BitVec.ofBool (decide ((0 : EReal) ≤ v))) v (Cert.Spec.slope * v) = _
  by_cases h : (0 : EReal) ≤ v
  · rw [if_pos h, decide_eq_true h]; exact select_one _ _
  · rw [if_neg h, decide_eq_false h]; exact select_zero _ _

section
variable {a0 : (⟨S8x1024x512, .f32⟩ : BufTy).Contents (Elt Ideal)} {a1 : (⟨S8x1024x20, .i32⟩ : BufTy).Contents (Elt Ideal)}
  {a2 : (⟨S64x1024, .f32⟩ : BufTy).Contents (Elt Ideal)} {a3 a4 : (⟨S64, .f32⟩ : BufTy).Contents (Elt Ideal)}
  {a5 : (⟨S512x64, .f32⟩ : BufTy).Contents (Elt Ideal)} {a6 a7 : (⟨S512, .f32⟩ : BufTy).Contents (Elt Ideal)}
  (hidx : Cert.Spec.InRange (Cert.Spec.cur3 a1)) (b : Fin 8) (n : Fin 1024) (k : Fin 20) (m : Fin 64) (d : Fin 512)

/-- The row gather at (b, n, k, d): batch b, the row the start index names once clamped into [0, 1023], column d. -/
theorem gather_apply {α : Type} {w : Nat} (idx : IVec S8x1024x20x1 w) (x : S8x1024x512.Idx → α) :
    Host.gather gather_S8x1024x512_S8x1024x20x1_S8x1024x20x512_3_1_0_0_1_3_11512 x idx (ix4 b n k d)
      = x (ix3 b ⟨min (idx (ix4 b n k ⟨0, Nat.one_pos⟩)).toInt.toNat 1023, by omega⟩ d) := by
  unfold Host.gather
  refine congrArg x (funext fun a => Fin.ext ?_)
  match a with
  | ⟨0, _⟩ =>
    show GatherDims.start _ _ idx 0 + GatherDims.batchCoord _ _ 0 + GatherDims.offCoord _ _ 0 = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show GatherDims.start _ _ idx 1 + GatherDims.batchCoord _ _ 1 + GatherDims.offCoord _ _ 1 = min _ 1023
    rw [GatherDims.batchCoord_eq_zero _ _ _ (fun h => absurd (Fin.val_eq_of_eq (List.mem_singleton.mp h)) (show ¬ (1 : ℕ) = 0 by omega)),
      GatherDims.offCoord_eq_zero _ _ _ (fun h => ((GatherDims.mem_sKept _ _).mp h).1 (List.mem_singleton.mpr rfl)), Nat.add_zero]
    unfold GatherDims.start
    rw [dif_pos (show (1 : Fin 3) ∈ gather_S8x1024x512_S8x1024x20x1_S8x1024x20x512_3_1_0_0_1_3_11512.startIndexMap from List.mem_singleton.mpr rfl)]
    have hsi : gather_S8x1024x512_S8x1024x20x1_S8x1024x20x512_3_1_0_0_1_3_11512.siIdx (ix4 b n k d) ⟨List.idxOf (1 : Fin 3) gather_S8x1024x512_S8x1024x20x1_S8x1024x20x512_3_1_0_0_1_3_11512.startIndexMap,
        List.idxOf_lt_length_iff.2 (List.mem_singleton.mpr rfl)⟩ = ix4 b n k ⟨0, Nat.one_pos⟩ :=
      funext (fin4 rfl rfl rfl rfl)
    rw [hsi]
    rfl
  | ⟨2, _⟩ =>
    show GatherDims.start _ _ idx 2 + GatherDims.batchCoord _ _ 2 + GatherDims.offCoord _ _ 2 = d.val
    rw [GatherDims.batchCoord_eq_zero _ _ _ (fun h => absurd (Fin.val_eq_of_eq (List.mem_singleton.mp h)) (show ¬ (2 : ℕ) = 0 by omega))]
    unfold GatherDims.start
    rw [dif_neg (by decide), Nat.add_zero, Nat.zero_add]
    rfl

abbrev chan4 : S1x1x1x64.Idx := ix4 (⟨0, Nat.one_pos⟩ : Fin 1) (⟨0, Nat.one_pos⟩ : Fin 1) (⟨0, Nat.one_pos⟩ : Fin 1) m
abbrev chan3 : S1x1x512.Idx := ix3 (⟨0, Nat.one_pos⟩ : Fin 1) (⟨0, Nat.one_pos⟩ : Fin 1) d

theorem bcast4_apply {α : Type} (x : S1x1x1x64.Idx → α) :
    broadcastInDim S8x1024x20x64 ![0, 1, 2, 3] bcast_S1x1x1x64_S8x1024x20x64_0_1_2_3 x (ix4 b n k m) = x (chan4 m) :=
  broadcastInDim_apply _ _ _ _ _ (fin4 rfl rfl rfl rfl)

theorem bcastc4_apply {α : Type} (x : S64.Idx → α) : broadcastInDim S1x1x1x64 ![3] bcast_S64_S1x1x1x64_3 x (chan4 m) = x (ix1 m) :=
  broadcastInDim_apply _ _ _ _ _ (Fin.forall_fin_one.2 rfl)

theorem bcast3_apply {α : Type} (x : S1x1x512.Idx → α) :
    broadcastInDim S8x1024x512 ![0, 1, 2] bcast_S1x1x512_S8x1024x512_0_1_2 x (ix3 b n d) = x (chan3 d) :=
  broadcastInDim_apply _ _ _ _ _ (fin3 rfl rfl rfl)

theorem bcastc3_apply {α : Type} (x : S512.Idx → α) : broadcastInDim S1x1x512 ![2] bcast_S512_S1x1x512_2 x (chan3 d) = x (ix1 d) :=
  broadcastInDim_apply _ _ _ _ _ (Fin.forall_fin_one.2 rfl)

/-- The float sum over (b, n, k) from 0.0, read at channel m, of an array whose entries are known. -/
theorem reduceAdd_bnk (x : FVec Ideal S8x1024x20x64 .f32) (f : Fin 8 → Fin 1024 → Fin 20 → EReal) (hx : ∀ b n k, x (ix4 b n k m) = f b n k) :
    Host.reduceAdd x (constant (F := Ideal) S_ .f32 0x00000000#32) reducesTo_S8x1024x20x64_S64_d0_1_2 h_S_ (ix1 m)
      = ∑ b, ∑ n, ∑ k, f b n k := by
  rw [reduceAdd0, sum_idx4]
  exact Finset.sum_congr rfl fun b _ => Finset.sum_congr rfl fun n _ => Finset.sum_congr rfl fun k _ =>
    (sum_pick _ x m (ix4 b n k) fun _ => reducesTo_S8x1024x20x64_S64_d0_1_2.drop_apply_val_of_eq _ 0 3).trans (hx b n k)

/-- The float sum over (b, n) from 0.0, read at channel d, of an array whose entries are known. -/
theorem reduceAdd_bn (x : FVec Ideal S8x1024x512 .f32) (f : Fin 8 → Fin 1024 → EReal) (hx : ∀ b n, x (ix3 b n d) = f b n) :
    Host.reduceAdd x (constant (F := Ideal) S_ .f32 0x00000000#32) reducesTo_S8x1024x512_S512_d0_1 h_S_ (ix1 d) = ∑ b, ∑ n, f b n := by
  rw [reduceAdd0, sum_idx3]
  exact Finset.sum_congr rfl fun b _ => Finset.sum_congr rfl fun n _ =>
    (sum_pick _ x d (ix3 b n) fun _ => reducesTo_S8x1024x512_S512_d0_1.drop_apply_val_of_eq _ 0 2).trans (hx b n)

/-- A trailing unit axis does not change the entry. -/
theorem v5_apply : val_main_v5 (F := Ideal) a1 (ix4 b n k ⟨0, Nat.one_pos⟩) = val_main_v4 (F := Ideal) a1 (ix3 b n k) := by
  unfold val_main_v5
  exact broadcastInDim_apply _ _ _ _ (ix3 b n k) (fin3 rfl rfl rfl)

/-- Broadcast over the neighbour axis, every neighbour slot holds the centre node's row. -/
theorem v8_apply : val_main_v8 (F := Ideal) a0 (ix4 b n k d) = a0 (ix3 b n d) := by
  unfold val_main_v8 val_main_v7
  rw [broadcastInDim_apply _ _ _ (ix4 b n k d) (ix4 b n ⟨0, Nat.one_pos⟩ d) (fin4 rfl rfl rfl rfl)]
  exact broadcastInDim_apply _ _ _ _ (ix3 b n d) (fin3 rfl rfl rfl)

include hidx

/-- The wrap adds 1024 only to negative words, and an in-range word is not negative. -/
theorem v4_apply : val_main_v4 (F := Ideal) a1 (ix3 b n k) = a1 (ix3 b n k) := by
  have h := (hidx b n k).1
  change 0 ≤ (a1 (ix3 b n k)).toInt at h
  have h1 : val_main_v1 (F := Ideal) a1 (ix3 b n k) = 0#1 := by
    unfold val_main_v1 val_main_v0 val_main_c
    show IntOp.cmpi .slt (a1 (ix3 b n k))
      (broadcastInDim S8x1024x20 ![] bcast_S_S8x1024x20 (constantI S_ 32 0#32) (ix3 b n k)) = 0#1
    rw [broadcastInDim_scalar_apply]
    show BitVec.ofBool ((a1 (ix3 b n k)).slt 0#32) = 0#1
    have : (a1 (ix3 b n k)).slt 0#32 = false := by
      unfold BitVec.slt
      rw [BitVec.toInt_zero]
      exact decide_eq_false (not_lt.mpr h)
    rw [this]; rfl
  unfold val_main_v4
  rw [select_apply, h1, select_zero]

/-- For a word in [0, 1024) the clamp is vacuous: the gathered row is row idx[b, n, k] of x. -/
theorem v6_apply : val_main_v6 (F := Ideal) a0 a1 (ix4 b n k d) = a0 (ix3 b (Cert.Spec.row (Cert.Spec.cur3 a1) b n k) d) := by
  have h := hidx b n k
  change 0 ≤ (a1 (ix3 b n k)).toInt ∧ (a1 (ix3 b n k)).toInt < 1024 at h
  unfold val_main_v6
  rw [gather_apply]
  refine congrArg a0 (funext fun a => Fin.ext ?_)
  match a with
  | ⟨0, _⟩ => rfl
  | ⟨1, _⟩ =>
    show min (val_main_v5 (F := Ideal) a1 (ix4 b n k ⟨0, Nat.one_pos⟩)).toInt.toNat 1023 = (a1 (ix3 b n k)).toNat % 1024
    rw [v5_apply, v4_apply hidx]
    have hlt := (a1 (ix3 b n k)).isLt
    rw [BitVec.toInt_eq_toNat_cond] at h ⊢
    split_ifs at h ⊢ <;> omega
  | ⟨2, _⟩ => rfl

/-- Columns below 512 hold x[nbr] − x[n], the remaining ones x[n]. -/
theorem v11_apply (c : Fin 1024) :
    val_main_v11 (F := Ideal) a0 a1 (ix4 b n k c) = Cert.Spec.edge (Cert.Spec.cur3 a0) (Cert.Spec.cur3 a1) b n k c := by
  unfold val_main_v11 Cert.Spec.edge
  by_cases hc : c.val < 512
  · rw [dif_pos hc, concatenate_pair_apply_left (t := S8x1024x20x1024) (s₁ := S8x1024x20x512) (s₂ := S8x1024x20x512) _ _ _ _ (ix4 b n k c) rfl
      (ix4 b n k ⟨c.val, hc⟩ : S8x1024x20x512.Idx) (fin4 rfl rfl rfl rfl)]
    unfold val_main_v9
    rw [subf_apply, v6_apply hidx, v8_apply]
    rfl
  · rw [dif_neg hc, concatenate_pair_apply_right (t := S8x1024x20x1024) (s₁ := S8x1024x20x512) (s₂ := S8x1024x20x512) _ _ _ _ (ix4 b n k c) rfl rfl
      (ix4 b n k ⟨c.val - 512, by omega⟩ : S8x1024x20x512.Idx) (fun a ha => by match a with | ⟨0, _⟩ => rfl | ⟨1, _⟩ => rfl | ⟨2, _⟩ => rfl | ⟨3, _⟩ => exact absurd rfl ha)
      (by show c.val - 512 + 512 = c.val; omega)]
    exact v8_apply b n k _

local notation "hh" => Cert.Spec.hR (Cert.Spec.cur3 a0) (Cert.Spec.cur3 a1) (Cert.Spec.cur2 a2)
local notation "aa" => Cert.Spec.act1 hh (Cert.Spec.var1R hh) (Cert.Spec.cur1 a3) (Cert.Spec.cur1 a4)
local notation "vv" => Cert.Spec.proj2 aa (Cert.Spec.cur2 a5)

/-- The first product contracts the edge vector with W1 over the 1024 columns. -/
theorem v12_apply : val_main_v12 (F := Ideal) a0 a1 a2 (ix4 b n k m) = hh b n k m := by
  unfold val_main_v12
  rw [dot_apply _ 1024 rfl rfl _ _ _ (ix4 b n k) (ix2 m) (fun q => funext (fin4 rfl rfl rfl rfl))
    fun q => funext (fin2 rfl rfl)]
  exact Finset.sum_congr rfl fun c _ => by rw [v11_apply hidx]; rfl

theorem v13_apply : val_main_v13 (F := Ideal) a0 a1 a2 (ix1 m) = Cert.Spec.sum1 hh m := by
  unfold val_main_v13 val_main_cst
  exact reduceAdd_bnk m _ _ fun b n k => v12_apply hidx b n k m

theorem v16_apply : val_main_v16 (F := Ideal) a0 a1 a2 (chan4 m) = Cert.Spec.mean1 hh m := by
  unfold val_main_v16 val_main_v14 val_main_v15 val_main_cst_1 Cert.Spec.mean1
  rw [hostDivf_apply, bcastc4_apply, broadcastInDim_scalar_apply, constant_apply, v13_apply hidx]
  rfl

/-- The count is positive, so the guarded quotient is the sum of squared deviations over the count. -/
theorem v17_apply : val_main_v17 (F := Ideal) a0 a1 a2 (chan4 m) = Cert.Spec.var1R hh m := by
  unfold val_main_v17
  rw [select_apply, broadcastInDim_scalar_apply, show val_main_call0_v13 (F := Ideal) ix0 = 1#1 from guard_apply _ cnt1_pos _, select_one]
  unfold val_main_call0_v12 val_main_call0_v10 val_main_call0_v11 val_main_call0_v9 val_main_call0_cst_2
  rw [hostDivf_apply, bcastc4_apply, broadcastInDim_scalar_apply, show val_main_call0_v8 (F := Ideal) ix0 = _ from cnt_apply _ _,
    reduceAdd_bnk m _ _ fun b n k => ?_]
  · rfl
  · unfold val_main_call0_v6 val_main_call0_v5 val_main_call0_v4
    rw [mulf_apply, subf_apply, bcast4_apply, show val_main_call0_v3 (F := Ideal) a0 a1 a2 = val_main_v16 (F := Ideal) a0 a1 a2 from rfl,
      v16_apply hidx, v12_apply hidx]

/-- Each broadcast reads its channel, which leaves the affine normalisation of one value. -/
theorem v30_apply : val_main_v30 (F := Ideal) a0 a1 a2 a3 a4 (ix4 b n k m)
      = Cert.Spec.bn (hh b n k m) (Cert.Spec.mean1 hh m) (Cert.Spec.var1R hh m) (Cert.Spec.cur1 a3 m) (Cert.Spec.cur1 a4 m) := by
  unfold val_main_v30 val_main_v27 val_main_v24 val_main_v19 val_main_v18 val_main_v23 val_main_v22 val_main_v21 val_main_v20
    val_main_cst_3 val_main_v26 val_main_v25 val_main_v29 val_main_v28 Cert.Spec.bn
  rw [addf_apply, mulf_apply, mulf_apply, subf_apply, bcast4_apply, bcast4_apply, bcast4_apply, bcast4_apply,
    bcastc4_apply, bcastc4_apply, v12_apply hidx, v16_apply hidx]
  show (_ - _) * Ideal.rsqrt (val_main_v17 (F := Ideal) a0 a1 a2 (chan4 m)
    + broadcastInDim S1x1x1x64 ![] bcast_S_S1x1x1x64 (constant (F := Ideal) S_ .f32 0x3727C5AC#32) (chan4 m)) * _ + _ = _
  rw [v17_apply hidx, broadcastInDim_scalar_apply, constant_apply]
  rfl

theorem v35_apply : val_main_v35 (F := Ideal) a0 a1 a2 a3 a4 (ix4 b n k m) = aa b n k m := by
  unfold val_main_v35 val_main_v32 val_main_v31 val_main_cst_4 val_main_v34 val_main_v33 val_main_cst_5
  rw [select_apply, cmpf_apply, mulf_apply, broadcastInDim_scalar_apply, broadcastInDim_scalar_apply, constant_apply, constant_apply,
    Ideal.ofBits_zero_f32, v30_apply hidx]
  exact leaky_form _

/-- A fold of max from ⊥ over the neighbour axis is the supremum over that axis. -/
theorem v36_apply : val_main_v36 (F := Ideal) a0 a1 a2 a3 a4 (ix3 b n m) = Cert.Spec.hmax aa b n m := by
  unfold val_main_v36 val_main_cst_6 Cert.Spec.hmax Finset.sup
  rw [Host.reduce_eq_fold_single FloatOps.maximumf _ _ reducesTo_S8x1024x20x64_S8x1024x64_d2
    (by decide : S8x1024x20x64.Reduces [2] S8x1024x64) h_S_,
    show constant (F := Ideal) S_ .f32 0xFF800000#32 (Shape.Idx.first h_S_) = (⊥ : EReal) from ofBits_neg_inf]
  refine Finset.fold_congr fun (k : Fin 20) _ => ?_
  have hl : (by decide : S8x1024x20x64.Reduces [2] S8x1024x64).lift (ix3 b n m) k = ix4 b n k m := funext (fin4 rfl rfl rfl rfl)
  show val_main_v35 (F := Ideal) a0 a1 a2 a3 a4 _ = _
  rw [hl, v35_apply hidx]

/-- The second product contracts the neighbour maxima with W2 over the 64 channels. -/
theorem v37_apply : val_main_v37 (F := Ideal) a0 a1 a2 a3 a4 a5 (ix3 b n d) = vv b n d := by
  unfold val_main_v37
  rw [dot_apply _ 64 rfl rfl _ _ _ (ix3 b n) (ix2 d) (fun q => funext (fin3 rfl rfl rfl))
    fun q => funext (fin2 rfl rfl)]
  exact Finset.sum_congr rfl fun m _ => by rw [v36_apply hidx]; rfl

theorem v38_apply : val_main_v38 (F := Ideal) a0 a1 a2 a3 a4 a5 (ix1 d) = Cert.Spec.sum2 vv d := by
  unfold val_main_v38 val_main_cst_7
  exact reduceAdd_bn d _ _ fun b n => v37_apply hidx b n d

theorem v41_apply : val_main_v41 (F := Ideal) a0 a1 a2 a3 a4 a5 (chan3 d) = Cert.Spec.mean2 vv d := by
  unfold val_main_v41 val_main_v39 val_main_v40 val_main_cst_8 Cert.Spec.mean2
  rw [hostDivf_apply, bcastc3_apply, broadcastInDim_scalar_apply, constant_apply, v38_apply hidx]
  rfl

theorem v42_apply : val_main_v42 (F := Ideal) a0 a1 a2 a3 a4 a5 (chan3 d) = Cert.Spec.var2R vv d := by
  unfold val_main_v42
  rw [select_apply, broadcastInDim_scalar_apply, show val_main_call2_v13 (F := Ideal) ix0 = 1#1 from guard_apply _ cnt2_pos _, select_one]
  unfold val_main_call2_v12 val_main_call2_v10 val_main_call2_v11 val_main_call2_v9 val_main_call2_cst_2
  rw [hostDivf_apply, bcastc3_apply, broadcastInDim_scalar_apply, show val_main_call2_v8 (F := Ideal) ix0 = _ from cnt_apply _ _,
    reduceAdd_bn d _ _ fun b n => ?_]
  · rfl
  · unfold val_main_call2_v6 val_main_call2_v5 val_main_call2_v4
    rw [mulf_apply, subf_apply, bcast3_apply,
      show val_main_call2_v3 (F := Ideal) a0 a1 a2 a3 a4 a5 = val_main_v41 (F := Ideal) a0 a1 a2 a3 a4 a5 from rfl,
      v41_apply hidx, v37_apply hidx]

theorem v55_apply : val_main_v55 (F := Ideal) a0 a1 a2 a3 a4 a5 a6 a7 (ix3 b n d)
      = Cert.Spec.bn (vv b n d) (Cert.Spec.mean2 vv d) (Cert.Spec.var2R vv d) (Cert.Spec.cur1 a6 d) (Cert.Spec.cur1 a7 d) := by
  unfold val_main_v55 val_main_v52 val_main_v49 val_main_v44 val_main_v43 val_main_v48 val_main_v47 val_main_v46 val_main_v45
    val_main_cst_10 val_main_v51 val_main_v50 val_main_v54 val_main_v53 Cert.Spec.bn
  rw [addf_apply, mulf_apply, mulf_apply, subf_apply, bcast3_apply, bcast3_apply, bcast3_apply, bcast3_apply,
    bcastc3_apply, bcastc3_apply, v37_apply hidx, v41_apply hidx]
  show (_ - _) * Ideal.rsqrt (val_main_v42 (F := Ideal) a0 a1 a2 a3 a4 a5 (chan3 d)
    + broadcastInDim S1x1x512 ![] bcast_S_S1x1x512 (constant (F := Ideal) S_ .f32 0x3727C5AC#32) (chan3 d)) * _ + _ = _
  rw [v42_apply hidx, broadcastInDim_scalar_apply, constant_apply]
  rfl

theorem v60_apply : val_main_v60 (F := Ideal) a0 a1 a2 a3 a4 a5 a6 a7 (ix3 b n d)
      = Cert.Spec.act2 vv (Cert.Spec.var2R vv) (Cert.Spec.cur1 a6) (Cert.Spec.cur1 a7) b n d := by
  unfold val_main_v60 val_main_v57 val_main_v56 val_main_cst_11 val_main_v59 val_main_v58 val_main_cst_12
  rw [select_apply, cmpf_apply, mulf_apply, broadcastInDim_scalar_apply, broadcastInDim_scalar_apply, constant_apply, constant_apply,
    Ideal.ofBits_zero_f32, v55_apply hidx]
  exact leaky_form _

end

/-- With every index word in [0, 1024) the reference at (b, n, d) is the gather-then-project form of the layer. -/
theorem refOut_apply [Cert.ReferenceIdeal.Facts]
    (a0 : (⟨S8x1024x512, .f32⟩ : BufTy).Contents (Elt Ideal)) (a1 : (⟨S8x1024x20, .i32⟩ : BufTy).Contents (Elt Ideal))
    (a2 : (⟨S64x1024, .f32⟩ : BufTy).Contents (Elt Ideal)) (a3 a4 : (⟨S64, .f32⟩ : BufTy).Contents (Elt Ideal))
    (a5 : (⟨S512x64, .f32⟩ : BufTy).Contents (Elt Ideal)) (a6 a7 : (⟨S512, .f32⟩ : BufTy).Contents (Elt Ideal))
    (hidx : Cert.Spec.InRange (Cert.Spec.cur3 a1)) (b : Fin 8) (n : Fin 1024) (d : Fin 512) :
    refOut (F := Ideal) a0 a1 a2 a3 a4 a5 a6 a7 (ix3 b n d)
      = Cert.Spec.outR (Cert.Spec.cur3 a0) (Cert.Spec.cur3 a1) (Cert.Spec.cur2 a2) (Cert.Spec.cur1 a3) (Cert.Spec.cur1 a4)
          (Cert.Spec.cur2 a5) (Cert.Spec.cur1 a6) (Cert.Spec.cur1 a7) b n d :=
  v60_apply hidx b n d

end Cert.ReferenceIdeal.Hand

end
-- ==== Proof.Algebra.lean ====
import proofs.«401853_j10514079941286_3_alg».proof.Proof.Spec
import Mathlib.Algebra.BigOperators.Fin
import Mathlib.Algebra.BigOperators.Ring.Finset
import Mathlib.Data.Finset.Lattice.Fold
import Mathlib.Tactic.Ring
import Mathlib.Tactic.FieldSimp
import Mathlib.Tactic.Positivity
import Mathlib.Tactic.NormNum

noncomputable section

namespace Cert.Spec

open Idealize.ShloMosaic

def IsReal (v : EReal) : Prop := v ≠ ⊤ ∧ v ≠ ⊥

theorem isReal_coe (r : ℝ) : IsReal (r : EReal) := ⟨EReal.coe_ne_top r, EReal.coe_ne_bot r⟩

theorem IsReal.exists {v : EReal} (h : IsReal v) : ∃ r : ℝ, v = (r : EReal) :=
  ⟨v.toReal, (EReal.coe_toReal h.1 h.2).symm⟩

theorem isReal_zero : IsReal (0 : EReal) := by
  rw [← EReal.coe_zero]; exact isReal_coe 0

theorem IsReal.add {a b : EReal} (ha : IsReal a) (hb : IsReal b) : IsReal (a + b) := by
  obtain ⟨r, rfl⟩ := ha.exists
  obtain ⟨s, rfl⟩ := hb.exists
  rw [← EReal.coe_add]; exact isReal_coe _

theorem IsReal.sub {a b : EReal} (ha : IsReal a) (hb : IsReal b) : IsReal (a - b) := by
  obtain ⟨r, rfl⟩ := ha.exists
  obtain ⟨s, rfl⟩ := hb.exists
  rw [← EReal.coe_sub]; exact isReal_coe _

theorem IsReal.mul {a b : EReal} (ha : IsReal a) (hb : IsReal b) : IsReal (a * b) := by
  obtain ⟨r, rfl⟩ := ha.exists
  obtain ⟨s, rfl⟩ := hb.exists
  rw [← EReal.coe_mul]; exact isReal_coe _

theorem IsReal.sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sup {ι : Type} (s : Finset ι) (hs : s.Nonempty) (f : ι → EReal) (h : ∀ i ∈ s, IsReal (f i)) :
    IsReal (s.sup f) := by
  obtain ⟨i, hi, hsup⟩ := Finset.exists_mem_eq_sup s hs f
  rw [hsup]; exact h i hi

theorem cnt1_eq : cnt1 = ((163840 : ℝ) : EReal) := by
  simp [cnt1, Ideal.ofBits, Ideal.ieee, -EReal.coe_mul]; norm_num

theorem cnt2_eq : cnt2 = ((8192 : ℝ) : EReal) := by
  simp [cnt2, Ideal.ofBits, Ideal.ieee, -EReal.coe_mul]; norm_num

theorem eps_eq : ∃ e : ℝ, 0 < e ∧ eps = (e : EReal) := by
  refine ⟨_, ?_, by simp [eps, Ideal.ofBits, Ideal.ieee, -EReal.coe_mul]; rfl⟩
  positivity

theorem slope_isReal : IsReal slope := by
  simp [slope, Ideal.ofBits, Ideal.ieee, -EReal.coe_mul]
  exact isReal_coe _

theorem pick_eq (x : ArrX) (idx : ArrIdx) (W1 : ArrW1) (b : Fin 8) (n : Fin 1024) (k : Fin 20) (m : Fin 64) :
    pick x idx W1 b n k m = proj x (w1lo W1) b (row idx b n k) m := by
  simp only [pick, ite_mul, one_mul, zero_mul, Finset.sum_ite_eq, Finset.mem_univ, if_true]

theorem hR_split (x : ArrX) (idx : ArrIdx) (W1 : ArrW1) (b : Fin 8) (n : Fin 1024) (k : Fin 20) (m : Fin 64) :
    hR x idx W1 b n k m
      = (∑ c : Fin 512, (x b (row idx b n k) c - x b n c) * w1lo W1 m c) + ∑ c : Fin 512, x b n c * w1hi W1 m c := by
  have hsplit := Fin.sum_univ_add (a := 512) (b := 512) (fun c : Fin (512 + 512) => edge x idx b n k c * W1 m c)
  refine Eq.trans hsplit ?_
  refine congrArg₂ (· + ·) (Finset.sum_congr rfl fun c _ => ?_) (Finset.sum_congr rfl fun c _ => ?_)
  · have hc : (Fin.castAdd 512 c).val < 512 := c.isLt
    simp only [edge, hc, dite_true, w1lo]
    rfl
  · have hc : ¬ (Fin.natAdd 512 c).val < 512 := by simp [Fin.natAdd]
    simp only [edge, hc, dite_false, w1hi]
    congr 2
    exact Fin.ext (by simp [Fin.natAdd])

theorem edge_sum_real (a b c u v : Fin 512 → ℝ) :
    (∑ i, (a i : EReal) * (u i : EReal)) - (∑ i, (b i : EReal) * (u i : EReal)) + ∑ i, (c i : EReal) * (v i : EReal)
      = (∑ i, ((a i : EReal) - (b i : EReal)) * (u i : EReal)) + ∑ i, (c i : EReal) * (v i : EReal) := by
  simp only [← EReal.coe_mul, ← EReal.coe_sub, ← coe_sum, ← EReal.coe_add]
  rw [EReal.coe_eq_coe_iff]
  simp only [sub_mul, Finset.sum_sub_distrib]

theorem hK_eq_hR (x : ArrX) (idx : ArrIdx) (W1 : ArrW1) (hx : Fin3 x) (hW1 : Fin2W1 W1) :
    hK x idx W1 = hR x idx W1 := by
  choose xr hxr using fun b n c => IsReal.exists (hx b n c)
  choose wr hwr using fun m c => IsReal.exists (hW1 m c)
  funext b n k m
  rw [hR_split]
  simp only [hK, pick_eq, proj, w1lo, w1hi, hxr, hwr]
  exact edge_sum_real _ _ _ _ _

theorem hR_isReal (x : ArrX) (idx : ArrIdx) (W1 : ArrW1) (hx : Fin3 x) (hW1 : Fin2W1 W1)
    (b : Fin 8) (n : Fin 1024) (k : Fin 20) (m : Fin 64) : IsReal (hR x idx W1 b n k m) := by
  refine IsReal.sum _ _ fun c _ => IsReal.mul ?_ (hW1 m c)
  unfold edge
  split
  · exact IsReal.sub (hx _ _ _) (hx _ _ _)
  · exact hx _ _ _

theorem var_identity_real {ι : Type} [Fintype ι] (f : ι → ℝ) (N : ℝ) (hN : (Fintype.card ι : ℝ) = N) (hpos : 0 < N) :
    (∑ i, f i * f i) * (1 / N) - ((∑ i, f i) * (1 / N)) * ((∑ i, f i) * (1 / N))
      = (∑ i, (f i - (∑ j, f j) * (1 / N)) * (f i - (∑ j, f j) * (1 / N))) * (1 / N) := by
  set S : ℝ := ∑ i, f i with hS
  set SS : ℝ := ∑ i, f i * f i with hSS
  have hexp : ∀ i, (f i - S * (1 / N)) * (f i - S * (1 / N))
      = f i * f i - 2 * (S * (1 / N)) * f i + (S * (1 / N)) * (S * (1 / N)) := fun i => by ring
  have hsum : (∑ i, (f i - S * (1 / N)) * (f i - S * (1 / N)))
      = SS - 2 * (S * (1 / N)) * S + N * ((S * (1 / N)) * (S * (1 / N))) := by
    simp only [hexp, Finset.sum_add_distrib, Finset.sum_sub_distrib, ← Finset.mul_sum, Finset.sum_const,
      Finset.card_univ, nsmul_eq_mul, hN, ← hS, ← hSS]
    ring
  have hne : N ≠ 0 := hpos.ne'
  have hrhs : (∑ i, (f i - S * (1 / N)) * (f i - S * (1 / N))) * (1 / N)
      = SS * (1 / N) - (S * (1 / N)) * (S * (1 / N)) := by
    rw [hsum]; field_simp; ring
  exact hrhs.symm

theorem var_identity {ι : Type} [Fintype ι] (f : ι → ℝ) (N : ℝ) (hN : (Fintype.card ι : ℝ) = N) (hpos : 0 < N) :
    max (Ideal.div (∑ i, (f i : EReal) * (f i : EReal)) (N : EReal)
          - Ideal.div (∑ i, (f i : EReal)) (N : EReal) * Ideal.div (∑ i, (f i : EReal)) (N : EReal)) 0
      = Ideal.div (∑ i, ((f i : EReal) - Ideal.div (∑ j, (f j : EReal)) (N : EReal))
          * ((f i : EReal) - Ideal.div (∑ j, (f j : EReal)) (N : EReal))) (N : EReal)
    ∧ (∃ V : ℝ, 0 ≤ V ∧ Ideal.div (∑ i, ((f i : EReal) - Ideal.div (∑ j, (f j : EReal)) (N : EReal))
          * ((f i : EReal) - Ideal.div (∑ j, (f j : EReal)) (N : EReal))) (N : EReal) = (V : EReal))
    ∧ IsReal (Ideal.div (∑ i, (f i : EReal)) (N : EReal)) := by
  have hne : N ≠ 0 := hpos.ne'
  simp only [Ideal.div_coe hne, ← EReal.coe_mul, ← coe_sum, ← EReal.coe_sub]
  have hnonneg : 0 ≤ (∑ i, (f i - (∑ j, f j) * (1 / N)) * (f i - (∑ j, f j) * (1 / N))) * (1 / N) :=
    mul_nonneg (Finset.sum_nonneg fun i _ => mul_self_nonneg _) (by positivity)
  refine ⟨?_, ⟨_, hnonneg, rfl⟩, isReal_coe _⟩
  rw [var_identity_real f N hN hpos]
  exact max_eq_left (EReal.coe_nonneg.2 hnonneg)

theorem sum3 {M : Type} [AddCommMonoid M] (g : Fin 8 → Fin 1024 → Fin 20 → M) :
    ∑ b, ∑ n, ∑ k, g b n k = ∑ p : Fin 8 × Fin 1024 × Fin 20, g p.1 p.2.1 p.2.2 := by
  simp only [Fintype.sum_prod_type]

theorem sum2' {M : Type} [AddCommMonoid M] (g : Fin 8 → Fin 1024 → M) :
    ∑ b, ∑ n, g b n = ∑ p : Fin 8 × Fin 1024, g p.1 p.2 := by
  simp only [Fintype.sum_prod_type]

theorem card3 : (Fintype.card (Fin 8 × Fin 1024 × Fin 20) : ℝ) = 163840 := by
  simp only [Fintype.card_prod, Fintype.card_fin]; norm_num

theorem card2 : (Fintype.card (Fin 8 × Fin 1024) : ℝ) = 8192 := by
  simp only [Fintype.card_prod, Fintype.card_fin]; norm_num

theorem var1_facts (h : ArrH) (hh : ∀ b n k m, IsReal (h b n k m)) (m : Fin 64) :
    var1K h m = var1R h m ∧ (∃ V : ℝ, 0 ≤ V ∧ var1R h m = (V : EReal)) ∧ IsReal (mean1 h m) := by
  choose hr hhr using fun b n k m => IsReal.exists (hh b n k m)
  obtain rfl : h = fun b n k m => (hr b n k m : EReal) := by funext b n k m; exact hhr b n k m
  simp only [var1K, var1R, mean1, sum1, sumsq1, cnt1_eq]
  simp only [sum3]
  exact var_identity (fun p : Fin 8 × Fin 1024 × Fin 20 => hr p.1 p.2.1 p.2.2 m) 163840 card3 (by norm_num)

theorem var2_eq (v : ArrH2) (hv : ∀ b n d, IsReal (v b n d)) (d : Fin 512) : var2K v d = var2R v d := by
  choose vr hvr using fun b n d => IsReal.exists (hv b n d)
  obtain rfl : v = fun b n d => (vr b n d : EReal) := by funext b n d; exact hvr b n d
  simp only [var2K, var2R, mean2, sum2, sumsq2, cnt2_eq]
  simp only [sum2']
  exact (var_identity (fun p : Fin 8 × Fin 1024 => vr p.1 p.2 d) 8192 card2 (by norm_num)).1

theorem rsqrt_isReal {r : ℝ} (hr : 0 < r) : IsReal (Ideal.rsqrt (r : EReal)) := by
  rw [Ideal.rsqrt_coe, if_neg (not_lt.mpr hr.le), if_neg hr.ne']
  exact isReal_coe _

theorem leaky_isReal {v : EReal} (hv : IsReal v) : IsReal (leaky v) := by
  unfold leaky
  split
  · exact hv
  · exact slope_isReal.mul hv

theorem bn_isReal {v mean var g b : EReal} (hv : IsReal v) (hm : IsReal mean)
    (hvar : ∃ V : ℝ, 0 ≤ V ∧ var = (V : EReal)) (hg : IsReal g) (hb : IsReal b) : IsReal (bn v mean var g b) := by
  obtain ⟨V, hV, rfl⟩ := hvar
  obtain ⟨e, he, hee⟩ := eps_eq
  unfold bn
  rw [hee, ← EReal.coe_add]
  exact (((hv.sub hm).mul (rsqrt_isReal (add_pos_of_nonneg_of_pos hV he))).mul hg).add hb

theorem proj2_isReal (h : ArrH) (hh : ∀ b n k m, IsReal (h b n k m)) (g1 b1 : ArrV64) (W2 : ArrW2)
    (hg1 : Fin1a g1) (hb1 : Fin1a b1) (hW2 : Fin2W2 W2) (b : Fin 8) (n : Fin 1024) (d : Fin 512) :
    IsReal (proj2 (act1 h (var1R h) g1 b1) W2 b n d) := by
  refine IsReal.sum _ _ fun m _ => IsReal.mul ?_ (hW2 d m)
  refine IsReal.sup _ Finset.univ_nonempty _ fun k _ => ?_
  obtain ⟨-, hV, hm⟩ := var1_facts h hh m
  exact leaky_isReal (bn_isReal (hh b n k m) hm hV (hg1 m) (hb1 m))

theorem outK_eq_outR (x : ArrX) (idx : ArrIdx) (W1 : ArrW1) (g1 b1 : ArrV64) (W2 : ArrW2) (g2 b2 : ArrV512)
    (hx : Fin3 x) (hW1 : Fin2W1 W1) (hg1 : Fin1a g1) (hb1 : Fin1a b1) (hW2 : Fin2W2 W2) (hg2 : Fin1b g2)
    (hb2 : Fin1b b2) :
    outK x idx W1 g1 b1 W2 g2 b2 = outR x idx W1 g1 b1 W2 g2 b2 := by
  have hh : hK x idx W1 = hR x idx W1 := hK_eq_hR x idx W1 hx hW1
  have hfin : ∀ b n k m, IsReal (hR x idx W1 b n k m) := hR_isReal x idx W1 hx hW1
  have hv1 : var1K (hR x idx W1) = var1R (hR x idx W1) := funext fun m => (var1_facts _ hfin m).1
  have hv2 : var2K (proj2 (act1 (hR x idx W1) (var1R (hR x idx W1)) g1 b1) W2)
      = var2R (proj2 (act1 (hR x idx W1) (var1R (hR x idx W1)) g1 b1) W2) :=
    funext fun d => var2_eq _ (proj2_isReal _ hfin g1 b1 W2 hg1 hb1 hW2) d
  show act2 (proj2 (act1 (hK x idx W1) (var1K (hK x idx W1)) g1 b1) W2)
      (var2K (proj2 (act1 (hK x idx W1) (var1K (hK x idx W1)) g1 b1) W2)) g2 b2
    = act2 (proj2 (act1 (hR x idx W1) (var1R (hR x idx W1)) g1 b1) W2)
      (var2R (proj2 (act1 (hR x idx W1) (var1R (hR x idx W1)) g1 b1) W2)) g2 b2
  rw [hh, hv1, hv2]

end Cert.Spec

end
-- ==== Proof.PreFacts.lean ====
import proofs.«401853_j10514079941286_3_alg».proof.Pre_finite_inputs
import proofs.«401853_j10514079941286_3_alg».proof.Proof.Gen.Pre_finite_inputs
import proofs.«401853_j10514079941286_3_alg».proof.Proof.Spec
import Idealize.ShloMosaic.Lib.ReduceAll
import Idealize.ShloMosaic.Lib.Affine
import Idealize.ShloMosaic.Lib.StableHlo.Predicate

noncomputable section

namespace Cert.PreFacts

open Idealize.ShloMosaic Cert.Pre_finite_inputs

variable [Cert.Pre_finite_inputs.Facts]

instance : Subsingleton S_.Idx := ⟨fun a b => funext fun d => d.elim0⟩

theorem real_of_abs_lt (x : EReal)
    (h : FloatOps.cmpf (F := Ideal) (φ := .f32) CmpFPredicate.olt (FloatOps.hostAbsf (F := Ideal) (φ := .f32) x)
      (FloatOps.ofBits (F := Ideal) .f32 0x7F800000#32) = 1#1) : x ≠ ⊤ ∧ x ≠ ⊥ := by
  have htop : Ideal.ofBits .f32 0x7F800000#32 = (⊤ : EReal) := by
    simp [Ideal.ofBits, Ideal.ieee]
  have h' : max x (-x) < (⊤ : EReal) := by
    have := h
    simp only [Ideal.ofBits_def, htop] at this
    change BitVec.ofBool (decide (max x (-x) < (⊤ : EReal))) = 1#1 at this
    rw [StableHlo.Predicate.ofBool_eq_one_iff, decide_eq_true_eq] at this
    exact this
  constructor
  · rintro rfl; simp at h'
  · rintro rfl; simp at h'

theorem range_of_cmp (w : BitVec 32)
    (h : IntOp.andi (IntOp.cmpi CmpIPredicate.sge w 0#32) (IntOp.cmpi CmpIPredicate.slt w 1024#32) = 1#1) :
    0 ≤ w.toInt ∧ w.toInt < 1024 := by
  rw [IntOp.andi_eq_one] at h
  obtain ⟨h1, h2⟩ := h
  simp only [IntOp.cmpi] at h1 h2
  rw [StableHlo.Predicate.ofBool_eq_one_iff] at h1 h2
  have z : (0#32 : BitVec 32).toInt = 0 := by decide
  have k : (1024#32 : BitVec 32).toInt = 1024 := by decide
  constructor
  · have := h1
    simp only [BitVec.sle, decide_eq_true_eq, z] at this
    exact this
  · have := h2
    simp only [BitVec.slt, decide_eq_true_eq, k] at this
    exact this

theorem facts (a0 : FVec Ideal S8x1024x512 .f32) (a1 : IVec S8x1024x20 32) (a2 : FVec Ideal S64x1024 .f32)
    (a3 : FVec Ideal S64 .f32) (a4 : FVec Ideal S64 .f32) (a5 : FVec Ideal S512x64 .f32) (a6 : FVec Ideal S512 .f32)
    (a7 : FVec Ideal S512 .f32) (h : fn (F := Ideal) a0 a1 a2 a3 a4 a5 a6 a7 = fun _ => 1#1) :
    Cert.Spec.Fin3 (Cert.Spec.cur3 a0) ∧ Cert.Spec.InRange (Cert.Spec.cur3 a1) ∧ Cert.Spec.Fin2W1 (Cert.Spec.cur2 a2)
      ∧ Cert.Spec.Fin1a (Cert.Spec.cur1 a3) ∧ Cert.Spec.Fin1a (Cert.Spec.cur1 a4) ∧ Cert.Spec.Fin2W2 (Cert.Spec.cur2 a5)
      ∧ Cert.Spec.Fin1b (Cert.Spec.cur1 a6) ∧ Cert.Spec.Fin1b (Cert.Spec.cur1 a7) := by
  have h0 := congrFun h ValueIdx.ix0
  dsimp only [fn, fn_part1, fn_part2] at h0
  have e : ∀ (x y : IVec S_ 1), andi x y ValueIdx.ix0 = IntOp.andi (x ValueIdx.ix0) (y ValueIdx.ix0) := fun _ _ => rfl
  simp only [e, IntOp.andi_eq_one] at h0
  obtain ⟨⟨⟨⟨⟨⟨⟨h0', h2⟩, h3⟩, h4⟩, h5⟩, h6⟩, h7⟩, h1⟩ := h0
  refine ⟨fun b n c => ?_, fun b n k => ?_, fun m c => ?_, fun m => ?_, fun m => ?_, fun d m => ?_, fun d => ?_, fun d => ?_⟩
  · exact real_of_abs_lt _ (Host.reduce_andi_all _ _ _ _ _ h0' (ValueIdx.ix3 b n c))
  · exact range_of_cmp _ (Host.reduce_andi_all _ _ _ _ _ h1 (ValueIdx.ix3 b n k))
  · exact real_of_abs_lt _ (Host.reduce_andi_all _ _ _ _ _ h2 (ValueIdx.ix2 m c))
  · exact real_of_abs_lt _ (Host.reduce_andi_all _ _ _ _ _ h3 (ValueIdx.ix1 m))
  · exact real_of_abs_lt _ (Host.reduce_andi_all _ _ _ _ _ h4 (ValueIdx.ix1 m))
  · exact real_of_abs_lt _ (Host.reduce_andi_all _ _ _ _ _ h5 (ValueIdx.ix2 d m))
  · exact real_of_abs_lt _ (Host.reduce_andi_all _ _ _ _ _ h6 (ValueIdx.ix1 d))
  · exact real_of_abs_lt _ (Host.reduce_andi_all _ _ _ _ _ h7 (ValueIdx.ix1 d))

end Cert.PreFacts

end
-- ==== Proof.lean ====
import proofs.«401853_j10514079941286_3_alg».proof.Defs
import proofs.«401853_j10514079941286_3_alg».proof.Proof.Gen.Kernel
import proofs.«401853_j10514079941286_3_alg».proof.Proof.Gen.KernelIdeal
import proofs.«401853_j10514079941286_3_alg».proof.Proof.Gen.ReferenceIdeal
import proofs.«401853_j10514079941286_3_alg».proof.Proof.Gen.Pre_finite_inputs
import proofs.«401853_j10514079941286_3_alg».proof.Proof.K.Run
import proofs.«401853_j10514079941286_3_alg».proof.Proof.KI.Run
import proofs.«401853_j10514079941286_3_alg».proof.Proof.KV.Glue
import proofs.«401853_j10514079941286_3_alg».proof.Proof.Ref.Run
import proofs.«401853_j10514079941286_3_alg».proof.Proof.Ref.Value
import proofs.«401853_j10514079941286_3_alg».proof.Proof.Algebra
import proofs.«401853_j10514079941286_3_alg».proof.Proof.PreFacts

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ => Cert.ReferenceIdeal.Hand.frame m ρ

/-- For real arguments and row numbers in range the kernel's one-hot products and `E[v²] − E[v]²` are the reference's gathers and `E[(v − E[v])²]`. -/
theorem algebraic : Cert.algebraic_KernelIdeal_ReferenceIdeal := by
  intro m ρ m' ρ' hpre hagree
  refine ⟨fun c => Cert.KernelIdeal.Hand.W9 (F := Ideal) m ρ c (Proc.devRef .tc Cert.KernelIdeal.main_v39),
    Cert.KernelIdeal.Hand.result (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7⟩ := hagree c
  rw [e0, e1, e2, e3, e4, e5, e6, e7]
  obtain ⟨hx, hidx, hW1, hg1, hb1, hW2, hg2, hb2⟩ := Cert.PreFacts.facts _ _ _ _ _ _ _ _ (hpre c)
  funext i
  rw [ValueIdx.eq_ix3 i]
  refine (Cert.ReferenceIdeal.Hand.refOut_apply _ _ _ _ _ _ _ _ hidx _ _ _).trans ?_
  refine Eq.trans ?_ (Cert.KernelIdeal.HandV.kernel_value m ρ c hidx _ _ _).symm
  exact (congrFun (congrFun (congrFun (Cert.Spec.outK_eq_outR _ _ _ _ _ _ _ _ hx hW1 hg1 hb1 hW2 hg2 hb2) _) _) _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
